-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x15 : Shape := ⟨2, ![100000, 15]⟩
abbrev S2x1200000 : Shape := ⟨2, ![2, 1200000]⟩
abbrev S100000 : Shape := ⟨1, ![100000]⟩
abbrev S15x64 : Shape := ⟨2, ![15, 64]⟩
abbrev S64 : Shape := ⟨1, ![64]⟩
abbrev S64x64 : Shape := ⟨2, ![64, 64]⟩
abbrev S_ : Shape := ⟨0, ![]⟩

class Facts : Prop where
  bcast_S_S100000x15 : S_.BroadcastsInDim S100000x15 (![] : Fin 0 → Fin S100000x15.rank)
  reducesTo_S100000x15_S_d0_1 : S100000x15.ReducesTo [0, 1] S_
  h_S_ : 0 < S_.numel
  bcast_S_S15x64 : S_.BroadcastsInDim S15x64 (![] : Fin 0 → Fin S15x64.rank)
  reducesTo_S15x64_S_d0_1 : S15x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x15 .f32) (main_arg1 : IVec S2x1200000 32) (main_arg2 : IVec S100000 32) (main_arg3 : FVec F S15x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S100000x15 .f32 := Host.absf main_arg0
  let main_cst : FVec F S_ .f32 := constant S_ .f32 0x7F800000#32
  let main_v1 : FVec F S100000x15 .f32 := broadcastInDim S100000x15 ![] bcast_S_S100000x15 main_cst
  let main_v2 : IVec S100000x15 1 := cmpf .olt main_v0 main_v1
  let main_c : IVec S_ 1 := constantI S_ 1 1#1
  let main_v3 : IVec S_ 1 := (fun x v => Host.reduce IntOp.andi x v reducesTo_S100000x15_S_d0_1 h_S_) main_v2 main_c
  let main_v4 : FVec F S15x64 .f32 := Host.absf main_arg3
  let main_cst_0 : FVec F S_ .f32 := constant S_ .f32 0x7F800000#32
  let main_v5 : FVec F S15x64 .f32 := broadcastInDim S15x64 ![] bcast_S_S15x64 main_cst_0
  let main_v6 : IVec S15x64 1 := cmpf .olt main_v4 main_v5
  let main_c_1 : IVec S_ 1 := constantI S_ 1 1#1
  let main_v7 : IVec S_ 1 := (fun x v => Host.reduce IntOp.andi x v reducesTo_S15x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x15 : Shape := ⟨2, ![100000, 15]⟩
abbrev S2x1200000 : Shape := ⟨2, ![2, 1200000]⟩
abbrev S100000 : Shape := ⟨1, ![100000]⟩
abbrev S15x64 : Shape := ⟨2, ![15, 64]⟩
abbrev S64 : Shape := ⟨1, ![64]⟩
abbrev S64x64 : Shape := ⟨2, ![64, 64]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x1 : Shape := ⟨2, ![100000, 1]⟩
abbrev S100000x64 : Shape := ⟨2, ![100000, 64]⟩
abbrev S5000x15 : Shape := ⟨2, ![5000, 15]⟩
abbrev S5000x1 : Shape := ⟨2, ![5000, 1]⟩
abbrev S5000x64 : Shape := ⟨2, ![5000, 64]⟩
abbrev S1300000x64 : Shape := ⟨2, ![1300000, 64]⟩
abbrev S1x64 : Shape := ⟨2, ![1, 64]⟩
abbrev S256x64 : Shape := ⟨2, ![256, 64]⟩
abbrev S1x256 : Shape := ⟨2, ![1, 256]⟩
abbrev S5000x256 : Shape := ⟨2, ![5000, 256]⟩
abbrev S1x5000 : Shape := ⟨2, ![1, 5000]⟩
abbrev S256x1 : Shape := ⟨2, ![256, 1]⟩

abbrev nBuf : Space → Nat
  | .hbm => 106
  | .vmem => 42
  | .smem => 0
  | _ => 0

abbrev bufTy : (tb : Table) → Fin (tcTables nBuf tb) → BufTy
  | .hbm, ⟨0, _⟩ => ⟨S100000x15, .f32⟩
  | .hbm, ⟨1, _⟩ => ⟨S2x1200000, .i32⟩
  | .hbm, ⟨2, _⟩ => ⟨S100000, .i32⟩
  | .hbm, ⟨3, _⟩ => ⟨S15x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S100000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S1x1200000, .i32⟩
  | .hbm, ⟨16, _⟩ => ⟨S1200000, .i32⟩
  | .hbm, ⟨17, _⟩ => ⟨S1300000, .i32⟩
  | .hbm, ⟨18, _⟩ => ⟨S_, .f32⟩
  | .hbm, ⟨19, _⟩ => ⟨S1300000, .f32⟩
  | .hbm, ⟨20, _⟩ => ⟨S_, .f32⟩
  | .hbm, ⟨21, _⟩ => ⟨S100000, .f32⟩
  | .hbm, ⟨22, _⟩ => ⟨S1300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .bf16⟩
  | .hbm, ⟨34, _⟩ => ⟨S_, .i32⟩
  | .hbm, ⟨35, _⟩ => ⟨S1300000, .i32⟩
  | .hbm, ⟨36, _⟩ => ⟨S1300000, .i1⟩
  | .hbm, ⟨37, _⟩ => ⟨S_, .i32⟩
  | .hbm, ⟨38, _⟩ => ⟨S1300000, .i32⟩
  | .hbm, ⟨39, _⟩ => ⟨S1300000, .i32⟩
  | .hbm, ⟨40, _⟩ => ⟨S1300000, .i32⟩
  | .hbm, ⟨41, _⟩ => ⟨S1300000x1, .i32⟩
  | .hbm, ⟨42, _⟩ => ⟨S1300000x64, .bf16⟩
  | .hbm, ⟨43, _⟩ => ⟨S1300000x64, .f32⟩
  | .hbm, ⟨44, _⟩ => ⟨S_, .f32⟩
  | .hbm, ⟨45, _⟩ => ⟨S100000x64, .f32⟩
  | .hbm, ⟨46, _⟩ => ⟨S1300000x1, .i32⟩
  | .hbm, ⟨47, _⟩ => ⟨S100000x64, .f32⟩
  | .hbm, ⟨48, _⟩ => ⟨S1x64, .f32⟩
  | .hbm, ⟨49, _⟩ => ⟨S100000x64, .bf16⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .bf16⟩
  | .hbm, ⟨59, _⟩ => ⟨S1300000x64, .f32⟩
  | .hbm, ⟨60, _⟩ => ⟨S_, .f32⟩
  | .hbm, ⟨61, _⟩ => ⟨S100000x64, .f32⟩
  | .hbm, ⟨62, _⟩ => ⟨S1300000x1, .i32⟩
  | .hbm, ⟨63, _⟩ => ⟨S100000x64, .f32⟩
  | .hbm, ⟨64, _⟩ => ⟨S1x64, .f32⟩
  | .hbm, ⟨65, _⟩ => ⟨S100000x64, .bf16⟩
  | .hbm, ⟨66, _⟩ => ⟨S_, .i32⟩
  | .hbm, ⟨67, _⟩ => ⟨S1300000, .i32⟩
  | .hbm, ⟨68, _⟩ => ⟨S1300000, .i1⟩
  | .hbm, ⟨69, _⟩ => ⟨S_, .i32⟩
  | .hbm, ⟨70, _⟩ => ⟨S1300000, .i32⟩
  | .hbm, ⟨71, _⟩ => ⟨S1300000, .i32⟩
  | .hbm, ⟨72, _⟩ => ⟨S1300000, .i32⟩
  | .hbm, ⟨73, _⟩ => ⟨S1300000x1, .i32⟩
  | .hbm, ⟨74, _⟩ => ⟨S1300000x64, .bf16⟩
  | .hbm, ⟨75, _⟩ => ⟨S1300000x64, .f32⟩
  | .hbm, ⟨76, _⟩ => ⟨S_, .f32⟩
  | .hbm, ⟨77, _⟩ => ⟨S100000x64, .f32⟩
  | .hbm, ⟨78, _⟩ => ⟨S1300000x1, .i32⟩
  | .hbm, ⟨79, _⟩ => ⟨S100000x64, .f32⟩
  | .hbm, ⟨80, _⟩ => ⟨S1x64, .f32⟩
  | .hbm, ⟨81, _⟩ => ⟨S100000x64, .bf16⟩
  | .hbm, ⟨82, _⟩ => ⟨S_, .i32⟩
  | .hbm, ⟨83, _⟩ => ⟨S1300000, .i32⟩
  | .hbm, ⟨84, _⟩ => ⟨S1300000, .i1⟩
  | .hbm, ⟨85, _⟩ => ⟨S_, .i32⟩
  | .hbm, ⟨86, _⟩ => ⟨S1300000, .i32⟩
  | .hbm, ⟨87, _⟩ => ⟨S1300000, .i32⟩
  | .hbm, ⟨88, _⟩ => ⟨S1300000, .i32⟩
  | .hbm, ⟨89, _⟩ => ⟨S1300000x1, .i32⟩
  | .hbm, ⟨90, _⟩ => ⟨S1300000x64, .bf16⟩
  | .hbm, ⟨91, _⟩ => ⟨S1300000x64, .f32⟩
  | .hbm, ⟨92, _⟩ => ⟨S_, .f32⟩
  | .hbm, ⟨93, _⟩ => ⟨S100000x64, .f32⟩
  | .hbm, ⟨94, _⟩ => ⟨S1300000x1, .i32⟩
  | .hbm, ⟨95, _⟩ => ⟨S100000x64, .f32⟩
  | .hbm, ⟨96, _⟩ => ⟨S100000x1, .i32⟩
  | .hbm, ⟨97, _⟩ => ⟨S1x64, .f32⟩
  | .hbm, ⟨98, _⟩ => ⟨S256x64, .f32⟩
  | .hbm, ⟨99, _⟩ => ⟨S1x256, .f32⟩
  | .hbm, ⟨100, _⟩ => ⟨S256x1, .f32⟩
  | .hbm, ⟨101, _⟩ => ⟨S_, .f32⟩
  | .hbm, ⟨102, _⟩ => ⟨S256x1, .f32⟩
  | .hbm, ⟨103, _⟩ => ⟨S256x1, .f32⟩
  | .hbm, ⟨104, _⟩ => ⟨S256x64, .f32⟩
  | .hbm, ⟨105, _⟩ => ⟨S256x64, .f32⟩
  | .local _ .vmem, ⟨0, _⟩ => ⟨S5000x15, .f32⟩
  | .local _ .vmem, ⟨1, _⟩ => ⟨S5000x15, .f32⟩
  | .local _ .vmem, ⟨2, _⟩ => ⟨S15x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S64x64, .f32⟩
  | .local _ .vmem, ⟨21, _⟩ => ⟨S5000x64, .bf16⟩
  | .local _ .vmem, ⟨22, _⟩ => ⟨S5000x64, .bf16⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S64x64, .f32⟩
  | .local _ .vmem, ⟨29, _⟩ => ⟨S5000x64, .bf16⟩
  | .local _ .vmem, ⟨30, _⟩ => ⟨S5000x64, .bf16⟩
  | .local _ .vmem, ⟨31, _⟩ => ⟨S5000x64, .f32⟩
  | .local _ .vmem, ⟨32, _⟩ => ⟨S5000x64, .f32⟩
  | .local _ .vmem, ⟨33, _⟩ => ⟨S5000x1, .f32⟩
  | .local _ .vmem, ⟨34, _⟩ => ⟨S5000x1, .f32⟩
  | .local _ .vmem, ⟨35, _⟩ => ⟨S1x64, .f32⟩
  | .local _ .vmem, ⟨36, _⟩ => ⟨S5000x1, .i32⟩
  | .local _ .vmem, ⟨37, _⟩ => ⟨S5000x1, .i32⟩
  | .local _ .vmem, ⟨38, _⟩ => ⟨S256x64, .f32⟩
  | .local _ .vmem, ⟨39, _⟩ => ⟨S1x256, .f32⟩
  | .local _ .vmem, ⟨40, _⟩ => ⟨S256x64, .f32⟩
  | .local _ .vmem, ⟨41, _⟩ => ⟨S1x256, .f32⟩
  | _, _ => ⟨S100000x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69_0 : Ref sig .tc := ⟨.hbm, 98, rfl⟩
abbrev main_v69_1 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg5_0 : Ref sig .tc := ⟨.vmem, 39, rfl⟩
abbrev cc4_scratch0 : Ref sig .tc := ⟨.vmem, 40, rfl⟩
abbrev cc4_scratch1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem5_0 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S15x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v38 : BitVec 1 := Scalar.cmpi .eq arg0 c19_i32
  let v39 : BitVec 32 := Scalar.extui v38
  let c0_i32_19 : BitVec 32 := 0#32
  let v40 : BitVec 1 := Scalar.cmpi .ne v39 c0_i32_19
  v40

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S256x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  shapeCasts_S100000_S100000x1 : S100000.ShapeCasts S100000x1
  inb_S5000x15_S5000x15_0_0 : ∀ a, (![0, 0] : Fin 2 → Nat) a + S5000x15.size a ≤ S5000x15.size a
  h_S5000x15 : 0 < S5000x15.numel
  bitsLt_bf16_f32 : FTy.bits .bf16 < FTy.bits .f32
  inb_S15x64_S15x64_0_0 : ∀ a, (![0, 0] : Fin 2 → Nat) a + S15x64.size a ≤ S15x64.size a
  h_S15x64 : 0 < S15x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x256_S1x256_0_0 : ∀ a, (![0, 0] : Fin 2 → Nat) a + S1x256.size a ≤ S1x256.size a
  h_S1x256 : 0 < S1x256.numel
  shapeCasts_S1x256_S1x256 : S1x256.ShapeCasts S1x256
  iota_S5000x256_d1_w32 : S5000x256.Iotas .tc 32 [1]
  broadcasts_S5000x1_S5000x256 : S5000x1.Broadcasts S5000x256
  natLt_1_32 : 1 < 32
  transposes_S1x256_S256x1_1_0 : S1x256.Transposes [1, 0] S256x1
  bcast_S_S256x1 : S_.BroadcastsInDim S256x1 (![] : Fin 0 → Fin S256x1.rank)
  bcast_S256x1_S256x64_0_1 : S256x1.BroadcastsInDim S256x64 (![0, 1] : Fin 2 → Fin S256x64.rank)
  scatter_S100000_S1300000x1_S1300000_n_0_0_1_wf : ScatterDims.WF S100000 S1300000x1 S1300000 [] [0] [0] 1
  dot_S5000x15_S15x64_S5000x64_1_0_0_1_n_n_wf : DotDims.WF S5000x15 S15x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S5000x64_S64x64_S5000x64_1_0_0_1_n_n_wf : DotDims.WF S5000x64 S64x64 S5000x64 [1] [0] [0] [1] [] []
  dot_S5000x256_S5000x64_S256x64_0_0_1_1_n_n_wf : DotDims.WF S5000x256 S5000x64 S256x64 [0] [0] [1] [1] [] []
  dot_S1x5000_S5000x256_S1x256_1_0_0_1_n_n_wf : DotDims.WF S1x5000 S5000x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x15.size a ≤ S100000x15.size a
  hwx0_0 : ∀ i : grid0.Coords, EltTy.bits .f32 = 32 ∨ (Rect.block (s := S100000x15) S5000x15.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S15x64.size a ≤ S15x64.size a
  hwx0_1 : ∀ i : grid0.Coords, EltTy.bits .f32 = 32 ∨ (Rect.block (s := S15x64) S15x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .bf16 = 32 ∨ (Rect.block (s := S100000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .bf16 = 32 ∨ (Rect.block (s := S100000x64) S5000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .bf16 = 32 ∨ (Rect.block (s := S100000x64) S5000x64.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .i32 = 32 ∨ (Rect.block (s := S100000x1) S5000x1.size (cc4_transform_3 i) (hinb4_3 i)).WholeWords (EltTy.packing .i32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x64.size a ≤ S256x64.size a
  hwx4_4 : ∀ i : grid4.Coords, EltTy.bits .f32 = 32 ∨ (Rect.block (s := S256x64) S256x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def dot_S5000x15_S15x64_S5000x64_1_0_0_1_n_n : DotDims S5000x15 S15x64 S5000x64 where
  lhsContracting := [1]
  rhsContracting := [0]
  lhsNonContracting := [0]
  rhsNonContracting := [1]
  lhsBatch := []
  rhsBatch := []
  wf := dot_S5000x15_S15x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S1x5000_S5000x256_S1x256_1_0_0_1_n_n : DotDims S1x5000 S5000x256 S1x256 where
  lhsContracting := [1]
  rhsContracting := [0]
  lhsNonContracting := [0]
  rhsNonContracting := [1]
  lhsBatch := []
  rhsBatch := []
  wf := dot_S1x5000_S5000x256_S1x256_1_0_0_1_n_n_wf

abbrev win0_0 : Pipeline.Window sig grid0 :=
  Pipeline.Window.ofSpec (Memref.whole main_arg0) S5000x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S15x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v53) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v66) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S5000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v69_0) S256x64.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v69_1) S1x256.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun i => !(k4_cond2 i == 1#1) | ⟨_ + 6, h⟩ => absurd h (Nat.not_lt.2 (Nat.le_add_left _ _))

class Facts : Prop extends Facts₀ where

variable [Facts]
-- ==== ReferenceIdeal.lean ====
abbrev S100000x15 : Shape := ⟨2, ![100000, 15]⟩
abbrev S2x1200000 : Shape := ⟨2, ![2, 1200000]⟩
abbrev S100000 : Shape := ⟨1, ![100000]⟩
abbrev S15x64 : Shape := ⟨2, ![15, 64]⟩
abbrev S64 : Shape := ⟨1, ![64]⟩
abbrev S64x64 : Shape := ⟨2, ![64, 64]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S1300000x64 : Shape := ⟨2, ![1300000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩

abbrev nBuf : Space → Nat
  | .hbm => 159
  | .vmem => 0
  | .smem => 0
  | _ => 0

abbrev hbmTy0_0 (i : Nat) : BufTy := match i % 128 with
  | 0 => ⟨S100000x15, .f32⟩
  | 1 => ⟨S2x1200000, .i32⟩
  | 2 => ⟨S100000, .i32⟩
  | 3 => ⟨S15x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S100000, .i32⟩
  | 12 => ⟨S1x1200000, .i32⟩
  | 13 => ⟨S1200000, .i32⟩
  | 14 => ⟨S1300000, .i32⟩
  | 15 => ⟨S1x1200000, .i32⟩
  | 16 => ⟨S1200000, .i32⟩
  | 17 => ⟨S1300000, .i32⟩
  | 18 => ⟨S_, .f32⟩
  | 19 => ⟨S1300000, .f32⟩
  | 20 => ⟨S_, .f32⟩
  | 21 => ⟨S100000, .f32⟩
  | 22 => ⟨S1300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1300000, .i32⟩
  | 34 => ⟨S1300000, .i1⟩
  | 35 => ⟨S_, .i32⟩
  | 36 => ⟨S1300000, .i32⟩
  | 37 => ⟨S1300000, .i32⟩
  | 38 => ⟨S1300000, .i32⟩
  | 39 => ⟨S1300000x1, .i32⟩
  | 40 => ⟨S1300000, .f32⟩
  | 41 => ⟨S_, .i32⟩
  | 42 => ⟨S1300000, .i32⟩
  | 43 => ⟨S1300000, .i1⟩
  | 44 => ⟨S_, .i32⟩
  | 45 => ⟨S1300000, .i32⟩
  | 46 => ⟨S1300000, .i32⟩
  | 47 => ⟨S1300000, .i32⟩
  | 48 => ⟨S1300000x1, .i32⟩
  | 49 => ⟨S1300000, .f32⟩
  | 50 => ⟨S1300000, .f32⟩
  | 51 => ⟨S100000x64, .f32⟩
  | 52 => ⟨S_, .i32⟩
  | 53 => ⟨S1300000, .i32⟩
  | 54 => ⟨S1300000, .i1⟩
  | 55 => ⟨S_, .i32⟩
  | 56 => ⟨S1300000, .i32⟩
  | 57 => ⟨S1300000, .i32⟩
  | 58 => ⟨S1300000, .i32⟩
  | 59 => ⟨S1300000x1, .i32⟩
  | 60 => ⟨S1300000x64, .f32⟩
  | 61 => ⟨S1300000x1, .f32⟩
  | 62 => ⟨S1300000x64, .f32⟩
  | 63 => ⟨S1300000x64, .f32⟩
  | 64 => ⟨S_, .f32⟩
  | 65 => ⟨S100000x64, .f32⟩
  | 66 => ⟨S1300000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .i32⟩
  | 76 => ⟨S1300000, .i32⟩
  | 77 => ⟨S1300000, .i1⟩
  | 78 => ⟨S_, .i32⟩
  | 79 => ⟨S1300000, .i32⟩
  | 80 => ⟨S1300000, .i32⟩
  | 81 => ⟨S1300000, .i32⟩
  | 82 => ⟨S1300000x1, .i32⟩
  | 83 => ⟨S1300000x64, .f32⟩
  | 84 => ⟨S1300000x1, .f32⟩
  | 85 => ⟨S1300000x64, .f32⟩
  | 86 => ⟨S1300000x64, .f32⟩
  | 87 => ⟨S_, .f32⟩
  | 88 => ⟨S100000x64, .f32⟩
  | 89 => ⟨S1300000x1, .i32⟩
  | 90 => ⟨S100000x64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S_, .i32⟩
  | 99 => ⟨S1300000, .i32⟩
  | 100 => ⟨S1300000, .i1⟩
  | 101 => ⟨S_, .i32⟩
  | 102 => ⟨S1300000, .i32⟩
  | 103 => ⟨S1300000, .i32⟩
  | 104 => ⟨S1300000, .i32⟩
  | 105 => ⟨S1300000x1, .i32⟩
  | 106 => ⟨S1300000x64, .f32⟩
  | 107 => ⟨S1300000x1, .f32⟩
  | 108 => ⟨S1300000x64, .f32⟩
  | 109 => ⟨S1300000x64, .f32⟩
  | 110 => ⟨S_, .f32⟩
  | 111 => ⟨S100000x64, .f32⟩
  | 112 => ⟨S1300000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S_, .i32⟩
  | 122 => ⟨S1300000, .i32⟩
  | 123 => ⟨S1300000, .i1⟩
  | 124 => ⟨S_, .i32⟩
  | 125 => ⟨S1300000, .i32⟩
  | 126 => ⟨S1300000, .i32⟩
  | 127 => ⟨S1300000, .i32⟩
  | _ => ⟨S100000x15, .f32⟩

abbrev hbmTy0_1 (i : Nat) : BufTy := match i % 128 with
  | 0 => ⟨S1300000x1, .i32⟩
  | 1 => ⟨S1300000x64, .f32⟩
  | 2 => ⟨S1300000x1, .f32⟩
  | 3 => ⟨S1300000x64, .f32⟩
  | 4 => ⟨S1300000x64, .f32⟩
  | 5 => ⟨S_, .f32⟩
  | 6 => ⟨S100000x64, .f32⟩
  | 7 => ⟨S1300000x1, .i32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S_, .f32⟩
  | 16 => ⟨S256x64, .f32⟩
  | 17 => ⟨S100000x1, .i32⟩
  | 18 => ⟨S256x64, .f32⟩
  | 19 => ⟨S_, .f32⟩
  | 20 => ⟨S100000, .f32⟩
  | 21 => ⟨S_, .f32⟩
  | 22 => ⟨S256, .f32⟩
  | 23 => ⟨S100000x1, .i32⟩
  | 24 => ⟨S256, .f32⟩
  | 25 => ⟨S_, .f32⟩
  | 26 => ⟨S256, .f32⟩
  | 27 => ⟨S256, .f32⟩
  | 28 => ⟨S256x1, .f32⟩
  | 29 => ⟨S256x64, .f32⟩
  | 30 => ⟨S256x64, .f32⟩
  | _ => ⟨S100000x15, .f32⟩

abbrev hbmTy (i : Nat) : BufTy := match i / 128 with
  | 0 => hbmTy0_0 i
  | 1 => hbmTy0_1 i
  | _ => ⟨S100000x15, .f32⟩

abbrev bufTy : (tb : Table) → Fin (tcTables nBuf tb) → BufTy
  | .hbm, ⟨i, _⟩ => hbmTy i
  | _, _ => ⟨S100000x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_v84 : Ref sig .tc := ⟨.hbm, 120, rfl⟩
abbrev main_c_15 : Ref sig .tc := ⟨.hbm, 121, rfl⟩
abbrev main_v85 : Ref sig .tc := ⟨.hbm, 122, rfl⟩
abbrev main_v86 : Ref sig .tc := ⟨.hbm, 123, rfl⟩
abbrev main_c_16 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_17 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_call4_cst : Ref sig .tc := ⟨.hbm, 140, rfl⟩
abbrev main_call4_v0 : Ref sig .tc := ⟨.hbm, 141, rfl⟩
abbrev main_v101 : Ref sig .tc := ⟨.hbm, 142, rfl⟩
abbrev main_cst_18 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_19 : Ref sig .tc := ⟨.hbm, 147, rfl⟩
abbrev main_v105 : Ref sig .tc := ⟨.hbm, 148, rfl⟩
abbrev main_cst_20 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_21 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x15_S15x64_S100000x64_1_0_0_1_n_n_wf : DotDims.WF S100000x15 S15x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x15_S15x64_S100000x64_1_0_0_1_n_n : DotDims S100000x15 S15x64 S100000x64 where
  lhsContracting := [1]
  rhsContracting := [0]
  lhsNonContracting := [0]
  rhsNonContracting := [1]
  lhsBatch := []
  rhsBatch := []
  wf := dot_S100000x15_S15x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.K.Reg0.lean ====
import proofs.«424017_j2946347566021_2_alg».proof.Proof.Gen.Kernel.Launch
import proofs.«424017_j2946347566021_2_alg».proof.Proof.Gen.Kernel.Skeleton
import proofs.«424017_j2946347566021_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev whole0_0 : Rect S5000x15 := Rect.unit (s := S5000x15) ![0, 0] S5000x15.size inb_S5000x15_S5000x15_0_0
abbrev whole0_1 : Rect S15x64 := Rect.unit (s := S15x64) ![0, 0] S15x64.size inb_S15x64_S15x64_0_0
abbrev whole0_2 : Rect S5000x1 := Rect.unit (s := S5000x1) ![0, 0] S5000x1.size inb_S5000x1_S5000x1_0_0
abbrev whole0_3 : Rect S5000x64 := Rect.unit (s := S5000x64) ![0, 0] S5000x64.size inb_S5000x64_S5000x64_0_0

def out0_3 (x0 : Vec F S5000x15 .f32) (x1 : Vec F S15x64 .f32) (x2 : Vec F S5000x1 .f32) : Vec F S5000x64 .bf16 :=
  View.canon [⟨whole0_3, k0_pay1 (View.ld x0 whole0_0) (View.ld x1 whole0_1) (View.ld x2 whole0_2)⟩]

theorem covered0_3 (p : Vec F S5000x64 .bf16) (y : S5000x64.Idx) :
    ∃ pc ∈ ([⟨whole0_3, p⟩] : List (View.Piece (Elt F) S5000x64 .bf16)), y ∈ pc.1.set :=
  View.cover_of_tiled [⟨whole0_3, p⟩] S5000x64.size (by rfl) y

set_option maxHeartbeats 1000000 in

theorem sound_kernel0 (c : Dev nD) (E : Set ℕ) (i : grid0.Coords)
    (a0 : Memref sig .tc .vmem S5000x15 .f32) (ha0 : a0.IsWhole) (a1 : Memref sig .tc .vmem S15x64 .f32) (ha1 : a1.IsWhole)
    (a2 : Memref sig .tc .vmem S5000x1 .f32) (ha2 : a2.IsWhole) (a3 : Memref sig .tc .vmem S5000x64 .bf16) (ha3 : a3.IsWhole)
    (x0 : Vec F S5000x15 .f32) (x1 : Vec F S15x64 .f32) (x2 : Vec F S5000x1 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out0_3 x0 x1 x2)) -∗ K ⟨⟩))
      ⊢ wp frame (wpE (defs₀ (F := F)) Variants.none c none) E (cc0__linear_scale_kernel i a0 ha0 a1 ha1 a2 ha2 a3 ha3) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covered0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t))) := by
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand
end
-- ==== Proof.K.Reg1.lean ====
import proofs.«424017_j2946347566021_2_alg».proof.Proof.Gen.Kernel.Launch
import proofs.«424017_j2946347566021_2_alg».proof.Proof.Gen.Kernel.Skeleton
import proofs.«424017_j2946347566021_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S5000x1 := Rect.unit (s := S5000x1) ![0, 0] S5000x1.size inb_S5000x1_S5000x1_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0

def out1_4 (x0 : Vec F S5000x64 .f32) (x1 : Vec F S5000x1 .f32) (x2 : Vec F S1x64 .f32) (x3 : Vec F S64x64 .f32) : Vec F S5000x64 .bf16 :=
  View.canon [⟨r1_0, k1_pay1 (View.ld x1 r1_1) (View.ld x2 r1_2) (View.ld x0 r1_0) (View.ld x3 r1_3)⟩]

theorem cover1_4 (p : Vec F S5000x64 .bf16) (y : S5000x64.Idx) :
    ∃ pc ∈ ([⟨r1_0, p⟩] : List (View.Piece (Elt F) S5000x64 .bf16)), y ∈ pc.1.set :=
  View.cover_of_tiled [⟨r1_0, p⟩] S5000x64.size (by rfl) y

set_option maxHeartbeats 4000000 in

theorem sound_kernel1 (c : Dev nD) (E : Set ℕ) (i : grid1.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S5000x64 .bf16) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__fused_mid_kernel i arg1 harg1 arg2 harg2 arg3 harg3 arg4 harg4 arg5 harg5) K := by
  simp only [cc1__fused_mid_kernel_eq_skeleton]; unfold cc1__fused_mid_kernel_skel
  unfold owns
  iintro ⟨⟨%g0, %e0, G0⟩, ⟨%g1, %e1, G1⟩, ⟨%g2, %e2, G2⟩, ⟨%g3, %e3, G3⟩, ⟨%d4, %g4, -, G4⟩, Hk⟩
  subst e0 e1 e2 e3
  sl_exec
  sl_step
  iapply Hk
  isplitl [G0]
  · iexists g0; isplitr; · ipureintro; rfl
    iexact G0
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand
end
-- ==== Proof.K.Reg2.lean ====
import proofs.«424017_j2946347566021_2_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem sound_kernel2 (c : Dev nD) (E : Set ℕ) (i : grid2.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S5000x64 .bf16) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc2__fused_mid_kernel i arg1 harg1 arg2 harg2 arg3 harg3 arg4 harg4 arg5 harg5) K :=
  sound_kernel1 c E i arg1 harg1 arg2 harg2 arg3 harg3 arg4 harg4 arg5 harg5 x0 x1 x2 x3 K

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out1_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out1_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Hand
end
-- ==== Proof.K.Reg3.lean ====
import proofs.«424017_j2946347566021_2_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem sound_kernel3 (c : Dev nD) (E : Set ℕ) (i : grid3.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S5000x64 .bf16) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc3__fused_mid_kernel i arg1 harg1 arg2 harg2 arg3 harg3 arg4 harg4 arg5 harg5) K :=
  sound_kernel1 c E i arg1 harg1 arg2 harg2 arg3 harg3 arg4 harg4 arg5 harg5 x0 x1 x2 x3 K

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out1_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out1_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _
    (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.Hand
end
-- ==== Proof.K.Reg4Runs.lean ====
import proofs.«424017_j2946347566021_2_alg».proof.Proof.Gen.Kernel.Launch
import proofs.«424017_j2946347566021_2_alg».proof.Proof.Gen.Kernel.Skeleton
import proofs.«424017_j2946347566021_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

theorem hcond4_1 : ∀ t : Fin cfg4.N, cond4_1 (grid4.coords t) ↔ t.val = 19 :=
  (by decide +kernel : ∀ t : Fin grid4.N, cond4_1 (grid4.coords t) ↔ t.val = 19)

theorem liveAt4_0 : ∀ i : grid4.Coords, cfg4.idle 0 i = false := fun _ => rfl
theorem liveAt4_1 : ∀ i : grid4.Coords, cfg4.idle 1 i = false := fun _ => rfl
theorem liveAt4_2 : ∀ i : grid4.Coords, cfg4.idle 2 i = false := fun _ => rfl
theorem liveAt4_3 : ∀ i : grid4.Coords, cfg4.idle 3 i = false := fun _ => rfl
theorem idleAt4_4 : ∀ t : Fin cfg4.N, ¬cond4_1 (grid4.coords t) → cfg4.idle 4 (grid4.coords t) = true := by decide +kernel
theorem idleAt4_5 : ∀ t : Fin cfg4.N, ¬cond4_1 (grid4.coords t) → cfg4.idle 5 (grid4.coords t) = true := by decide +kernel
theorem noFlush4_4 : ∀ t : Fin cfg4.N, ¬cond4_1 (grid4.coords t) → (cfg4.win 4).flush t = false := by decide +kernel
theorem noFlush4_5 : ∀ t : Fin cfg4.N, ¬cond4_1 (grid4.coords t) → (cfg4.win 5).flush t = false := by decide +kernel
theorem liveAt4_4 : ∀ t : Fin cfg4.N, cond4_1 (grid4.coords t) → cfg4.idle 4 (grid4.coords t) = false := by decide +kernel
theorem liveAt4_5 : ∀ t : Fin cfg4.N, cond4_1 (grid4.coords t) → cfg4.idle 5 (grid4.coords t) = false := by decide +kernel

abbrev VO4_4 : View sig .tc .vmem S256x64 .f32 := (Memref.whole cc4_stg4_0 : Memref sig .tc .vmem S256x64 .f32).view
abbrev VO4_5 : View sig .tc .vmem S1x256 .f32 := (Memref.whole cc4_stg5_0 : Memref sig .tc .vmem S1x256 .f32).view

abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S5000x1 .i32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S256x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x256 .f32 := win4_5.stage (cfg4.slots t 5)
abbrev hs4_5 (t : Fin cfg4.N) : (ms4_5 t).IsWhole := hstage4_5 ((cfg4.slots t 5).cast nbuf4_5)

abbrev scM4_0 : Memref sig .tc .vmem S256x64 .f32 := Memref.whole cc4_scratch0
abbrev scM4_1 : Memref sig .tc .vmem S1x256 .f32 := Memref.whole cc4_scratch1
abbrev VS4_0 : View sig .tc .vmem S256x64 .f32 := scM4_0.view
abbrev VS4_1 : View sig .tc .vmem S1x256 .f32 := scM4_1.view

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 (F := F) c) ∗ (∃ r, prngReg c r)) := by
  unfold Pipeline.ΦA; rw [scopedRest4_split]; simp only [scM4_0, scM4_1, owns_whole]; try rfl

section Runs
variable (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S256x64 .f32) (harg5 : arg5.IsWhole) (arg6 : Memref sig .tc .vmem S1x256 .f32) (harg6 : arg6.IsWhole) (arg7 : Memref sig .tc .vmem S256x64 .f32) (harg7 : arg7.IsWhole) (arg8 : Memref sig .tc .vmem S1x256 .f32) (harg8 : arg8.IsWhole)

set_option maxHeartbeats 1000000 in

noncomputable def kernelRun4_A (hc0 : cond4_0 i) (hc1 : ¬cond4_1 i)
    (x0 : Vec F S5000x64 .f32) (x1 : Vec F S5000x1 .f32) (x2 : Vec F S1x64 .f32) (x3 : Vec F S5000x1 .i32) :
    Σ' (LS0 : List (View.Piece (Elt F) S256x64 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__pool_fused_kernel i arg1 harg1 arg2 harg2 arg3 harg3 arg4 harg4 arg5 harg5 arg6 harg6 arg7 harg7 arg8 harg8) K } := by
  refine ⟨?_, ?_, fun E K => ?run⟩
  case run =>
    simp only [cc4__pool_fused_kernel_eq_skeleton]; unfold cc4__pool_fused_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 1000000 in

noncomputable def kernelRun4_B (hc0 : ¬cond4_0 i) (hc1 : ¬cond4_1 i)
    (x0 : Vec F S5000x64 .f32) (x1 : Vec F S5000x1 .f32) (x2 : Vec F S1x64 .f32) (x3 : Vec F S5000x1 .i32) (xs0 : Vec F S256x64 .f32) (xs1 : Vec F S1x256 .f32) :
    Σ' (LS0 : List (View.Piece (Elt F) S256x64 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__pool_fused_kernel i arg1 harg1 arg2 harg2 arg3 harg3 arg4 harg4 arg5 harg5 arg6 harg6 arg7 harg7 arg8 harg8) K } := by
  refine ⟨?_, ?_, fun E K => ?run⟩
  case run =>
    simp only [cc4__pool_fused_kernel_eq_skeleton]; unfold cc4__pool_fused_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 1000000 in

noncomputable def kernelRun4_C (hc0 : ¬cond4_0 i) (hc1 : cond4_1 i)
    (x0 : Vec F S5000x64 .f32) (x1 : Vec F S5000x1 .f32) (x2 : Vec F S1x64 .f32) (x3 : Vec F S5000x1 .i32) (xs0 : Vec F S256x64 .f32) (xs1 : Vec F S1x256 .f32) :
    Σ' (L4 : List (View.Piece (Elt F) S256x64 .f32)) (L5 : List (View.Piece (Elt F) S1x256 .f32)) (LS0 : List (View.Piece (Elt F) S256x64 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__pool_fused_kernel i arg1 harg1 arg2 harg2 arg3 harg3 arg4 harg4 arg5 harg5 arg6 harg6 arg7 harg7 arg8 harg8) K } := by
  refine ⟨?_, ?_, ?_, ?_, fun E K => ?run⟩
  case run =>
    simp only [cc4__pool_fused_kernel_eq_skeleton]; unfold cc4__pool_fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Runs

end Cert.Kernel.Hand

end
-- ==== Proof.K.Reg4.lean ====
import proofs.«424017_j2946347566021_2_alg».proof.Proof.K.Reg4Runs

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem first4 (t : Fin cfg4.N) (h : t.val = 0) : cond4_0 (grid4.coords t) := (hcond4_0 t).mpr h
theorem notFirst4 (t : Fin cfg4.N) (h : t.val ≠ 0) : ¬cond4_0 (grid4.coords t) := fun hc => h ((hcond4_0 t).mp hc)
theorem last4 (t : Fin cfg4.N) (h : t.val = 19) : cond4_1 (grid4.coords t) := (hcond4_1 t).mpr h
theorem notLast4 (t : Fin cfg4.N) (h : t.val ≠ 19) : ¬cond4_1 (grid4.coords t) := fun hc => h ((hcond4_1 t).mp hc)

section AtPoint
variable (c : Dev nD) (t : Fin cfg4.N) (x0 : Vec F S5000x64 .f32) (x1 : Vec F S5000x1 .f32) (x2 : Vec F S1x64 .f32) (x3 : Vec F S5000x1 .i32)

-- The body's run at grid point `t`, on that point's own memrefs: the first point, a middle point, the last point.
abbrev run4_A (h0 : t.val = 0) :=
  kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t)
    scM4_0 (Memref.isWhole_whole _) scM4_1 (Memref.isWhole_whole _) (first4 t h0) (notLast4 t (by omega)) x0 x1 x2 x3

theorem scover4_A_0 (h0 : t.val = 0) (y : S256x64.Idx) : ∃ pc ∈ (run4_A c t x0 x1 x2 x3 h0).1, y ∈ pc.1.set :=
  View.cover_of_tiledL _ S256x64.size (by sl_kernel_rfl) y
theorem scover4_A_1 (h0 : t.val = 0) (y : S1x256.Idx) : ∃ pc ∈ (run4_A c t x0 x1 x2 x3 h0).2.1, y ∈ pc.1.set :=
  View.cover_of_tiledL _ S1x256.size (by sl_kernel_rfl) y

-- What a run leaves in a buffer: its stores read back, whatever the buffer held.
def sout4_A_0 (h0 : t.val = 0) : Vec F S256x64 .f32 := VS4_0.read (Elt F) (VS4_0.writes (Elt F) VS4_0.junk (run4_A c t x0 x1 x2 x3 h0).1)
def sout4_A_1 (h0 : t.val = 0) : Vec F S1x256 .f32 := VS4_1.read (Elt F) (VS4_1.writes (Elt F) VS4_1.junk (run4_A c t x0 x1 x2 x3 h0).2.1)

variable (xs0 : Vec F S256x64 .f32) (xs1 : Vec F S1x256 .f32)

abbrev run4_B (h0 : t.val ≠ 0) (h1 : t.val ≠ 19) :=
  kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t)
    scM4_0 (Memref.isWhole_whole _) scM4_1 (Memref.isWhole_whole _) (notFirst4 t h0) (notLast4 t h1) x0 x1 x2 x3 xs0 xs1

theorem scover4_B_0 (h0 : t.val ≠ 0) (h1 : t.val ≠ 19) (y : S256x64.Idx) : ∃ pc ∈ (run4_B c t x0 x1 x2 x3 xs0 xs1 h0 h1).1, y ∈ pc.1.set :=
  View.cover_of_tiledL _ S256x64.size (by sl_kernel_rfl) y
theorem scover4_B_1 (h0 : t.val ≠ 0) (h1 : t.val ≠ 19) (y : S1x256.Idx) : ∃ pc ∈ (run4_B c t x0 x1 x2 x3 xs0 xs1 h0 h1).2.1, y ∈ pc.1.set :=
  View.cover_of_tiledL _ S1x256.size (by sl_kernel_rfl) y

def sout4_B_0 (h0 : t.val ≠ 0) (h1 : t.val ≠ 19) : Vec F S256x64 .f32 := VS4_0.read (Elt F) (VS4_0.writes (Elt F) VS4_0.junk (run4_B c t x0 x1 x2 x3 xs0 xs1 h0 h1).1)
def sout4_B_1 (h0 : t.val ≠ 0) (h1 : t.val ≠ 19) : Vec F S1x256 .f32 := VS4_1.read (Elt F) (VS4_1.writes (Elt F) VS4_1.junk (run4_B c t x0 x1 x2 x3 xs0 xs1 h0 h1).2.1)

abbrev run4_C (h1 : t.val = 19) :=
  kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t)
    scM4_0 (Memref.isWhole_whole _) scM4_1 (Memref.isWhole_whole _) (notFirst4 t (by omega)) (last4 t h1) x0 x1 x2 x3 xs0 xs1

theorem cover4_C_4 (h1 : t.val = 19) (y : S256x64.Idx) : ∃ pc ∈ (run4_C c t x0 x1 x2 x3 xs0 xs1 h1).1, y ∈ pc.1.set :=
  View.cover_of_tiledL _ S256x64.size (by sl_kernel_rfl) y
theorem cover4_C_5 (h1 : t.val = 19) (y : S1x256.Idx) : ∃ pc ∈ (run4_C c t x0 x1 x2 x3 xs0 xs1 h1).2.1, y ∈ pc.1.set :=
  View.cover_of_tiledL _ S1x256.size (by sl_kernel_rfl) y
theorem scover4_C_0 (h1 : t.val = 19) (y : S256x64.Idx) : ∃ pc ∈ (run4_C c t x0 x1 x2 x3 xs0 xs1 h1).2.2.1, y ∈ pc.1.set :=
  View.cover_of_tiledL _ S256x64.size (by sl_kernel_rfl) y
theorem scover4_C_1 (h1 : t.val = 19) (y : S1x256.Idx) : ∃ pc ∈ (run4_C c t x0 x1 x2 x3 xs0 xs1 h1).2.2.2.1, y ∈ pc.1.set :=
  View.cover_of_tiledL _ S1x256.size (by sl_kernel_rfl) y

def out4_C_4 (h1 : t.val = 19) : Vec F S256x64 .f32 := VO4_4.read (Elt F) (VO4_4.writes (Elt F) VO4_4.junk (run4_C c t x0 x1 x2 x3 xs0 xs1 h1).1)
def out4_C_5 (h1 : t.val = 19) : Vec F S1x256 .f32 := VO4_5.read (Elt F) (VO4_5.writes (Elt F) VO4_5.junk (run4_C c t x0 x1 x2 x3 xs0 xs1 h1).2.1)
def sout4_C_0 (h1 : t.val = 19) : Vec F S256x64 .f32 := VS4_0.read (Elt F) (VS4_0.writes (Elt F) VS4_0.junk (run4_C c t x0 x1 x2 x3 xs0 xs1 h1).2.2.1)
def sout4_C_1 (h1 : t.val = 19) : Vec F S1x256 .f32 := VS4_1.read (Elt F) (VS4_1.writes (Elt F) VS4_1.junk (run4_C c t x0 x1 x2 x3 xs0 xs1 h1).2.2.2.1)

end AtPoint

def idle4_4 : Vec F S256x64 .f32 := VO4_4.read (Elt F) VO4_4.junk
def idle4_5 : Vec F S1x256 .f32 := VO4_5.read (Elt F) VO4_5.junk

-- After the body at position `n`: (sums' result, counts' result, sums' accumulator, counts' accumulator). The results are
-- stored at point 19 only; each later point runs over the accumulators as the point before left them.
def outsAt4 (c : Dev nD) : (n : ℕ) → n < cfg4.N → Vec F S256x64 .f32 × Vec F S1x256 .f32 × Vec F S256x64 .f32 × Vec F S1x256 .f32
  | 0, hn =>
    (idle4_4, idle4_5, sout4_A_0 c ⟨0, hn⟩ (iblk4 V c 0 ⟨0, hn⟩) (iblk4 V c 1 ⟨0, hn⟩) (iblk4 V c 2 ⟨0, hn⟩) (iblk4 V c 3 ⟨0, hn⟩) rfl, sout4_A_1 c ⟨0, hn⟩ (iblk4 V c 0 ⟨0, hn⟩) (iblk4 V c 1 ⟨0, hn⟩) (iblk4 V c 2 ⟨0, hn⟩) (iblk4 V c 3 ⟨0, hn⟩) rfl)
  | n + 1, hn =>
    if h : n + 1 = 19 then
      (out4_C_4 c ⟨n + 1, hn⟩ (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2 h,
        out4_C_5 c ⟨n + 1, hn⟩ (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2 h,
        sout4_C_0 c ⟨n + 1, hn⟩ (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2 h,
        sout4_C_1 c ⟨n + 1, hn⟩ (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2 h)
    else
      (idle4_4, idle4_5,
        sout4_B_0 c ⟨n + 1, hn⟩ (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2 (Nat.succ_ne_zero n) h,
        sout4_B_1 c ⟨n + 1, hn⟩ (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2 (Nat.succ_ne_zero n) h)

theorem outsAt4_A (c : Dev nD) (t : Fin cfg4.N) (h0 : t.val = 0) :
    outsAt4 V c t.val t.isLt = (idle4_4, idle4_5, sout4_A_0 c t (iblk4 V c 0 t) (iblk4 V c 1 t) (iblk4 V c 2 t) (iblk4 V c 3 t) h0, sout4_A_1 c t (iblk4 V c 0 t) (iblk4 V c 1 t) (iblk4 V c 2 t) (iblk4 V c 3 t) h0) := by
  obtain ⟨n, hn⟩ := t
  cases n with
  | zero => rfl
  | succ n => exact absurd h0 (Nat.succ_ne_zero n)

theorem outsAt4_B (c : Dev nD) (t : Fin cfg4.N) (h0 : t.val ≠ 0) (h1 : t.val ≠ 19) :
    outsAt4 V c t.val t.isLt = (idle4_4, idle4_5,
      sout4_B_0 c t (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 h0 h1,
      sout4_B_1 c t (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 h0 h1) := by
  obtain ⟨n, hn⟩ := t
  cases n with
  | zero => exact absurd rfl h0
  | succ n => exact (dif_neg h1).trans rfl

theorem outsAt4_C (c : Dev nD) (t : Fin cfg4.N) (h0 : t.val ≠ 0) (h1 : t.val = 19) :
    outsAt4 V c t.val t.isLt = (
      out4_C_4 c t (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 h1,
      out4_C_5 c t (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 h1,
      sout4_C_0 c t (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 h1,
      sout4_C_1 c t (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 h1) := by
  obtain ⟨n, hn⟩ := t
  cases n with
  | zero => exact absurd rfl h0
  | succ n => exact (dif_pos h1).trans rfl

def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.1 ∗ owns (c : Thread nD τ) scM4_1 fullShare (outsAt4 V c n hn).2.2.2) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.1 ∗ owns (c : Thread nD τ) scM4_1 fullShare (outsAt4 V c n hn).2.2.2) ∗ rest4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.1 ∗ owns (c : Thread nD τ) scM4_1 fullShare (outsAt4 V c (n - 1) (by omega)).2.2.2) ∗ rest4 (F := F) c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]

theorem before4_0 (c : Dev nD) (t : Fin cfg4.N) (d) : (dat4 V c).before 0 t d = iblk4 V c 0 t :=
  (dat4 V c).before_in_eq_fetched 0 rfl liveAt4_0 (fun _ _ _ => rfl) (fun _ => rfl) t d
theorem before4_1 (c : Dev nD) (t : Fin cfg4.N) (d) : (dat4 V c).before 1 t d = iblk4 V c 1 t :=
  (dat4 V c).before_in_eq_fetched 1 rfl liveAt4_1 (fun _ _ _ => rfl) (fun _ => rfl) t d
theorem before4_2 (c : Dev nD) (t : Fin cfg4.N) (d) : (dat4 V c).before 2 t d = iblk4 V c 2 t :=
  (dat4 V c).before_in_eq_fetched 2 rfl liveAt4_2 (fun _ _ _ => rfl) (fun _ => rfl) t d
theorem before4_3 (c : Dev nD) (t : Fin cfg4.N) (d) : (dat4 V c).before 3 t d = iblk4 V c 3 t :=
  (dat4 V c).before_in_eq_fetched 3 rfl liveAt4_3 (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

theorem leaves4_0 (c : Dev nD) (t : Fin cfg4.N) : (dat4 V c).leavesExact 0 t = owns (c : Thread nD τ) (ms4_0 t) fullShare (iblk4 V c 0 t) := by
  unfold Dat.leavesExact; rw [liveAt4_0, after4_0]
theorem leaves4_1 (c : Dev nD) (t : Fin cfg4.N) : (dat4 V c).leavesExact 1 t = owns (c : Thread nD τ) (ms4_1 t) fullShare (iblk4 V c 1 t) := by
  unfold Dat.leavesExact; rw [liveAt4_1, after4_1]
theorem leaves4_2 (c : Dev nD) (t : Fin cfg4.N) : (dat4 V c).leavesExact 2 t = owns (c : Thread nD τ) (ms4_2 t) fullShare (iblk4 V c 2 t) := by
  unfold Dat.leavesExact; rw [liveAt4_2, after4_2]
theorem leaves4_3 (c : Dev nD) (t : Fin cfg4.N) : (dat4 V c).leavesExact 3 t = owns (c : Thread nD τ) (ms4_3 t) fullShare (iblk4 V c 3 t) := by
  unfold Dat.leavesExact; rw [liveAt4_3, after4_3]

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3]
  by_cases h0 : t.val = 0
  ·
    have h1 : t.val ≠ 19 := by omega
    rw [Dat.leavesExact_idle (dat4 V c) 4 t (idleAt4_4 t (notLast4 t h1)) (noFlush4_4 t (notLast4 t h1)),
      Dat.leavesExact_idle (dat4 V c) 5 t (idleAt4_5 t (notLast4 t h1)) (noFlush4_5 t (notLast4 t h1))]
    rw [outsAt4_A V c t h0]
    unfold sout4_A_0 sout4_A_1; (try dsimp only)
    rw [PhiS4_castSucc V c t, PhiS4_zero V c _ _ h0, PhiA4_eq]
    iintro ⟨⟨⟨⟨HS0, HS1⟩, HR⟩, Hg⟩, Ho, ⟨%d0, H0⟩, ⟨%d1, H1⟩, ⟨%d2, H2⟩, ⟨%d3, H3⟩, H4, H5⟩
    iapply ((run4_A c t (iblk4 V c 0 t) (iblk4 V c 1 t) (iblk4 V c 2 t) (iblk4 V c 3 t) h0).2.2 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover4_A_0 c t _ _ _ _ h0)
          unfold owns; iexists _; isplitr
          swap; · iexact HS1
          ipureintro; exact View.read_writes_of_cover _ _ _ _ _ (scover4_A_1 c t _ _ _ _ h0)
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h1 : t.val = 19
    ·
      rw [show (dat4 V c).leavesExact 4 t = owns (c : Thread nD τ) (ms4_4 t) fullShare ((dat4 V c).after 4 t) from by
        unfold Dat.leavesExact; rw [liveAt4_4 t (last4 t h1)], after4_4]
      rw [show (dat4 V c).leavesExact 5 t = owns (c : Thread nD τ) (ms4_5 t) fullShare ((dat4 V c).after 5 t) from by
        unfold Dat.leavesExact; rw [liveAt4_5 t (last4 t h1)], after4_5]
      rw [outsAt4_C V c t h0 h1]
      unfold out4_C_4 out4_C_5 sout4_C_0 sout4_C_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((run4_C c t (iblk4 V c 0 t) (iblk4 V c 1 t) (iblk4 V c 2 t) (iblk4 V c 3 t) _ _ h1).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c t _ _ _ _ _ _ h1)
            unfold owns; iexists _; isplitr
            swap; · iexact HS1
            ipureintro; exact View.read_writes_of_cover _ _ _ _ _ (scover4_C_1 c t _ _ _ _ _ _ h1)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C_4 c t _ _ _ _ _ _ h1)
      unfold owns; iexists _; isplitr
      swap; · iexact H5
      ipureintro; exact View.read_writes_of_cover _ _ _ _ _ (cover4_C_5 c t _ _ _ _ _ _ h1)
    ·
      rw [Dat.leavesExact_idle (dat4 V c) 4 t (idleAt4_4 t (notLast4 t h1)) (noFlush4_4 t (notLast4 t h1)),
        Dat.leavesExact_idle (dat4 V c) 5 t (idleAt4_5 t (notLast4 t h1)) (noFlush4_5 t (notLast4 t h1))]
      rw [outsAt4_B V c t h0 h1]
      unfold sout4_B_0 sout4_B_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, H4, H5⟩
      iapply ((run4_B c t (iblk4 V c 0 t) (iblk4 V c 1 t) (iblk4 V c 2 t) (iblk4 V c 3 t) _ _ h0 h1).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c t _ _ _ _ _ _ h0 h1)
            unfold owns; iexists _; isplitr
            swap; · iexact HS1
            ipureintro; exact View.read_writes_of_cover _ _ _ _ _ (scover4_B_1 c t _ _ _ _ _ _ h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout4 (c : Dev nD) : (dat4 V c).Φ (Fin.last cfg4.N) ⊢ Pipeline.ΦA spec4 c :=
  Phi_out4 V c _ (by rw [Fin.val_last]; have : cfg4.N = 20 := N_4; omega)

end Cert.Kernel.Hand

end
-- ==== Proof.K.Fold.lean ====
import proofs.«424017_j2946347566021_2_alg».proof.Proof.Gen.Kernel.Regions
import proofs.«424017_j2946347566021_2_alg».proof.Proof.K.Reg0
import proofs.«424017_j2946347566021_2_alg».proof.Proof.K.Reg1
import proofs.«424017_j2946347566021_2_alg».proof.Proof.K.Reg2
import proofs.«424017_j2946347566021_2_alg».proof.Proof.K.Reg3
import proofs.«424017_j2946347566021_2_alg».proof.Proof.K.Reg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c b

abbrev W5 : Dev nD → Valuation τ sig (Elt F) := fun c => StableHlo.after hostOps1 (W4 m c)
abbrev V5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c b
abbrev W7 : Dev nD → Valuation τ sig (Elt F) := fun c => StableHlo.after hostOps2 (W6 m c)
abbrev V7 : (c : Dev nD) → (b : Ref sig .tc) → Buf (Elt F) ((c : Thread nD τ).loc b) := fun c b => W7 m c b
def W8 (c : Dev nD) : Valuation τ sig (Elt F) :=
  Pipeline.withArrays spec2 c (W7 m c) fun w => (dat2 (V7 m) c).arrAt w cfg2.N
abbrev V8 : (c : Dev nD) → (b : Ref sig .tc) → Buf (Elt F) ((c : Thread nD τ).loc b) := fun c b => W8 m c b
abbrev W9 : Dev nD → Valuation τ sig (Elt F) := fun c => StableHlo.after hostOps3 (W8 m c)
abbrev V9 : (c : Dev nD) → (b : Ref sig .tc) → Buf (Elt F) ((c : Thread nD τ).loc b) := fun c b => W9 m c b
def W10 (c : Dev nD) : Valuation τ sig (Elt F) :=
  Pipeline.withArrays spec3 c (W9 m c) fun w => (dat3 (V9 m) c).arrAt w cfg3.N
abbrev V10 : (c : Dev nD) → (b : Ref sig .tc) → Buf (Elt F) ((c : Thread nD τ).loc b) := fun c b => W10 m c b
abbrev W11 : Dev nD → Valuation τ sig (Elt F) := fun c => StableHlo.after hostOps4 (W10 m c)
abbrev V11 : (c : Dev nD) → (b : Ref sig .tc) → Buf (Elt F) ((c : Thread nD τ).loc b) := fun c b => W11 m c b
def W12 (c : Dev nD) : Valuation τ sig (Elt F) :=
  Pipeline.withArrays spec4 c (W11 m c) fun w => (dat4 (V11 m) c).arrAt w cfg4.N
abbrev V12 : (c : Dev nD) → (b : Ref sig .tc) → Buf (Elt F) ((c : Thread nD τ).loc b) := fun c b => W12 m c b

abbrev W13 : Dev nD → Valuation τ sig (Elt F) := fun c => StableHlo.after hostOps5 (W12 m c)

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
theorem hF4 (c : Dev nD) (w : Fin cfg4.W) : (dat4 (V11 m) c).arrAt w cfg4.N = V12 m c (Pipeline.arrRef spec4 w) :=
  (W12_arr m c w).symm
theorem hrest4 (c : Dev nD) : ∀ b, b ∉ Finset.univ.image (Pipeline.arrRef spec4) → V12 m c b = V11 m c b :=
  fun b hb => W12_of_ne m c b fun w e => hb (Finset.mem_image.mpr ⟨w, Finset.mem_univ _, e⟩)

abbrev admH : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) admH p) c
  | ⟨0, _⟩ => fun c => dat0 (V3 m) c
  | ⟨1, _⟩ => fun c => dat1 (V5 m) c
  | ⟨2, _⟩ => fun c => dat2 (V7 m) c
  | ⟨3, _⟩ => fun c => dat3 (V9 m) c
  | ⟨4, _⟩ => fun c => dat4 (V11 m) c

abbrev 𝒱H : Variants := Variants.none

abbrev LH : GSem nD τ sig → Finset Unit := fun _ => ∅
abbrev lvH : GSem nD τ sig → Unit → ℕ := fun _ _ => 0

abbrev RH (c : Dev nD) : sProp 𝕄 := iprop((∃ r, prngReg c r) ∗ ∃ W, owes (c : Thread nD τ) (0 : CellTallies nD τ sig Unit) W)

abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Seg0.lean ====
import proofs.«424017_j2946347566021_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ LH lvH 0 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
import proofs.«424017_j2946347566021_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ LH lvH 1 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
import proofs.«424017_j2946347566021_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

def reg2 : Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ LH lvH 2 fun _ _ => rfl
  pre c := iprop(StableHlo.held (c : Thread nD τ) (Pipeline.ucRefs τ sig) (W7 m c) ∗ RH c)
  post c := iprop(StableHlo.held (c : Thread nD τ) (Pipeline.ucRefs τ sig) (W8 m c) ∗ RH c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
import proofs.«424017_j2946347566021_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

def reg3 : Pipeline.RegionSeg (pcfgs (F := F)) admH (pdats m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ LH lvH 3 fun _ _ => rfl
  pre c := iprop(StableHlo.held (c : Thread nD τ) (Pipeline.ucRefs τ sig) (W9 m c) ∗ RH c)
  post c := iprop(StableHlo.held (c : Thread nD τ) (Pipeline.ucRefs τ sig) (W10 m c) ∗ RH c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
import proofs.«424017_j2946347566021_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

def reg4 : Pipeline.RegionSeg (pcfgs (F := F)) admH (pdats m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (V11 m) c).loose
  hwaits := Pipeline.hwaits_of_owed_zero _ _ _ _ LH lvH 4 fun _ _ => rfl
  pre c := iprop(StableHlo.held (c : Thread nD τ) (Pipeline.ucRefs τ sig) (W11 m c) ∗ RH c)
  post c := iprop(StableHlo.held (c : Thread nD τ) (Pipeline.ucRefs τ sig) (W12 m c) ∗ RH c)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) admH (pdats m) launch4.win launch4.arr_whole c
      ((pdats m 4 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V11 m) c
    rw [show (pdats m 4 c).Φ 0 = (dat4 (V11 m) c).Φ 0 from rfl]
    unfold Pipeline.ΦA at h
    iintro ⟨Hp, -, Hr⟩
    iapply h
    isplitl [Hr]; · iexact Hr
    iexact Hp
  hout c := by
    have h := hout4 (V11 m) c
    rw [Pipeline.ownSems0_none, show (pdats m 4 c).Φ (Fin.last _) = (dat4 (V11 m) c).Φ (Fin.last cfg4.N) from rfl]
    unfold Pipeline.ΦA at h
    refine h.trans ?_
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
import proofs.«424017_j2946347566021_2_alg».proof.Proof.K.Seg0
import proofs.«424017_j2946347566021_2_alg».proof.Proof.K.Seg1
import proofs.«424017_j2946347566021_2_alg».proof.Proof.K.Seg2
import proofs.«424017_j2946347566021_2_alg».proof.Proof.K.Seg3
import proofs.«424017_j2946347566021_2_alg».proof.Proof.K.Seg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segsH : List (Pipeline.Seg (pcfgs (F := F)) admH (pdats m) () defs₀ 𝒱H LH lvH) :=
  [ .host (hsegH hostOps0 hostOps0_sub hostOps0_fresh (W0 m)),
    .host (hsegH hostOps0_1 hostOps0_1_sub hostOps0_1_fresh (W1 m)),
    .host (hsegH hostOps0_2 hostOps0_2_sub hostOps0_2_fresh (W2 m)),
    .region (reg0 m),
    .host (hsegH hostOps1 hostOps1_sub hostOps1_fresh (W4 m)),
    .region (reg1 m),
    .host (hsegH hostOps2 hostOps2_sub hostOps2_fresh (W6 m)),
    .region (reg2 m),
    .host (hsegH hostOps3 hostOps3_sub hostOps3_fresh (W8 m)),
    .region (reg3 m),
    .host (hsegH hostOps4 hostOps4_sub hostOps4_fresh (W10 m)),
    .region (reg4 m),
    .host (hsegH hostOps5 hostOps5_sub hostOps5_fresh (W12 m)) ]

abbrev TendH (c : Dev nD) : sProp 𝕄 := iprop(StableHlo.held (c : Thread nD τ) (Pipeline.ucRefs τ sig) (W13 m c) ∗ ∃ r, prngReg c r)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) admH (pdats m) () cellOf_inj emb₁ defs₀ 𝒱H LH lvH m ρ main (segsH m)
    (fun c Q => by
      rewrite [main_chain c, Pipeline.Seg.run_eq_chain,
        show (segsH m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TendH m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W13 m c) ∗ RH c) ⊢ _
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

end Cert.Kernel.Hand

end
-- ==== Proof.K.Keep.lean ====
import proofs.«424017_j2946347566021_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W7_of (c : Dev nD) (r : Ref sig .tc) (h : r ∉ hostOps2_W) : W7 m c (Proc.devRef .tc r) = W6 m c (Proc.devRef .tc r) :=
  StableHlo.after_of_writes_sub hostOps2 _ hostOps2_writes h
theorem W9_of (c : Dev nD) (r : Ref sig .tc) (h : r ∉ hostOps3_W) : W9 m c (Proc.devRef .tc r) = W8 m c (Proc.devRef .tc r) :=
  StableHlo.after_of_writes_sub hostOps3 _ hostOps3_writes h
theorem W11_of (c : Dev nD) (r : Ref sig .tc) (h : r ∉ hostOps4_W) : W11 m c (Proc.devRef .tc r) = W10 m c (Proc.devRef .tc r) :=
  StableHlo.after_of_writes_sub hostOps4 _ hostOps4_writes h
theorem W13_of (c : Dev nD) (r : Ref sig .tc) (h : r ∉ hostOps5_W) : W13 m c (Proc.devRef .tc r) = W12 m c (Proc.devRef .tc r) :=
  StableHlo.after_of_writes_sub hostOps5 _ hostOps5_writes h

theorem W4_keep (c : Dev nD) (r : Ref sig .tc) (h : r ≠ main_v16) : W4 m c (Proc.devRef .tc r) = W3 m c (Proc.devRef .tc r) := by
  by_cases hr : ∃ w, Pipeline.arrRef spec0 w = r
  · obtain ⟨w, rfl⟩ := hr
    rw [W4_arr m c w]
    match w with
    | ⟨0, _⟩ => exact ((dat0 (V3 m) c).arrAt_in 0 rfl _).trans (A_eq0 (V3 m) c 0)
    | ⟨1, _⟩ => exact ((dat0 (V3 m) c).arrAt_in 1 rfl _).trans (A_eq0 (V3 m) c 1)
    | ⟨2, _⟩ => exact ((dat0 (V3 m) c).arrAt_in 2 rfl _).trans (A_eq0 (V3 m) c 2)
    | ⟨3, _⟩ => exact absurd rfl h
  · exact W4_of_ne m c r fun w e => hr ⟨w, e⟩

theorem W6_keep (c : Dev nD) (r : Ref sig .tc) (h : r ≠ main_v29) : W6 m c (Proc.devRef .tc r) = W5 m c (Proc.devRef .tc r) := by
  by_cases hr : ∃ w, Pipeline.arrRef spec1 w = r
  · obtain ⟨w, rfl⟩ := hr
    rw [W6_arr m c w]
    match w with
    | ⟨0, _⟩ => exact ((dat1 (V5 m) c).arrAt_in 0 rfl _).trans (A_eq1 (V5 m) c 0)
    | ⟨1, _⟩ => exact ((dat1 (V5 m) c).arrAt_in 1 rfl _).trans (A_eq1 (V5 m) c 1)
    | ⟨2, _⟩ => exact ((dat1 (V5 m) c).arrAt_in 2 rfl _).trans (A_eq1 (V5 m) c 2)
    | ⟨3, _⟩ => exact ((dat1 (V5 m) c).arrAt_in 3 rfl _).trans (A_eq1 (V5 m) c 3)
    | ⟨4, _⟩ => exact absurd rfl h
  · exact W6_of_ne m c r fun w e => hr ⟨w, e⟩

theorem W8_keep (c : Dev nD) (r : Ref sig .tc) (h : r ≠ main_v42) : W8 m c (Proc.devRef .tc r) = W7 m c (Proc.devRef .tc r) := by
  by_cases hr : ∃ w, Pipeline.arrRef spec2 w = r
  · obtain ⟨w, rfl⟩ := hr
    rw [W8_arr m c w]
    match w with
    | ⟨0, _⟩ => exact ((dat2 (V7 m) c).arrAt_in 0 rfl _).trans (A_eq2 (V7 m) c 0)
    | ⟨1, _⟩ => exact ((dat2 (V7 m) c).arrAt_in 1 rfl _).trans (A_eq2 (V7 m) c 1)
    | ⟨2, _⟩ => exact ((dat2 (V7 m) c).arrAt_in 2 rfl _).trans (A_eq2 (V7 m) c 2)
    | ⟨3, _⟩ => exact ((dat2 (V7 m) c).arrAt_in 3 rfl _).trans (A_eq2 (V7 m) c 3)
    | ⟨4, _⟩ => exact absurd rfl h
  · exact W8_of_ne m c r fun w e => hr ⟨w, e⟩

theorem W10_keep (c : Dev nD) (r : Ref sig .tc) (h : r ≠ main_v55) : W10 m c (Proc.devRef .tc r) = W9 m c (Proc.devRef .tc r) := by
  by_cases hr : ∃ w, Pipeline.arrRef spec3 w = r
  · obtain ⟨w, rfl⟩ := hr
    rw [W10_arr m c w]
    match w with
    | ⟨0, _⟩ => exact ((dat3 (V9 m) c).arrAt_in 0 rfl _).trans (A_eq3 (V9 m) c 0)
    | ⟨1, _⟩ => exact ((dat3 (V9 m) c).arrAt_in 1 rfl _).trans (A_eq3 (V9 m) c 1)
    | ⟨2, _⟩ => exact ((dat3 (V9 m) c).arrAt_in 2 rfl _).trans (A_eq3 (V9 m) c 2)
    | ⟨3, _⟩ => exact ((dat3 (V9 m) c).arrAt_in 3 rfl _).trans (A_eq3 (V9 m) c 3)
    | ⟨4, _⟩ => exact absurd rfl h
  · exact W10_of_ne m c r fun w e => hr ⟨w, e⟩

theorem W12_keep (c : Dev nD) (r : Ref sig .tc) (h0 : r ≠ main_v69_0) (h1 : r ≠ main_v69_1) :
    W12 m c (Proc.devRef .tc r) = W11 m c (Proc.devRef .tc r) := by
  by_cases hr : ∃ w, Pipeline.arrRef spec4 w = r
  · obtain ⟨w, rfl⟩ := hr
    rw [W12_arr m c w]
    match w with
    | ⟨0, _⟩ => exact ((dat4 (V11 m) c).arrAt_in 0 rfl _).trans (A_eq4 (V11 m) c 0)
    | ⟨1, _⟩ => exact ((dat4 (V11 m) c).arrAt_in 1 rfl _).trans (A_eq4 (V11 m) c 1)
    | ⟨2, _⟩ => exact ((dat4 (V11 m) c).arrAt_in 2 rfl _).trans (A_eq4 (V11 m) c 2)
    | ⟨3, _⟩ => exact ((dat4 (V11 m) c).arrAt_in 3 rfl _).trans (A_eq4 (V11 m) c 3)
    | ⟨4, _⟩ => exact absurd rfl h0
    | ⟨5, _⟩ => exact absurd rfl h1
  · exact W12_of_ne m c r fun w e => hr ⟨w, e⟩

-- A buffer that no host stretch writes and that is no region's output ends as launched.
theorem W13_untouched (c : Dev nD) (r : Ref sig .tc)
    (h : r ∉ hostOps0_W ∧ r ∉ hostOps0_1_W ∧ r ∉ hostOps0_2_W ∧ r ≠ main_v16 ∧ r ∉ hostOps1_W ∧ r ≠ main_v29 ∧ r ∉ hostOps2_W
      ∧ r ≠ main_v42 ∧ r ∉ hostOps3_W ∧ r ≠ main_v55 ∧ r ∉ hostOps4_W ∧ r ≠ main_v69_0 ∧ r ≠ main_v69_1 ∧ r ∉ hostOps5_W) :
    W13 m c (Proc.devRef .tc r) = m ((c : Thread nD τ).loc r) := by
  obtain ⟨h0, h1, h2, h4, h5, h6, h7, h8, h9, h10, h11, h12, h12', h13⟩ := h
  exact (W13_of m c r h13).trans <| (W12_keep m c r h12 h12').trans <| (W11_of m c r h11).trans <| (W10_keep m c r h10).trans <|
    (W9_of m c r h9).trans <| (W8_keep m c r h8).trans <| (W7_of m c r h7).trans <| (W6_keep m c r h6).trans <|
    (W5_of m c r h5).trans <| (W4_keep m c r h4).trans <| (W3_of m c r h2).trans <| (W2_of m c r h1).trans <|
    (W1_of m c r h0).trans rfl

end Cert.Kernel.Hand

end
-- ==== Proof.K.Frame.lean ====
import proofs.«424017_j2946347566021_2_alg».proof.Proof.K.Run
import proofs.«424017_j2946347566021_2_alg».proof.Proof.K.Keep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_ucH main_arg0 (by decide))).trans (W13_untouched m c main_arg0 (by decide)),
     (h c _ (mem_ucH main_arg1 (by decide))).trans (W13_untouched m c main_arg1 (by decide)),
     (h c _ (mem_ucH main_arg2 (by decide))).trans (W13_untouched m c main_arg2 (by decide)),
     (h c _ (mem_ucH main_arg3 (by decide))).trans (W13_untouched m c main_arg3 (by decide)),
     (h c _ (mem_ucH main_arg4 (by decide))).trans (W13_untouched m c main_arg4 (by decide)),
     (h c _ (mem_ucH main_arg5 (by decide))).trans (W13_untouched m c main_arg5 (by decide)),
     (h c _ (mem_ucH main_arg6 (by decide))).trans (W13_untouched m c main_arg6 (by decide)),
     (h c _ (mem_ucH main_arg7 (by decide))).trans (W13_untouched m c main_arg7 (by decide)),
     (h c _ (mem_ucH main_arg8 (by decide))).trans (W13_untouched m c main_arg8 (by decide)),
     (h c _ (mem_ucH main_arg9 (by decide))).trans (W13_untouched m c main_arg9 (by decide)),
     (h c _ (mem_ucH main_arg10 (by decide))).trans (W13_untouched m c main_arg10 (by decide))⟩)
    (run_all m ρ)

end Cert.Kernel.Hand

end
-- ==== Proof.KI.Reg0.lean ====
import proofs.«424017_j2946347566021_2_alg».proof.Proof.Gen.KernelIdeal.Launch
import proofs.«424017_j2946347566021_2_alg».proof.Proof.Gen.KernelIdeal.Skeleton
import proofs.«424017_j2946347566021_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev whole0_0 : Rect S5000x15 := Rect.unit (s := S5000x15) ![0, 0] S5000x15.size inb_S5000x15_S5000x15_0_0
abbrev whole0_1 : Rect S15x64 := Rect.unit (s := S15x64) ![0, 0] S15x64.size inb_S15x64_S15x64_0_0
abbrev whole0_2 : Rect S5000x1 := Rect.unit (s := S5000x1) ![0, 0] S5000x1.size inb_S5000x1_S5000x1_0_0
abbrev whole0_3 : Rect S5000x64 := Rect.unit (s := S5000x64) ![0, 0] S5000x64.size inb_S5000x64_S5000x64_0_0

def out0_3 (x0 : Vec F S5000x15 .f32) (x1 : Vec F S15x64 .f32) (x2 : Vec F S5000x1 .f32) : Vec F S5000x64 .bf16 :=
  View.canon [⟨whole0_3, k0_pay1 (View.ld x0 whole0_0) (View.ld x1 whole0_1) (View.ld x2 whole0_2)⟩]

theorem covered0_3 (p : Vec F S5000x64 .bf16) (y : S5000x64.Idx) :
    ∃ pc ∈ ([⟨whole0_3, p⟩] : List (View.Piece (Elt F) S5000x64 .bf16)), y ∈ pc.1.set :=
  View.cover_of_tiled [⟨whole0_3, p⟩] S5000x64.size (by rfl) y

set_option maxHeartbeats 1000000 in

theorem sound_kernel0 (c : Dev nD) (E : Set ℕ) (i : grid0.Coords)
    (a0 : Memref sig .tc .vmem S5000x15 .f32) (ha0 : a0.IsWhole) (a1 : Memref sig .tc .vmem S15x64 .f32) (ha1 : a1.IsWhole)
    (a2 : Memref sig .tc .vmem S5000x1 .f32) (ha2 : a2.IsWhole) (a3 : Memref sig .tc .vmem S5000x64 .bf16) (ha3 : a3.IsWhole)
    (x0 : Vec F S5000x15 .f32) (x1 : Vec F S15x64 .f32) (x2 : Vec F S5000x1 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out0_3 x0 x1 x2)) -∗ K ⟨⟩))
      ⊢ wp frame (wpE (defs₀ (F := F)) Variants.none c none) E (cc0__linear_scale_kernel i a0 ha0 a1 ha1 a2 ha2 a3 ha3) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covered0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t))) := by
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand
end
-- ==== Proof.KI.Reg1.lean ====
import proofs.«424017_j2946347566021_2_alg».proof.Proof.Gen.KernelIdeal.Launch
import proofs.«424017_j2946347566021_2_alg».proof.Proof.Gen.KernelIdeal.Skeleton
import proofs.«424017_j2946347566021_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S5000x1 := Rect.unit (s := S5000x1) ![0, 0] S5000x1.size inb_S5000x1_S5000x1_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0

def out1_4 (x0 : Vec F S5000x64 .f32) (x1 : Vec F S5000x1 .f32) (x2 : Vec F S1x64 .f32) (x3 : Vec F S64x64 .f32) : Vec F S5000x64 .bf16 :=
  View.canon [⟨r1_0, k1_pay1 (View.ld x1 r1_1) (View.ld x2 r1_2) (View.ld x0 r1_0) (View.ld x3 r1_3)⟩]

theorem cover1_4 (p : Vec F S5000x64 .bf16) (y : S5000x64.Idx) :
    ∃ pc ∈ ([⟨r1_0, p⟩] : List (View.Piece (Elt F) S5000x64 .bf16)), y ∈ pc.1.set :=
  View.cover_of_tiled [⟨r1_0, p⟩] S5000x64.size (by rfl) y

set_option maxHeartbeats 4000000 in

theorem sound_kernel1 (c : Dev nD) (E : Set ℕ) (i : grid1.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S5000x64 .bf16) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__fused_mid_kernel i arg1 harg1 arg2 harg2 arg3 harg3 arg4 harg4 arg5 harg5) K := by
  simp only [cc1__fused_mid_kernel_eq_skeleton]; unfold cc1__fused_mid_kernel_skel
  unfold owns
  iintro ⟨⟨%g0, %e0, G0⟩, ⟨%g1, %e1, G1⟩, ⟨%g2, %e2, G2⟩, ⟨%g3, %e3, G3⟩, ⟨%d4, %g4, -, G4⟩, Hk⟩
  subst e0 e1 e2 e3
  sl_exec
  sl_step
  iapply Hk
  isplitl [G0]
  · iexists g0; isplitr; · ipureintro; rfl
    iexact G0
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  iexists _; isplitr
  swap; · iexact G4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand
end
-- ==== Proof.KI.Reg2.lean ====
import proofs.«424017_j2946347566021_2_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem sound_kernel2 (c : Dev nD) (E : Set ℕ) (i : grid2.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S5000x64 .bf16) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc2__fused_mid_kernel i arg1 harg1 arg2 harg2 arg3 harg3 arg4 harg4 arg5 harg5) K :=
  sound_kernel1 c E i arg1 harg1 arg2 harg2 arg3 harg3 arg4 harg4 arg5 harg5 x0 x1 x2 x3 K

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out1_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out1_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Hand
end
-- ==== Proof.KI.Reg3.lean ====
import proofs.«424017_j2946347566021_2_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem sound_kernel3 (c : Dev nD) (E : Set ℕ) (i : grid3.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S5000x64 .bf16) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc3__fused_mid_kernel i arg1 harg1 arg2 harg2 arg3 harg3 arg4 harg4 arg5 harg5) K :=
  sound_kernel1 c E i arg1 harg1 arg2 harg2 arg3 harg3 arg4 harg4 arg5 harg5 x0 x1 x2 x3 K

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out1_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out1_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _
    (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Hand
end
-- ==== Proof.KI.Reg4Runs.lean ====
import proofs.«424017_j2946347566021_2_alg».proof.Proof.Gen.KernelIdeal.Launch
import proofs.«424017_j2946347566021_2_alg».proof.Proof.Gen.KernelIdeal.Skeleton
import proofs.«424017_j2946347566021_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

theorem hcond4_1 : ∀ t : Fin cfg4.N, cond4_1 (grid4.coords t) ↔ t.val = 19 :=
  (by decide +kernel : ∀ t : Fin grid4.N, cond4_1 (grid4.coords t) ↔ t.val = 19)

theorem liveAt4_0 : ∀ i : grid4.Coords, cfg4.idle 0 i = false := fun _ => rfl
theorem liveAt4_1 : ∀ i : grid4.Coords, cfg4.idle 1 i = false := fun _ => rfl
theorem liveAt4_2 : ∀ i : grid4.Coords, cfg4.idle 2 i = false := fun _ => rfl
theorem liveAt4_3 : ∀ i : grid4.Coords, cfg4.idle 3 i = false := fun _ => rfl
theorem idleAt4_4 : ∀ t : Fin cfg4.N, ¬cond4_1 (grid4.coords t) → cfg4.idle 4 (grid4.coords t) = true := by decide +kernel
theorem idleAt4_5 : ∀ t : Fin cfg4.N, ¬cond4_1 (grid4.coords t) → cfg4.idle 5 (grid4.coords t) = true := by decide +kernel
theorem noFlush4_4 : ∀ t : Fin cfg4.N, ¬cond4_1 (grid4.coords t) → (cfg4.win 4).flush t = false := by decide +kernel
theorem noFlush4_5 : ∀ t : Fin cfg4.N, ¬cond4_1 (grid4.coords t) → (cfg4.win 5).flush t = false := by decide +kernel
theorem liveAt4_4 : ∀ t : Fin cfg4.N, cond4_1 (grid4.coords t) → cfg4.idle 4 (grid4.coords t) = false := by decide +kernel
theorem liveAt4_5 : ∀ t : Fin cfg4.N, cond4_1 (grid4.coords t) → cfg4.idle 5 (grid4.coords t) = false := by decide +kernel

abbrev VO4_4 : View sig .tc .vmem S256x64 .f32 := (Memref.whole cc4_stg4_0 : Memref sig .tc .vmem S256x64 .f32).view
abbrev VO4_5 : View sig .tc .vmem S1x256 .f32 := (Memref.whole cc4_stg5_0 : Memref sig .tc .vmem S1x256 .f32).view

abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S5000x1 .i32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S256x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x256 .f32 := win4_5.stage (cfg4.slots t 5)
abbrev hs4_5 (t : Fin cfg4.N) : (ms4_5 t).IsWhole := hstage4_5 ((cfg4.slots t 5).cast nbuf4_5)

abbrev scM4_0 : Memref sig .tc .vmem S256x64 .f32 := Memref.whole cc4_scratch0
abbrev scM4_1 : Memref sig .tc .vmem S1x256 .f32 := Memref.whole cc4_scratch1
abbrev VS4_0 : View sig .tc .vmem S256x64 .f32 := scM4_0.view
abbrev VS4_1 : View sig .tc .vmem S1x256 .f32 := scM4_1.view

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 (F := F) c) ∗ (∃ r, prngReg c r)) := by
  unfold Pipeline.ΦA; rw [scopedRest4_split]; simp only [scM4_0, scM4_1, owns_whole]; try rfl

section Runs
variable (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S256x64 .f32) (harg5 : arg5.IsWhole) (arg6 : Memref sig .tc .vmem S1x256 .f32) (harg6 : arg6.IsWhole) (arg7 : Memref sig .tc .vmem S256x64 .f32) (harg7 : arg7.IsWhole) (arg8 : Memref sig .tc .vmem S1x256 .f32) (harg8 : arg8.IsWhole)

set_option maxHeartbeats 1000000 in

noncomputable def kernelRun4_A (hc0 : cond4_0 i) (hc1 : ¬cond4_1 i)
    (x0 : Vec F S5000x64 .f32) (x1 : Vec F S5000x1 .f32) (x2 : Vec F S1x64 .f32) (x3 : Vec F S5000x1 .i32) :
    Σ' (LS0 : List (View.Piece (Elt F) S256x64 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__pool_fused_kernel i arg1 harg1 arg2 harg2 arg3 harg3 arg4 harg4 arg5 harg5 arg6 harg6 arg7 harg7 arg8 harg8) K } := by
  refine ⟨?_, ?_, fun E K => ?run⟩
  case run =>
    simp only [cc4__pool_fused_kernel_eq_skeleton]; unfold cc4__pool_fused_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 1000000 in

noncomputable def kernelRun4_B (hc0 : ¬cond4_0 i) (hc1 : ¬cond4_1 i)
    (x0 : Vec F S5000x64 .f32) (x1 : Vec F S5000x1 .f32) (x2 : Vec F S1x64 .f32) (x3 : Vec F S5000x1 .i32) (xs0 : Vec F S256x64 .f32) (xs1 : Vec F S1x256 .f32) :
    Σ' (LS0 : List (View.Piece (Elt F) S256x64 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__pool_fused_kernel i arg1 harg1 arg2 harg2 arg3 harg3 arg4 harg4 arg5 harg5 arg6 harg6 arg7 harg7 arg8 harg8) K } := by
  refine ⟨?_, ?_, fun E K => ?run⟩
  case run =>
    simp only [cc4__pool_fused_kernel_eq_skeleton]; unfold cc4__pool_fused_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 1000000 in

noncomputable def kernelRun4_C (hc0 : ¬cond4_0 i) (hc1 : cond4_1 i)
    (x0 : Vec F S5000x64 .f32) (x1 : Vec F S5000x1 .f32) (x2 : Vec F S1x64 .f32) (x3 : Vec F S5000x1 .i32) (xs0 : Vec F S256x64 .f32) (xs1 : Vec F S1x256 .f32) :
    Σ' (L4 : List (View.Piece (Elt F) S256x64 .f32)) (L5 : List (View.Piece (Elt F) S1x256 .f32)) (LS0 : List (View.Piece (Elt F) S256x64 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc4__pool_fused_kernel i arg1 harg1 arg2 harg2 arg3 harg3 arg4 harg4 arg5 harg5 arg6 harg6 arg7 harg7 arg8 harg8) K } := by
  refine ⟨?_, ?_, ?_, ?_, fun E K => ?run⟩
  case run =>
    simp only [cc4__pool_fused_kernel_eq_skeleton]; unfold cc4__pool_fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Runs

end Cert.KernelIdeal.Hand

end
-- ==== Proof.KI.Reg4.lean ====
import proofs.«424017_j2946347566021_2_alg».proof.Proof.KI.Reg4Runs

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem first4 (t : Fin cfg4.N) (h : t.val = 0) : cond4_0 (grid4.coords t) := (hcond4_0 t).mpr h
theorem notFirst4 (t : Fin cfg4.N) (h : t.val ≠ 0) : ¬cond4_0 (grid4.coords t) := fun hc => h ((hcond4_0 t).mp hc)
theorem last4 (t : Fin cfg4.N) (h : t.val = 19) : cond4_1 (grid4.coords t) := (hcond4_1 t).mpr h
theorem notLast4 (t : Fin cfg4.N) (h : t.val ≠ 19) : ¬cond4_1 (grid4.coords t) := fun hc => h ((hcond4_1 t).mp hc)

section AtPoint
variable (c : Dev nD) (t : Fin cfg4.N) (x0 : Vec F S5000x64 .f32) (x1 : Vec F S5000x1 .f32) (x2 : Vec F S1x64 .f32) (x3 : Vec F S5000x1 .i32)

-- The body's run at grid point `t`, on that point's own memrefs: the first point, a middle point, the last point.
abbrev run4_A (h0 : t.val = 0) :=
  kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t)
    scM4_0 (Memref.isWhole_whole _) scM4_1 (Memref.isWhole_whole _) (first4 t h0) (notLast4 t (by omega)) x0 x1 x2 x3

theorem scover4_A_0 (h0 : t.val = 0) (y : S256x64.Idx) : ∃ pc ∈ (run4_A c t x0 x1 x2 x3 h0).1, y ∈ pc.1.set :=
  View.cover_of_tiledL _ S256x64.size (by sl_kernel_rfl) y
theorem scover4_A_1 (h0 : t.val = 0) (y : S1x256.Idx) : ∃ pc ∈ (run4_A c t x0 x1 x2 x3 h0).2.1, y ∈ pc.1.set :=
  View.cover_of_tiledL _ S1x256.size (by sl_kernel_rfl) y

-- What a run leaves in a buffer: its stores read back, whatever the buffer held.
def sout4_A_0 (h0 : t.val = 0) : Vec F S256x64 .f32 := VS4_0.read (Elt F) (VS4_0.writes (Elt F) VS4_0.junk (run4_A c t x0 x1 x2 x3 h0).1)
def sout4_A_1 (h0 : t.val = 0) : Vec F S1x256 .f32 := VS4_1.read (Elt F) (VS4_1.writes (Elt F) VS4_1.junk (run4_A c t x0 x1 x2 x3 h0).2.1)

variable (xs0 : Vec F S256x64 .f32) (xs1 : Vec F S1x256 .f32)

abbrev run4_B (h0 : t.val ≠ 0) (h1 : t.val ≠ 19) :=
  kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t)
    scM4_0 (Memref.isWhole_whole _) scM4_1 (Memref.isWhole_whole _) (notFirst4 t h0) (notLast4 t h1) x0 x1 x2 x3 xs0 xs1

theorem scover4_B_0 (h0 : t.val ≠ 0) (h1 : t.val ≠ 19) (y : S256x64.Idx) : ∃ pc ∈ (run4_B c t x0 x1 x2 x3 xs0 xs1 h0 h1).1, y ∈ pc.1.set :=
  View.cover_of_tiledL _ S256x64.size (by sl_kernel_rfl) y
theorem scover4_B_1 (h0 : t.val ≠ 0) (h1 : t.val ≠ 19) (y : S1x256.Idx) : ∃ pc ∈ (run4_B c t x0 x1 x2 x3 xs0 xs1 h0 h1).2.1, y ∈ pc.1.set :=
  View.cover_of_tiledL _ S1x256.size (by sl_kernel_rfl) y

def sout4_B_0 (h0 : t.val ≠ 0) (h1 : t.val ≠ 19) : Vec F S256x64 .f32 := VS4_0.read (Elt F) (VS4_0.writes (Elt F) VS4_0.junk (run4_B c t x0 x1 x2 x3 xs0 xs1 h0 h1).1)
def sout4_B_1 (h0 : t.val ≠ 0) (h1 : t.val ≠ 19) : Vec F S1x256 .f32 := VS4_1.read (Elt F) (VS4_1.writes (Elt F) VS4_1.junk (run4_B c t x0 x1 x2 x3 xs0 xs1 h0 h1).2.1)

abbrev run4_C (h1 : t.val = 19) :=
  kernelRun4_C c (grid4.coords t) (ms4_0 t) (hs4_0 t) (ms4_1 t) (hs4_1 t) (ms4_2 t) (hs4_2 t) (ms4_3 t) (hs4_3 t) (ms4_4 t) (hs4_4 t) (ms4_5 t) (hs4_5 t)
    scM4_0 (Memref.isWhole_whole _) scM4_1 (Memref.isWhole_whole _) (notFirst4 t (by omega)) (last4 t h1) x0 x1 x2 x3 xs0 xs1

theorem cover4_C_4 (h1 : t.val = 19) (y : S256x64.Idx) : ∃ pc ∈ (run4_C c t x0 x1 x2 x3 xs0 xs1 h1).1, y ∈ pc.1.set :=
  View.cover_of_tiledL _ S256x64.size (by sl_kernel_rfl) y
theorem cover4_C_5 (h1 : t.val = 19) (y : S1x256.Idx) : ∃ pc ∈ (run4_C c t x0 x1 x2 x3 xs0 xs1 h1).2.1, y ∈ pc.1.set :=
  View.cover_of_tiledL _ S1x256.size (by sl_kernel_rfl) y
theorem scover4_C_0 (h1 : t.val = 19) (y : S256x64.Idx) : ∃ pc ∈ (run4_C c t x0 x1 x2 x3 xs0 xs1 h1).2.2.1, y ∈ pc.1.set :=
  View.cover_of_tiledL _ S256x64.size (by sl_kernel_rfl) y
theorem scover4_C_1 (h1 : t.val = 19) (y : S1x256.Idx) : ∃ pc ∈ (run4_C c t x0 x1 x2 x3 xs0 xs1 h1).2.2.2.1, y ∈ pc.1.set :=
  View.cover_of_tiledL _ S1x256.size (by sl_kernel_rfl) y

def out4_C_4 (h1 : t.val = 19) : Vec F S256x64 .f32 := VO4_4.read (Elt F) (VO4_4.writes (Elt F) VO4_4.junk (run4_C c t x0 x1 x2 x3 xs0 xs1 h1).1)
def out4_C_5 (h1 : t.val = 19) : Vec F S1x256 .f32 := VO4_5.read (Elt F) (VO4_5.writes (Elt F) VO4_5.junk (run4_C c t x0 x1 x2 x3 xs0 xs1 h1).2.1)
def sout4_C_0 (h1 : t.val = 19) : Vec F S256x64 .f32 := VS4_0.read (Elt F) (VS4_0.writes (Elt F) VS4_0.junk (run4_C c t x0 x1 x2 x3 xs0 xs1 h1).2.2.1)
def sout4_C_1 (h1 : t.val = 19) : Vec F S1x256 .f32 := VS4_1.read (Elt F) (VS4_1.writes (Elt F) VS4_1.junk (run4_C c t x0 x1 x2 x3 xs0 xs1 h1).2.2.2.1)

end AtPoint

def idle4_4 : Vec F S256x64 .f32 := VO4_4.read (Elt F) VO4_4.junk
def idle4_5 : Vec F S1x256 .f32 := VO4_5.read (Elt F) VO4_5.junk

-- After the body at position `n`: (sums' result, counts' result, sums' accumulator, counts' accumulator). The results are
-- stored at point 19 only; each later point runs over the accumulators as the point before left them.
def outsAt4 (c : Dev nD) : (n : ℕ) → n < cfg4.N → Vec F S256x64 .f32 × Vec F S1x256 .f32 × Vec F S256x64 .f32 × Vec F S1x256 .f32
  | 0, hn =>
    (idle4_4, idle4_5, sout4_A_0 c ⟨0, hn⟩ (iblk4 V c 0 ⟨0, hn⟩) (iblk4 V c 1 ⟨0, hn⟩) (iblk4 V c 2 ⟨0, hn⟩) (iblk4 V c 3 ⟨0, hn⟩) rfl, sout4_A_1 c ⟨0, hn⟩ (iblk4 V c 0 ⟨0, hn⟩) (iblk4 V c 1 ⟨0, hn⟩) (iblk4 V c 2 ⟨0, hn⟩) (iblk4 V c 3 ⟨0, hn⟩) rfl)
  | n + 1, hn =>
    if h : n + 1 = 19 then
      (out4_C_4 c ⟨n + 1, hn⟩ (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2 h,
        out4_C_5 c ⟨n + 1, hn⟩ (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2 h,
        sout4_C_0 c ⟨n + 1, hn⟩ (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2 h,
        sout4_C_1 c ⟨n + 1, hn⟩ (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2 h)
    else
      (idle4_4, idle4_5,
        sout4_B_0 c ⟨n + 1, hn⟩ (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2 (Nat.succ_ne_zero n) h,
        sout4_B_1 c ⟨n + 1, hn⟩ (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.1 (outsAt4 c n (Nat.lt_of_succ_lt hn)).2.2.2 (Nat.succ_ne_zero n) h)

theorem outsAt4_A (c : Dev nD) (t : Fin cfg4.N) (h0 : t.val = 0) :
    outsAt4 V c t.val t.isLt = (idle4_4, idle4_5, sout4_A_0 c t (iblk4 V c 0 t) (iblk4 V c 1 t) (iblk4 V c 2 t) (iblk4 V c 3 t) h0, sout4_A_1 c t (iblk4 V c 0 t) (iblk4 V c 1 t) (iblk4 V c 2 t) (iblk4 V c 3 t) h0) := by
  obtain ⟨n, hn⟩ := t
  cases n with
  | zero => rfl
  | succ n => exact absurd h0 (Nat.succ_ne_zero n)

theorem outsAt4_B (c : Dev nD) (t : Fin cfg4.N) (h0 : t.val ≠ 0) (h1 : t.val ≠ 19) :
    outsAt4 V c t.val t.isLt = (idle4_4, idle4_5,
      sout4_B_0 c t (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 h0 h1,
      sout4_B_1 c t (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 h0 h1) := by
  obtain ⟨n, hn⟩ := t
  cases n with
  | zero => exact absurd rfl h0
  | succ n => exact (dif_neg h1).trans rfl

theorem outsAt4_C (c : Dev nD) (t : Fin cfg4.N) (h0 : t.val ≠ 0) (h1 : t.val = 19) :
    outsAt4 V c t.val t.isLt = (
      out4_C_4 c t (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 h1,
      out4_C_5 c t (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 h1,
      sout4_C_0 c t (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 h1,
      sout4_C_1 c t (iblk4 V c 0 t) (iblk4 V c 1 t) (iblk4 V c 2 t) (iblk4 V c 3 t) (outsAt4 V c (t.val - 1) (Nat.lt_of_le_of_lt (Nat.sub_le _ _) t.isLt)).2.2.1 (outsAt4 V c (t.val - 1) (Nat.lt_of_le_of_lt (Nat.sub_le _ _) t.isLt)).2.2.2 h1) := by
  obtain ⟨n, hn⟩ := t
  cases n with
  | zero => exact absurd rfl h0
  | succ n => exact (dif_pos h1).trans rfl

def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.1 ∗ owns (c : Thread nD τ) scM4_1 fullShare (outsAt4 V c n hn).2.2.2) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.1 ∗ owns (c : Thread nD τ) scM4_1 fullShare (outsAt4 V c n hn).2.2.2) ∗ rest4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.1 ∗ owns (c : Thread nD τ) scM4_1 fullShare (outsAt4 V c (n - 1) (by omega)).2.2.2) ∗ rest4 (F := F) c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]

theorem before4_0 (c : Dev nD) (t : Fin cfg4.N) (d) : (dat4 V c).before 0 t d = iblk4 V c 0 t :=
  (dat4 V c).before_in_eq_fetched 0 rfl liveAt4_0 (fun _ _ _ => rfl) (fun _ => rfl) t d
theorem before4_1 (c : Dev nD) (t : Fin cfg4.N) (d) : (dat4 V c).before 1 t d = iblk4 V c 1 t :=
  (dat4 V c).before_in_eq_fetched 1 rfl liveAt4_1 (fun _ _ _ => rfl) (fun _ => rfl) t d
theorem before4_2 (c : Dev nD) (t : Fin cfg4.N) (d) : (dat4 V c).before 2 t d = iblk4 V c 2 t :=
  (dat4 V c).before_in_eq_fetched 2 rfl liveAt4_2 (fun _ _ _ => rfl) (fun _ => rfl) t d
theorem before4_3 (c : Dev nD) (t : Fin cfg4.N) (d) : (dat4 V c).before 3 t d = iblk4 V c 3 t :=
  (dat4 V c).before_in_eq_fetched 3 rfl liveAt4_3 (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

theorem leaves4_0 (c : Dev nD) (t : Fin cfg4.N) : (dat4 V c).leavesExact 0 t = owns (c : Thread nD τ) (ms4_0 t) fullShare (iblk4 V c 0 t) := by
  unfold Dat.leavesExact; rw [liveAt4_0, after4_0]
theorem leaves4_1 (c : Dev nD) (t : Fin cfg4.N) : (dat4 V c).leavesExact 1 t = owns (c : Thread nD τ) (ms4_1 t) fullShare (iblk4 V c 1 t) := by
  unfold Dat.leavesExact; rw [liveAt4_1, after4_1]
theorem leaves4_2 (c : Dev nD) (t : Fin cfg4.N) : (dat4 V c).leavesExact 2 t = owns (c : Thread nD τ) (ms4_2 t) fullShare (iblk4 V c 2 t) := by
  unfold Dat.leavesExact; rw [liveAt4_2, after4_2]
theorem leaves4_3 (c : Dev nD) (t : Fin cfg4.N) : (dat4 V c).leavesExact 3 t = owns (c : Thread nD τ) (ms4_3 t) fullShare (iblk4 V c 3 t) := by
  unfold Dat.leavesExact; rw [liveAt4_3, after4_3]

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3]
  by_cases h0 : t.val = 0
  ·
    have h1 : t.val ≠ 19 := by omega
    rw [Dat.leavesExact_idle (dat4 V c) 4 t (idleAt4_4 t (notLast4 t h1)) (noFlush4_4 t (notLast4 t h1)),
      Dat.leavesExact_idle (dat4 V c) 5 t (idleAt4_5 t (notLast4 t h1)) (noFlush4_5 t (notLast4 t h1))]
    rw [outsAt4_A V c t h0]
    unfold sout4_A_0 sout4_A_1; (try dsimp only)
    rw [PhiS4_castSucc V c t, PhiS4_zero V c _ _ h0, PhiA4_eq]
    iintro ⟨⟨⟨⟨HS0, HS1⟩, HR⟩, Hg⟩, Ho, ⟨%d0, H0⟩, ⟨%d1, H1⟩, ⟨%d2, H2⟩, ⟨%d3, H3⟩, H4, H5⟩
    iapply ((run4_A c t (iblk4 V c 0 t) (iblk4 V c 1 t) (iblk4 V c 2 t) (iblk4 V c 3 t) h0).2.2 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover4_A_0 c t _ _ _ _ h0)
          unfold owns; iexists _; isplitr
          swap; · iexact HS1
          ipureintro; exact View.read_writes_of_cover _ _ _ _ _ (scover4_A_1 c t _ _ _ _ h0)
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h1 : t.val = 19
    ·
      rw [show (dat4 V c).leavesExact 4 t = owns (c : Thread nD τ) (ms4_4 t) fullShare ((dat4 V c).after 4 t) from by
        unfold Dat.leavesExact; rw [liveAt4_4 t (last4 t h1)], after4_4]
      rw [show (dat4 V c).leavesExact 5 t = owns (c : Thread nD τ) (ms4_5 t) fullShare ((dat4 V c).after 5 t) from by
        unfold Dat.leavesExact; rw [liveAt4_5 t (last4 t h1)], after4_5]
      rw [outsAt4_C V c t h0 h1]
      unfold out4_C_4 out4_C_5 sout4_C_0 sout4_C_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((run4_C c t (iblk4 V c 0 t) (iblk4 V c 1 t) (iblk4 V c 2 t) (iblk4 V c 3 t) _ _ h1).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c t _ _ _ _ _ _ h1)
            unfold owns; iexists _; isplitr
            swap; · iexact HS1
            ipureintro; exact View.read_writes_of_cover _ _ _ _ _ (scover4_C_1 c t _ _ _ _ _ _ h1)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C_4 c t _ _ _ _ _ _ h1)
      unfold owns; iexists _; isplitr
      swap; · iexact H5
      ipureintro; exact View.read_writes_of_cover _ _ _ _ _ (cover4_C_5 c t _ _ _ _ _ _ h1)
    ·
      rw [Dat.leavesExact_idle (dat4 V c) 4 t (idleAt4_4 t (notLast4 t h1)) (noFlush4_4 t (notLast4 t h1)),
        Dat.leavesExact_idle (dat4 V c) 5 t (idleAt4_5 t (notLast4 t h1)) (noFlush4_5 t (notLast4 t h1))]
      rw [outsAt4_B V c t h0 h1]
      unfold sout4_B_0 sout4_B_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, H4, H5⟩
      iapply ((run4_B c t (iblk4 V c 0 t) (iblk4 V c 1 t) (iblk4 V c 2 t) (iblk4 V c 3 t) _ _ h0 h1).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c t _ _ _ _ _ _ h0 h1)
            unfold owns; iexists _; isplitr
            swap; · iexact HS1
            ipureintro; exact View.read_writes_of_cover _ _ _ _ _ (scover4_B_1 c t _ _ _ _ _ _ h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout4 (c : Dev nD) : (dat4 V c).Φ (Fin.last cfg4.N) ⊢ Pipeline.ΦA spec4 c :=
  Phi_out4 V c _ (by rw [Fin.val_last]; have : cfg4.N = 20 := N_4; omega)

end Cert.KernelIdeal.Hand

end
-- ==== Proof.KI.Fold.lean ====
import proofs.«424017_j2946347566021_2_alg».proof.Proof.Gen.KernelIdeal.Regions
import proofs.«424017_j2946347566021_2_alg».proof.Proof.KI.Reg0
import proofs.«424017_j2946347566021_2_alg».proof.Proof.KI.Reg1
import proofs.«424017_j2946347566021_2_alg».proof.Proof.KI.Reg2
import proofs.«424017_j2946347566021_2_alg».proof.Proof.KI.Reg3
import proofs.«424017_j2946347566021_2_alg».proof.Proof.KI.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c b

abbrev W5 : Dev nD → Valuation τ sig (Elt F) := fun c => StableHlo.after hostOps1 (W4 m c)
abbrev V5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c b
abbrev W7 : Dev nD → Valuation τ sig (Elt F) := fun c => StableHlo.after hostOps2 (W6 m c)
abbrev V7 : (c : Dev nD) → (b : Ref sig .tc) → Buf (Elt F) ((c : Thread nD τ).loc b) := fun c b => W7 m c b
def W8 (c : Dev nD) : Valuation τ sig (Elt F) :=
  Pipeline.withArrays spec2 c (W7 m c) fun w => (dat2 (V7 m) c).arrAt w cfg2.N
abbrev V8 : (c : Dev nD) → (b : Ref sig .tc) → Buf (Elt F) ((c : Thread nD τ).loc b) := fun c b => W8 m c b
abbrev W9 : Dev nD → Valuation τ sig (Elt F) := fun c => StableHlo.after hostOps3 (W8 m c)
abbrev V9 : (c : Dev nD) → (b : Ref sig .tc) → Buf (Elt F) ((c : Thread nD τ).loc b) := fun c b => W9 m c b
def W10 (c : Dev nD) : Valuation τ sig (Elt F) :=
  Pipeline.withArrays spec3 c (W9 m c) fun w => (dat3 (V9 m) c).arrAt w cfg3.N
abbrev V10 : (c : Dev nD) → (b : Ref sig .tc) → Buf (Elt F) ((c : Thread nD τ).loc b) := fun c b => W10 m c b
abbrev W11 : Dev nD → Valuation τ sig (Elt F) := fun c => StableHlo.after hostOps4 (W10 m c)
abbrev V11 : (c : Dev nD) → (b : Ref sig .tc) → Buf (Elt F) ((c : Thread nD τ).loc b) := fun c b => W11 m c b
def W12 (c : Dev nD) : Valuation τ sig (Elt F) :=
  Pipeline.withArrays spec4 c (W11 m c) fun w => (dat4 (V11 m) c).arrAt w cfg4.N
abbrev V12 : (c : Dev nD) → (b : Ref sig .tc) → Buf (Elt F) ((c : Thread nD τ).loc b) := fun c b => W12 m c b

abbrev W13 : Dev nD → Valuation τ sig (Elt F) := fun c => StableHlo.after hostOps5 (W12 m c)

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
theorem hF4 (c : Dev nD) (w : Fin cfg4.W) : (dat4 (V11 m) c).arrAt w cfg4.N = V12 m c (Pipeline.arrRef spec4 w) :=
  (W12_arr m c w).symm
theorem hrest4 (c : Dev nD) : ∀ b, b ∉ Finset.univ.image (Pipeline.arrRef spec4) → V12 m c b = V11 m c b :=
  fun b hb => W12_of_ne m c b fun w e => hb (Finset.mem_image.mpr ⟨w, Finset.mem_univ _, e⟩)

abbrev admH : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) admH p) c
  | ⟨0, _⟩ => fun c => dat0 (V3 m) c
  | ⟨1, _⟩ => fun c => dat1 (V5 m) c
  | ⟨2, _⟩ => fun c => dat2 (V7 m) c
  | ⟨3, _⟩ => fun c => dat3 (V9 m) c
  | ⟨4, _⟩ => fun c => dat4 (V11 m) c

abbrev 𝒱H : Variants := Variants.none

abbrev LH : GSem nD τ sig → Finset Unit := fun _ => ∅
abbrev lvH : GSem nD τ sig → Unit → ℕ := fun _ _ => 0

abbrev RH (c : Dev nD) : sProp 𝕄 := iprop((∃ r, prngReg c r) ∗ ∃ W, owes (c : Thread nD τ) (0 : CellTallies nD τ sig Unit) W)

abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Seg0.lean ====
import proofs.«424017_j2946347566021_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ LH lvH 0 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
import proofs.«424017_j2946347566021_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ LH lvH 1 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
import proofs.«424017_j2946347566021_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

def reg2 : Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ LH lvH 2 fun _ _ => rfl
  pre c := iprop(StableHlo.held (c : Thread nD τ) (Pipeline.ucRefs τ sig) (W7 m c) ∗ RH c)
  post c := iprop(StableHlo.held (c : Thread nD τ) (Pipeline.ucRefs τ sig) (W8 m c) ∗ RH c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
import proofs.«424017_j2946347566021_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

def reg3 : Pipeline.RegionSeg (pcfgs (F := F)) admH (pdats m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ LH lvH 3 fun _ _ => rfl
  pre c := iprop(StableHlo.held (c : Thread nD τ) (Pipeline.ucRefs τ sig) (W9 m c) ∗ RH c)
  post c := iprop(StableHlo.held (c : Thread nD τ) (Pipeline.ucRefs τ sig) (W10 m c) ∗ RH c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
import proofs.«424017_j2946347566021_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

def reg4 : Pipeline.RegionSeg (pcfgs (F := F)) admH (pdats m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (V11 m) c).loose
  hwaits := Pipeline.hwaits_of_owed_zero _ _ _ _ LH lvH 4 fun _ _ => rfl
  pre c := iprop(StableHlo.held (c : Thread nD τ) (Pipeline.ucRefs τ sig) (W11 m c) ∗ RH c)
  post c := iprop(StableHlo.held (c : Thread nD τ) (Pipeline.ucRefs τ sig) (W12 m c) ∗ RH c)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) admH (pdats m) launch4.win launch4.arr_whole c
      ((pdats m 4 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V11 m) c
    rw [show (pdats m 4 c).Φ 0 = (dat4 (V11 m) c).Φ 0 from rfl]
    unfold Pipeline.ΦA at h
    iintro ⟨Hp, -, Hr⟩
    iapply h
    isplitl [Hr]; · iexact Hr
    iexact Hp
  hout c := by
    have h := hout4 (V11 m) c
    rw [Pipeline.ownSems0_none, show (pdats m 4 c).Φ (Fin.last _) = (dat4 (V11 m) c).Φ (Fin.last cfg4.N) from rfl]
    unfold Pipeline.ΦA at h
    refine h.trans ?_
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«424017_j2946347566021_2_alg».proof.Proof.KI.Seg0
import proofs.«424017_j2946347566021_2_alg».proof.Proof.KI.Seg1
import proofs.«424017_j2946347566021_2_alg».proof.Proof.KI.Seg2
import proofs.«424017_j2946347566021_2_alg».proof.Proof.KI.Seg3
import proofs.«424017_j2946347566021_2_alg».proof.Proof.KI.Seg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segsH : List (Pipeline.Seg (pcfgs (F := F)) admH (pdats m) () defs₀ 𝒱H LH lvH) :=
  [ .host (hsegH hostOps0 hostOps0_sub hostOps0_fresh (W0 m)),
    .host (hsegH hostOps0_1 hostOps0_1_sub hostOps0_1_fresh (W1 m)),
    .host (hsegH hostOps0_2 hostOps0_2_sub hostOps0_2_fresh (W2 m)),
    .region (reg0 m),
    .host (hsegH hostOps1 hostOps1_sub hostOps1_fresh (W4 m)),
    .region (reg1 m),
    .host (hsegH hostOps2 hostOps2_sub hostOps2_fresh (W6 m)),
    .region (reg2 m),
    .host (hsegH hostOps3 hostOps3_sub hostOps3_fresh (W8 m)),
    .region (reg3 m),
    .host (hsegH hostOps4 hostOps4_sub hostOps4_fresh (W10 m)),
    .region (reg4 m),
    .host (hsegH hostOps5 hostOps5_sub hostOps5_fresh (W12 m)) ]

abbrev TendH (c : Dev nD) : sProp 𝕄 := iprop(StableHlo.held (c : Thread nD τ) (Pipeline.ucRefs τ sig) (W13 m c) ∗ ∃ r, prngReg c r)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) admH (pdats m) () cellOf_inj emb₁ defs₀ 𝒱H LH lvH m ρ main (segsH m)
    (fun c Q => by
      rewrite [main_chain c, Pipeline.Seg.run_eq_chain,
        show (segsH m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TendH m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W13 m c) ∗ RH c) ⊢ _
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

end Cert.KernelIdeal.Hand

end
-- ==== Proof.KI.Keep.lean ====
import proofs.«424017_j2946347566021_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W7_of (c : Dev nD) (r : Ref sig .tc) (h : r ∉ hostOps2_W) : W7 m c (Proc.devRef .tc r) = W6 m c (Proc.devRef .tc r) :=
  StableHlo.after_of_writes_sub hostOps2 _ hostOps2_writes h
theorem W9_of (c : Dev nD) (r : Ref sig .tc) (h : r ∉ hostOps3_W) : W9 m c (Proc.devRef .tc r) = W8 m c (Proc.devRef .tc r) :=
  StableHlo.after_of_writes_sub hostOps3 _ hostOps3_writes h
theorem W11_of (c : Dev nD) (r : Ref sig .tc) (h : r ∉ hostOps4_W) : W11 m c (Proc.devRef .tc r) = W10 m c (Proc.devRef .tc r) :=
  StableHlo.after_of_writes_sub hostOps4 _ hostOps4_writes h
theorem W13_of (c : Dev nD) (r : Ref sig .tc) (h : r ∉ hostOps5_W) : W13 m c (Proc.devRef .tc r) = W12 m c (Proc.devRef .tc r) :=
  StableHlo.after_of_writes_sub hostOps5 _ hostOps5_writes h

theorem W4_keep (c : Dev nD) (r : Ref sig .tc) (h : r ≠ main_v16) : W4 m c (Proc.devRef .tc r) = W3 m c (Proc.devRef .tc r) := by
  by_cases hr : ∃ w, Pipeline.arrRef spec0 w = r
  · obtain ⟨w, rfl⟩ := hr
    rw [W4_arr m c w]
    match w with
    | ⟨0, _⟩ => exact ((dat0 (V3 m) c).arrAt_in 0 rfl _).trans (A_eq0 (V3 m) c 0)
    | ⟨1, _⟩ => exact ((dat0 (V3 m) c).arrAt_in 1 rfl _).trans (A_eq0 (V3 m) c 1)
    | ⟨2, _⟩ => exact ((dat0 (V3 m) c).arrAt_in 2 rfl _).trans (A_eq0 (V3 m) c 2)
    | ⟨3, _⟩ => exact absurd rfl h
  · exact W4_of_ne m c r fun w e => hr ⟨w, e⟩

theorem W6_keep (c : Dev nD) (r : Ref sig .tc) (h : r ≠ main_v29) : W6 m c (Proc.devRef .tc r) = W5 m c (Proc.devRef .tc r) := by
  by_cases hr : ∃ w, Pipeline.arrRef spec1 w = r
  · obtain ⟨w, rfl⟩ := hr
    rw [W6_arr m c w]
    match w with
    | ⟨0, _⟩ => exact ((dat1 (V5 m) c).arrAt_in 0 rfl _).trans (A_eq1 (V5 m) c 0)
    | ⟨1, _⟩ => exact ((dat1 (V5 m) c).arrAt_in 1 rfl _).trans (A_eq1 (V5 m) c 1)
    | ⟨2, _⟩ => exact ((dat1 (V5 m) c).arrAt_in 2 rfl _).trans (A_eq1 (V5 m) c 2)
    | ⟨3, _⟩ => exact ((dat1 (V5 m) c).arrAt_in 3 rfl _).trans (A_eq1 (V5 m) c 3)
    | ⟨4, _⟩ => exact absurd rfl h
  · exact W6_of_ne m c r fun w e => hr ⟨w, e⟩

theorem W8_keep (c : Dev nD) (r : Ref sig .tc) (h : r ≠ main_v42) : W8 m c (Proc.devRef .tc r) = W7 m c (Proc.devRef .tc r) := by
  by_cases hr : ∃ w, Pipeline.arrRef spec2 w = r
  · obtain ⟨w, rfl⟩ := hr
    rw [W8_arr m c w]
    match w with
    | ⟨0, _⟩ => exact ((dat2 (V7 m) c).arrAt_in 0 rfl _).trans (A_eq2 (V7 m) c 0)
    | ⟨1, _⟩ => exact ((dat2 (V7 m) c).arrAt_in 1 rfl _).trans (A_eq2 (V7 m) c 1)
    | ⟨2, _⟩ => exact ((dat2 (V7 m) c).arrAt_in 2 rfl _).trans (A_eq2 (V7 m) c 2)
    | ⟨3, _⟩ => exact ((dat2 (V7 m) c).arrAt_in 3 rfl _).trans (A_eq2 (V7 m) c 3)
    | ⟨4, _⟩ => exact absurd rfl h
  · exact W8_of_ne m c r fun w e => hr ⟨w, e⟩

theorem W10_keep (c : Dev nD) (r : Ref sig .tc) (h : r ≠ main_v55) : W10 m c (Proc.devRef .tc r) = W9 m c (Proc.devRef .tc r) := by
  by_cases hr : ∃ w, Pipeline.arrRef spec3 w = r
  · obtain ⟨w, rfl⟩ := hr
    rw [W10_arr m c w]
    match w with
    | ⟨0, _⟩ => exact ((dat3 (V9 m) c).arrAt_in 0 rfl _).trans (A_eq3 (V9 m) c 0)
    | ⟨1, _⟩ => exact ((dat3 (V9 m) c).arrAt_in 1 rfl _).trans (A_eq3 (V9 m) c 1)
    | ⟨2, _⟩ => exact ((dat3 (V9 m) c).arrAt_in 2 rfl _).trans (A_eq3 (V9 m) c 2)
    | ⟨3, _⟩ => exact ((dat3 (V9 m) c).arrAt_in 3 rfl _).trans (A_eq3 (V9 m) c 3)
    | ⟨4, _⟩ => exact absurd rfl h
  · exact W10_of_ne m c r fun w e => hr ⟨w, e⟩

theorem W12_keep (c : Dev nD) (r : Ref sig .tc) (h0 : r ≠ main_v69_0) (h1 : r ≠ main_v69_1) :
    W12 m c (Proc.devRef .tc r) = W11 m c (Proc.devRef .tc r) := by
  by_cases hr : ∃ w, Pipeline.arrRef spec4 w = r
  · obtain ⟨w, rfl⟩ := hr
    rw [W12_arr m c w]
    match w with
    | ⟨0, _⟩ => exact ((dat4 (V11 m) c).arrAt_in 0 rfl _).trans (A_eq4 (V11 m) c 0)
    | ⟨1, _⟩ => exact ((dat4 (V11 m) c).arrAt_in 1 rfl _).trans (A_eq4 (V11 m) c 1)
    | ⟨2, _⟩ => exact ((dat4 (V11 m) c).arrAt_in 2 rfl _).trans (A_eq4 (V11 m) c 2)
    | ⟨3, _⟩ => exact ((dat4 (V11 m) c).arrAt_in 3 rfl _).trans (A_eq4 (V11 m) c 3)
    | ⟨4, _⟩ => exact absurd rfl h0
    | ⟨5, _⟩ => exact absurd rfl h1
  · exact W12_of_ne m c r fun w e => hr ⟨w, e⟩

-- A buffer that no host stretch writes and that is no region's output ends as launched.
theorem W13_untouched (c : Dev nD) (r : Ref sig .tc)
    (h : r ∉ hostOps0_W ∧ r ∉ hostOps0_1_W ∧ r ∉ hostOps0_2_W ∧ r ≠ main_v16 ∧ r ∉ hostOps1_W ∧ r ≠ main_v29 ∧ r ∉ hostOps2_W
      ∧ r ≠ main_v42 ∧ r ∉ hostOps3_W ∧ r ≠ main_v55 ∧ r ∉ hostOps4_W ∧ r ≠ main_v69_0 ∧ r ≠ main_v69_1 ∧ r ∉ hostOps5_W) :
    W13 m c (Proc.devRef .tc r) = m ((c : Thread nD τ).loc r) := by
  obtain ⟨h0, h1, h2, h4, h5, h6, h7, h8, h9, h10, h11, h12, h12', h13⟩ := h
  exact (W13_of m c r h13).trans <| (W12_keep m c r h12 h12').trans <| (W11_of m c r h11).trans <| (W10_keep m c r h10).trans <|
    (W9_of m c r h9).trans <| (W8_keep m c r h8).trans <| (W7_of m c r h7).trans <| (W6_keep m c r h6).trans <|
    (W5_of m c r h5).trans <| (W4_keep m c r h4).trans <| (W3_of m c r h2).trans <| (W2_of m c r h1).trans <|
    (W1_of m c r h0).trans rfl

end Cert.KernelIdeal.Hand

end
-- ==== Proof.KI.Frame.lean ====
import proofs.«424017_j2946347566021_2_alg».proof.Proof.KI.Run
import proofs.«424017_j2946347566021_2_alg».proof.Proof.KI.Keep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_ucH main_arg0 (by decide))).trans (W13_untouched m c main_arg0 (by decide)),
     (h c _ (mem_ucH main_arg1 (by decide))).trans (W13_untouched m c main_arg1 (by decide)),
     (h c _ (mem_ucH main_arg2 (by decide))).trans (W13_untouched m c main_arg2 (by decide)),
     (h c _ (mem_ucH main_arg3 (by decide))).trans (W13_untouched m c main_arg3 (by decide)),
     (h c _ (mem_ucH main_arg4 (by decide))).trans (W13_untouched m c main_arg4 (by decide)),
     (h c _ (mem_ucH main_arg5 (by decide))).trans (W13_untouched m c main_arg5 (by decide)),
     (h c _ (mem_ucH main_arg6 (by decide))).trans (W13_untouched m c main_arg6 (by decide)),
     (h c _ (mem_ucH main_arg7 (by decide))).trans (W13_untouched m c main_arg7 (by decide)),
     (h c _ (mem_ucH main_arg8 (by decide))).trans (W13_untouched m c main_arg8 (by decide)),
     (h c _ (mem_ucH main_arg9 (by decide))).trans (W13_untouched m c main_arg9 (by decide)),
     (h c _ (mem_ucH main_arg10 (by decide))).trans (W13_untouched m c main_arg10 (by decide))⟩)
    (run_all m ρ)

end Cert.KernelIdeal.Hand

end
-- ==== Proof.KI.Carry.lean ====
import proofs.«424017_j2946347566021_2_alg».proof.Proof.KI.Keep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (W3_of m c r h2).trans <| (W2_of m c r h1).trans <| (W1_of m c r h0).trans rfl

theorem W4_from3 (c : Dev nD) (r : Ref sig .tc) (h4 : r ≠ main_v16) : W4 m c (Proc.devRef .tc r) = W3 m c (Proc.devRef .tc r) :=
  W4_keep m c r h4
theorem W5_from3 (c : Dev nD) (r : Ref sig .tc) (h4 : r ≠ main_v16) (h5 : r ∉ hostOps1_W) :
    W5 m c (Proc.devRef .tc r) = W3 m c (Proc.devRef .tc r) :=
  (W5_of m c r h5).trans (W4_from3 m c r h4)
theorem W6_from3 (c : Dev nD) (r : Ref sig .tc) (h4 : r ≠ main_v16) (h5 : r ∉ hostOps1_W) (h6 : r ≠ main_v29) :
    W6 m c (Proc.devRef .tc r) = W3 m c (Proc.devRef .tc r) :=
  (W6_keep m c r h6).trans (W5_from3 m c r h4 h5)
theorem W7_from3 (c : Dev nD) (r : Ref sig .tc) (h4 : r ≠ main_v16) (h5 : r ∉ hostOps1_W) (h6 : r ≠ main_v29) (h7 : r ∉ hostOps2_W) :
    W7 m c (Proc.devRef .tc r) = W3 m c (Proc.devRef .tc r) :=
  (W7_of m c r h7).trans (W6_from3 m c r h4 h5 h6)
theorem W8_from3 (c : Dev nD) (r : Ref sig .tc) (h4 : r ≠ main_v16) (h5 : r ∉ hostOps1_W) (h6 : r ≠ main_v29) (h7 : r ∉ hostOps2_W)
    (h8 : r ≠ main_v42) : W8 m c (Proc.devRef .tc r) = W3 m c (Proc.devRef .tc r) :=
  (W8_keep m c r h8).trans (W7_from3 m c r h4 h5 h6 h7)
theorem W9_from3 (c : Dev nD) (r : Ref sig .tc) (h4 : r ≠ main_v16) (h5 : r ∉ hostOps1_W) (h6 : r ≠ main_v29) (h7 : r ∉ hostOps2_W)
    (h8 : r ≠ main_v42) (h9 : r ∉ hostOps3_W) : W9 m c (Proc.devRef .tc r) = W3 m c (Proc.devRef .tc r) :=
  (W9_of m c r h9).trans (W8_from3 m c r h4 h5 h6 h7 h8)
theorem W10_from3 (c : Dev nD) (r : Ref sig .tc) (h4 : r ≠ main_v16) (h5 : r ∉ hostOps1_W) (h6 : r ≠ main_v29) (h7 : r ∉ hostOps2_W)
    (h8 : r ≠ main_v42) (h9 : r ∉ hostOps3_W) (h10 : r ≠ main_v55) : W10 m c (Proc.devRef .tc r) = W3 m c (Proc.devRef .tc r) :=
  (W10_keep m c r h10).trans (W9_from3 m c r h4 h5 h6 h7 h8 h9)
theorem W11_from3 (c : Dev nD) (r : Ref sig .tc) (h4 : r ≠ main_v16) (h5 : r ∉ hostOps1_W) (h6 : r ≠ main_v29) (h7 : r ∉ hostOps2_W)
    (h8 : r ≠ main_v42) (h9 : r ∉ hostOps3_W) (h10 : r ≠ main_v55) (h11 : r ∉ hostOps4_W) :
    W11 m c (Proc.devRef .tc r) = W3 m c (Proc.devRef .tc r) :=
  (W11_of m c r h11).trans (W10_from3 m c r h4 h5 h6 h7 h8 h9 h10)

end Cert.KernelIdeal.Hand

end
-- ==== Proof.Algebra.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Data.Fintype.BigOperators
import Mathlib.Logic.Equiv.Fin.Basic

noncomputable section
namespace Cert.Algebra
open Idealize.ShloMosaic
open scoped BigOperators

def IsReal (x : EReal) : Prop := ∃ r : ℝ, x = (r : EReal)

theorem isReal_zero : IsReal (0 : EReal) := ⟨0, rfl⟩

theorem isReal_one : IsReal (1 : EReal) := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

theorem IsReal.ite {p : Prop} [Decidable p] {x y : EReal} (hx : IsReal x) (hy : IsReal y) :
    IsReal (if p then x else y) := by
  split
  · exact hx
  · exact hy

theorem isReal_sum {ι : Type*} (s : Finset ι) (g : ι → EReal) (hg : ∀ i ∈ s, IsReal (g i)) :
    IsReal (∑ i ∈ s, g i) := by
  classical
  induction s using Finset.induction_on with
  | empty => rw [Finset.sum_empty]; exact isReal_zero
  | insert a s ha ih =>
    rw [Finset.sum_insert ha]
    exact (hg a (Finset.mem_insert_self a s)).add
      (ih fun i hi => hg i (Finset.mem_insert_of_mem hi))

theorem rsqrt_coe_pos {r : ℝ} (hr : 0 < r) :
    Ideal.rsqrt (r : EReal) = (((Real.sqrt r)⁻¹ : ℝ) : EReal) := by
  rw [Ideal.rsqrt_coe, if_neg (not_lt.2 hr.le), if_neg hr.ne']

theorem isReal_rsqrt_coe {r : ℝ} (hr : 0 < r) : IsReal (Ideal.rsqrt (r : EReal)) :=
  ⟨(Real.sqrt r)⁻¹, rsqrt_coe_pos hr⟩

theorem isReal_rsqrt {x : EReal} (hx : IsReal x) (hpos : 0 < x) : IsReal (Ideal.rsqrt x) := by
  obtain ⟨a, rfl⟩ := hx
  exact isReal_rsqrt_coe (by exact_mod_cast hpos)

theorem sum_mul_of_isReal {ι : Type*} (s : Finset ι) (g : ι → EReal) (c : EReal)
    (hg : ∀ i ∈ s, IsReal (g i)) (hc : IsReal c) :
    (∑ i ∈ s, g i) * c = ∑ i ∈ s, g i * c := by
  classical
  induction s using Finset.induction_on with
  | empty => rw [Finset.sum_empty, Finset.sum_empty, zero_mul]
  | insert a s ha ih =>
    have hs : ∀ i ∈ s, IsReal (g i) := fun i hi => hg i (Finset.mem_insert_of_mem hi)
    rw [Finset.sum_insert ha, Finset.sum_insert ha, ← ih hs]
    obtain ⟨u, hu⟩ := hg a (Finset.mem_insert_self a s)
    obtain ⟨v, hv⟩ := isReal_sum s g hs
    obtain ⟨w, rfl⟩ := hc
    rw [hu, hv, ← EReal.coe_add, ← EReal.coe_mul, ← EReal.coe_mul, ← EReal.coe_mul,
      ← EReal.coe_add, add_mul]

section Agg
variable {E N C : ℕ}

theorem agg_scale (y : Fin N → Fin C → EReal) (δ : Fin N → EReal)
    (hy : ∀ n f, IsReal (y n f)) (hδ : ∀ n, IsReal (δ n))
    (T : Fin E → Fin N → Prop) [∀ e n, Decidable (T e n)] (r r' : Fin E → Fin N)
    (hT : ∀ e n, T e n → r' e = n) (n : Fin N) (f : Fin C) :
    (0 + ∑ e : Fin E, if T e n then y (r e) f * δ (r e) else 0) * δ n
      = 0 + ∑ e : Fin E, if T e n then y (r e) f * (δ (r e) * δ (r' e)) else 0 := by
  rw [zero_add, zero_add, sum_mul_of_isReal _ _ _ ?_ (hδ n)]
  · refine Finset.sum_congr rfl fun e _ => ?_
    by_cases h : T e n
    · rw [if_pos h, if_pos h, hT e n h, mul_assoc]
    · rw [if_neg h, if_neg h, zero_mul]
  · intro e _
    exact ((hy _ _).mul (hδ _)).ite isReal_zero

theorem agg_real (y : Fin N → Fin C → EReal) (δ : Fin N → EReal)
    (hy : ∀ n f, IsReal (y n f)) (hδ : ∀ n, IsReal (δ n))
    (T : Fin E → Fin N → Prop) [∀ e n, Decidable (T e n)] (r r' : Fin E → Fin N)
    (n : Fin N) (f : Fin C) :
    IsReal (0 + ∑ e : Fin E, if T e n then y (r e) f * (δ (r e) * δ (r' e)) else 0) :=
  isReal_zero.add <| isReal_sum _ _ fun e _ =>
    ((hy _ _).mul ((hδ _).mul (hδ _))).ite isReal_zero

end Agg

theorem matmul_real {K : ℕ} (a w : Fin K → EReal) (ha : ∀ k, IsReal (a k)) (hw : ∀ k, IsReal (w k)) :
    IsReal (∑ k : Fin K, a k * w k) :=
  isReal_sum _ _ fun k _ => (ha k).mul (hw k)

theorem onehot_mul (p : Prop) [Decidable p] (a : EReal) :
    (if p then (1 : EReal) else 0) * a = if p then a else 0 := by
  split
  · rw [one_mul]
  · rw [zero_mul]

theorem block_lt {B R : ℕ} (t : Fin B) (r : Fin R) : t.val * R + r.val < B * R :=
  calc t.val * R + r.val < t.val * R + R := Nat.add_lt_add_left r.isLt _
    _ = (t.val + 1) * R := (Nat.succ_mul _ _).symm
    _ ≤ B * R := Nat.mul_le_mul_right _ t.isLt

theorem sum_blocks {B R : ℕ} (f : Fin (B * R) → EReal) :
    ∑ n : Fin (B * R), f n = ∑ t : Fin B, ∑ r : Fin R, f ⟨t.val * R + r.val, block_lt t r⟩ := by
  rw [← Fintype.sum_prod_type' (fun (t : Fin B) (r : Fin R) => f ⟨t.val * R + r.val, block_lt t r⟩),
    ← Equiv.sum_comp (finProdFinEquiv : Fin B × Fin R ≃ Fin (B * R)) f]
  refine Finset.sum_congr rfl fun p _ => congrArg f (Fin.ext ?_)
  show p.2.val + R * p.1.val = p.1.val * R + p.2.val
  rw [Nat.mul_comm, Nat.add_comm]

end Cert.Algebra
-- ==== Proof.Glue.lean ====
import Idealize.ShloMosaic.PureOps.Ideal
import Idealize.ShloMosaic.PureOps.Ideal.Laws
import Idealize.ShloMosaic.Lib.ValueIdx

noncomputable section
namespace Cert.Glue
open Idealize.ShloMosaic Idealize.ShloMosaic.ValueIdx
open scoped BigOperators

def rowOf (N : Nat) [NeZero N] (w : BitVec 32) : Fin N :=
  ⟨min w.toInt.toNat (N - 1), by have := Nat.pos_of_ne_zero (NeZero.ne N); omega⟩

theorem rowOf_val (N : Nat) [NeZero N] (w : BitVec 32) : (rowOf N w).val = min w.toInt.toNat (N - 1) := rfl

theorem rowOf_of_inRange {N : Nat} [NeZero N] {w : BitVec 32} (h0 : 0 ≤ w.toInt) (h1 : w.toInt < N) :
    ((rowOf N w).val : Int) = w.toInt := by
  rw [rowOf_val]; omega

section ScatterRows
variable {N E C : Nat} (d : ScatterDims ⟨2, ![N, C]⟩ ⟨2, ![E, 1]⟩ ⟨2, ![E, C]⟩)
  (h1 : d.updateWindowDims = [1]) (h2 : d.insertedWindowDims = [0])
  (h3 : d.scatterDimsToOperandDims = [0]) (h4 : d.indexVectorDim = 1)
include h1 h2 h3 h4

theorem sr_start0 (e : Fin E) (f' : Fin C) (idx : IVec ⟨2, ![E, 1]⟩ 32) :
    d.start (ix2 e f') idx 0 = (idx (ix2 e 0)).toInt := by
  obtain ⟨uw, iw, sd, iv, wf⟩ := d
  dsimp only at h1 h2 h3 h4
  subst h1 h2 h3 h4
  unfold ScatterDims.start
  rw [dif_pos (List.mem_singleton.mpr rfl)]
  congr 2
  funext b
  match b with
  | ⟨0, _⟩ => rfl
  | ⟨1, _⟩ => rfl

theorem sr_start1 (j : (⟨2, ![E, C]⟩ : Shape).Idx) (idx : IVec ⟨2, ![E, 1]⟩ 32) : d.start j idx 1 = 0 := by
  obtain ⟨uw, iw, sd, iv, wf⟩ := d
  dsimp only at h1 h2 h3 h4
  subst h1 h2 h3 h4
  rfl

theorem sr_window0 (j : (⟨2, ![E, C]⟩ : Shape).Idx) : d.window j 0 = 0 := by
  obtain ⟨uw, iw, sd, iv, wf⟩ := d
  dsimp only at h1 h2 h3 h4
  subst h1 h2 h3 h4
  rfl

theorem sr_window1 (e : Fin E) (f' : Fin C) : d.window (ix2 e f') 1 = f'.val := by
  obtain ⟨uw, iw, sd, iv, wf⟩ := d
  dsimp only at h1 h2 h3 h4
  subst h1 h2 h3 h4
  rfl

theorem sr_resultIdx_iff (idx : IVec ⟨2, ![E, 1]⟩ 32) (e : Fin E) (f' : Fin C) (n : Fin N) (f : Fin C) :
    d.resultIdx? (ix2 e f') idx = some (ix2 n f) ↔ (idx (ix2 e 0)).toInt = (n.val : Int) ∧ f' = f := by
  have hs0 := sr_start0 d h1 h2 h3 h4 e f' idx
  have hs1 := sr_start1 d h1 h2 h3 h4 (ix2 e f') idx
  have hw0 := sr_window0 d h1 h2 h3 h4 (ix2 e f')
  have hw1 := sr_window1 d h1 h2 h3 h4 e f'
  unfold ScatterDims.resultIdx?
  by_cases h : ∀ a, 0 ≤ d.start (ix2 e f') idx a + (d.window (ix2 e f') a : Int)
      ∧ d.start (ix2 e f') idx a + (d.window (ix2 e f') a : Int) < (⟨2, ![N, C]⟩ : Shape).size a
  · rw [dif_pos h]
    have h0 := h 0
    rw [hs0, hw0] at h0
    constructor
    · intro he
      have he' := Option.some.inj he
      have e0 : (d.start (ix2 e f') idx 0 + (d.window (ix2 e f') 0 : Int)).toNat = n.val :=
        congrArg Fin.val (congrFun he' 0)
      have e1 : (d.start (ix2 e f') idx 1 + (d.window (ix2 e f') 1 : Int)).toNat = f.val :=
        congrArg Fin.val (congrFun he' 1)
      rw [hs0, hw0] at e0
      rw [hs1, hw1] at e1
      refine ⟨by omega, Fin.ext (by omega)⟩
    · rintro ⟨ht, rfl⟩
      congr 1
      funext a
      refine Fin.ext ?_
      match a with
      | ⟨0, _⟩ =>
        show (d.start (ix2 e f') idx 0 + (d.window (ix2 e f') 0 : Int)).toNat = n.val
        rw [hs0, hw0]; omega
      | ⟨1, _⟩ =>
        show (d.start (ix2 e f') idx 1 + (d.window (ix2 e f') 1 : Int)).toNat = f'.val
        rw [hs1, hw1]; omega
  · rw [dif_neg h]
    constructor
    · intro he; exact absurd he (by simp)
    · rintro ⟨ht, rfl⟩
      exfalso; apply h
      intro a
      match a with
      | ⟨0, _⟩ =>
        show 0 ≤ d.start (ix2 e f') idx 0 + (d.window (ix2 e f') 0 : Int)
          ∧ d.start (ix2 e f') idx 0 + (d.window (ix2 e f') 0 : Int) < (N : Int)
        rw [hs0, hw0]; have := n.isLt; omega
      | ⟨1, _⟩ =>
        show 0 ≤ d.start (ix2 e f') idx 1 + (d.window (ix2 e f') 1 : Int)
          ∧ d.start (ix2 e f') idx 1 + (d.window (ix2 e f') 1 : Int) < (C : Int)
        rw [hs1, hw1]; have := f'.isLt; omega

theorem scatterAdd_rows_apply (x : (⟨2, ![N, C]⟩ : Shape).Idx → EReal) (idx : IVec ⟨2, ![E, 1]⟩ 32)
    (upd : (⟨2, ![E, C]⟩ : Shape).Idx → EReal) (n : Fin N) (f : Fin C) :
    Ideal.hostScatterAdd d x idx upd (ix2 n f)
      = x (ix2 n f) + ∑ e : Fin E, if (idx (ix2 e 0)).toInt = (n.val : Int) then upd (ix2 e f) else 0 := by
  unfold Ideal.hostScatterAdd
  congr 1
  rw [Finset.sum_filter, sum_idx2]
  refine Finset.sum_congr rfl fun e _ => ?_
  simp only [sr_resultIdx_iff d h1 h2 h3 h4 idx]
  by_cases ht : (idx (ix2 e 0)).toInt = (n.val : Int)
  · simp only [ht, true_and, if_true]
    rw [Finset.sum_ite_eq' Finset.univ f (fun f' => upd (ix2 e f'))]
    simp
  · simp only [ht, false_and, if_false, Finset.sum_const_zero]

end ScatterRows

theorem sum_idx1 {M : Type*} [AddCommMonoid M] {n : Nat} (g : (⟨1, ![n]⟩ : Shape).Idx → M) :
    ∑ i, g i = ∑ a : Fin n, g (ix1 a) :=
  Fintype.sum_equiv ⟨fun i => i 0, ix1, fun i => (eq_ix1 i).symm, fun _ => rfl⟩ g (fun a => g (ix1 a))
    (fun i => congrArg g (eq_ix1 i))

section ScatterVec
variable {N E : Nat} (d : ScatterDims ⟨1, ![N]⟩ ⟨2, ![E, 1]⟩ ⟨1, ![E]⟩)
  (h1 : d.updateWindowDims = []) (h2 : d.insertedWindowDims = [0])
  (h3 : d.scatterDimsToOperandDims = [0]) (h4 : d.indexVectorDim = 1)
include h1 h2 h3 h4

theorem sv_start0 (e : Fin E) (idx : IVec ⟨2, ![E, 1]⟩ 32) :
    d.start (ix1 e) idx 0 = (idx (ix2 e 0)).toInt := by
  obtain ⟨uw, iw, sd, iv, wf⟩ := d
  dsimp only at h1 h2 h3 h4
  subst h1 h2 h3 h4
  unfold ScatterDims.start
  rw [dif_pos (List.mem_singleton.mpr rfl)]
  congr 2
  funext b
  match b with
  | ⟨0, _⟩ => rfl
  | ⟨1, _⟩ => rfl

theorem sv_window0 (j : (⟨1, ![E]⟩ : Shape).Idx) : d.window j 0 = 0 := by
  obtain ⟨uw, iw, sd, iv, wf⟩ := d
  dsimp only at h1 h2 h3 h4
  subst h1 h2 h3 h4
  rfl

theorem sv_resultIdx_iff (idx : IVec ⟨2, ![E, 1]⟩ 32) (e : Fin E) (n : Fin N) :
    d.resultIdx? (ix1 e) idx = some (ix1 n) ↔ (idx (ix2 e 0)).toInt = (n.val : Int) := by
  have hs0 := sv_start0 d h1 h2 h3 h4 e idx
  have hw0 := sv_window0 d h1 h2 h3 h4 (ix1 e)
  unfold ScatterDims.resultIdx?
  by_cases h : ∀ a, 0 ≤ d.start (ix1 e) idx a + (d.window (ix1 e) a : Int)
      ∧ d.start (ix1 e) idx a + (d.window (ix1 e) a : Int) < (⟨1, ![N]⟩ : Shape).size a
  · rw [dif_pos h]
    have h0 := h 0
    rw [hs0, hw0] at h0
    constructor
    · intro he
      have e0 : (d.start (ix1 e) idx 0 + (d.window (ix1 e) 0 : Int)).toNat = n.val :=
        congrArg Fin.val (congrFun (Option.some.inj he) 0)
      rw [hs0, hw0] at e0
      omega
    · intro ht
      congr 1
      funext a
      refine Fin.ext ?_
      match a with
      | ⟨0, _⟩ =>
        show (d.start (ix1 e) idx 0 + (d.window (ix1 e) 0 : Int)).toNat = n.val
        rw [hs0, hw0]; omega
  · rw [dif_neg h]
    constructor
    · intro he; exact absurd he (by simp)
    · intro ht
      exfalso; apply h
      intro a
      match a with
      | ⟨0, _⟩ =>
        show 0 ≤ d.start (ix1 e) idx 0 + (d.window (ix1 e) 0 : Int)
          ∧ d.start (ix1 e) idx 0 + (d.window (ix1 e) 0 : Int) < (N : Int)
        rw [hs0, hw0]; have := n.isLt; omega

theorem scatterAdd_vec_apply (x : (⟨1, ![N]⟩ : Shape).Idx → EReal) (idx : IVec ⟨2, ![E, 1]⟩ 32)
    (upd : (⟨1, ![E]⟩ : Shape).Idx → EReal) (n : Fin N) :
    Ideal.hostScatterAdd d x idx upd (ix1 n)
      = x (ix1 n) + ∑ e : Fin E, if (idx (ix2 e 0)).toInt = (n.val : Int) then upd (ix1 e) else 0 := by
  unfold Ideal.hostScatterAdd
  congr 1
  rw [Finset.sum_filter, sum_idx1]
  refine Finset.sum_congr rfl fun e _ => ?_
  simp only [sv_resultIdx_iff d h1 h2 h3 h4 idx]

end ScatterVec

section GatherRows
variable {N E C : Nat} [NeZero N] (d : GatherDims ⟨2, ![N, C]⟩ ⟨2, ![E, 1]⟩ ⟨2, ![E, C]⟩)
  (h1 : d.offsetDims = [1]) (h2 : d.collapsedSliceDims = [0]) (h3 : d.operandBatchingDims = [])
  (h4 : d.startIndexMap = [0]) (h5 : d.indexVectorDim = 1)
include h1 h2 h3 h4 h5

theorem gr_start0 (e : Fin E) (f : Fin C) (idx : IVec ⟨2, ![E, 1]⟩ 32) :
    d.start (ix2 e f) idx 0 = min (idx (ix2 e 0)).toInt.toNat (N - 1) := by
  have hsl : d.sliceSizes 0 = 1 := d.slice_collapsed 0 (by rw [h2]; exact List.mem_singleton.mpr rfl)
  obtain ⟨od, cd, ob, sb, sm, iv, ss, wf⟩ := d
  dsimp only at h1 h2 h3 h4 h5 hsl
  subst h1 h2 h3 h4 h5
  unfold GatherDims.start
  rw [dif_pos (List.mem_singleton.mpr rfl)]
  show min _ (N - ss 0) = _
  rw [hsl]
  congr 3
  congr 1
  funext b
  match b with
  | ⟨0, _⟩ => rfl
  | ⟨1, _⟩ => rfl

theorem gr_operandIdx (e : Fin E) (f : Fin C) (idx : IVec ⟨2, ![E, 1]⟩ 32) :
    d.operandIdx (ix2 e f) idx = ix2 (rowOf N (idx (ix2 e 0))) f := by
  have hs0 := gr_start0 d h1 h2 h3 h4 h5 e f idx
  have hb : ∀ a, d.batchCoord (ix2 e f) a = 0 := fun a =>
    d.batchCoord_eq_zero _ a (by rw [h3]; exact List.not_mem_nil)
  have hs1 : d.start (ix2 e f) idx 1 = 0 := by
    obtain ⟨od, cd, ob, sb, sm, iv, ss, wf⟩ := d
    dsimp only at h1 h2 h3 h4 h5
    subst h1 h2 h3 h4 h5
    rfl
  have ho0 : d.offCoord (ix2 e f) 0 = 0 := by
    obtain ⟨od, cd, ob, sb, sm, iv, ss, wf⟩ := d
    dsimp only at h1 h2 h3 h4 h5
    subst h1 h2 h3 h4 h5
    rfl
  have ho1 : d.offCoord (ix2 e f) 1 = f.val := by
    obtain ⟨od, cd, ob, sb, sm, iv, ss, wf⟩ := d
    dsimp only at h1 h2 h3 h4 h5
    subst h1 h2 h3 h4 h5
    rfl
  funext a
  refine Fin.ext ?_
  match a with
  | ⟨0, _⟩ =>
    show d.start (ix2 e f) idx 0 + d.batchCoord (ix2 e f) 0 + d.offCoord (ix2 e f) 0 = min (idx (ix2 e 0)).toInt.toNat (N - 1)
    simp only [hs0, hb, ho0, Nat.add_zero]
  | ⟨1, _⟩ =>
    show d.start (ix2 e f) idx 1 + d.batchCoord (ix2 e f) 1 + d.offCoord (ix2 e f) 1 = f.val
    rw [hs1, hb, ho1]; omega

theorem gather_rows_apply {α : Type} (x : (⟨2, ![N, C]⟩ : Shape).Idx → α) (idx : IVec ⟨2, ![E, 1]⟩ 32)
    (e : Fin E) (f : Fin C) :
    Host.gather d x idx (ix2 e f) = x (ix2 (rowOf N (idx (ix2 e 0))) f) := by
  unfold Host.gather
  rw [gr_operandIdx d h1 h2 h3 h4 h5 e f idx]

end GatherRows

section GatherVec
variable {N E : Nat} [NeZero N] (d : GatherDims ⟨1, ![N]⟩ ⟨2, ![E, 1]⟩ ⟨1, ![E]⟩)
  (h1 : d.offsetDims = []) (h2 : d.collapsedSliceDims = [0]) (h3 : d.operandBatchingDims = [])
  (h4 : d.startIndexMap = [0]) (h5 : d.indexVectorDim = 1)
include h1 h2 h3 h4 h5

theorem gv_start0 (e : Fin E) (idx : IVec ⟨2, ![E, 1]⟩ 32) :
    d.start (ix1 e) idx 0 = min (idx (ix2 e 0)).toInt.toNat (N - 1) := by
  have hsl : d.sliceSizes 0 = 1 := d.slice_collapsed 0 (by rw [h2]; exact List.mem_singleton.mpr rfl)
  obtain ⟨od, cd, ob, sb, sm, iv, ss, wf⟩ := d
  dsimp only at h1 h2 h3 h4 h5 hsl
  subst h1 h2 h3 h4 h5
  unfold GatherDims.start
  rw [dif_pos (List.mem_singleton.mpr rfl)]
  show min _ (N - ss 0) = _
  rw [hsl]
  congr 3
  congr 1
  funext b
  match b with
  | ⟨0, _⟩ => rfl
  | ⟨1, _⟩ => rfl

theorem gv_operandIdx (e : Fin E) (idx : IVec ⟨2, ![E, 1]⟩ 32) :
    d.operandIdx (ix1 e) idx = ix1 (rowOf N (idx (ix2 e 0))) := by
  have hs0 := gv_start0 d h1 h2 h3 h4 h5 e idx
  have hb : d.batchCoord (ix1 e) 0 = 0 :=
    d.batchCoord_eq_zero _ 0 (by rw [h3]; exact List.not_mem_nil)
  have ho0 : d.offCoord (ix1 e) 0 = 0 := by
    obtain ⟨od, cd, ob, sb, sm, iv, ss, wf⟩ := d
    dsimp only at h1 h2 h3 h4 h5
    subst h1 h2 h3 h4 h5
    rfl
  funext a
  refine Fin.ext ?_
  match a with
  | ⟨0, _⟩ =>
    show d.start (ix1 e) idx 0 + d.batchCoord (ix1 e) 0 + d.offCoord (ix1 e) 0 = min (idx (ix2 e 0)).toInt.toNat (N - 1)
    simp only [hs0, hb, ho0, Nat.add_zero]

theorem gather_vec_apply {α : Type} (v : (⟨1, ![N]⟩ : Shape).Idx → α) (idx : IVec ⟨2, ![E, 1]⟩ 32) (e : Fin E) :
    Host.gather d v idx (ix1 e) = v (ix1 (rowOf N (idx (ix2 e 0)))) := by
  unfold Host.gather
  rw [gv_operandIdx d h1 h2 h3 h4 h5 e idx]

end GatherVec

end Cert.Glue
end
-- ==== Proof.Edges.lean ====
import Idealize.ShloMosaic.PureOps.Ideal
import Idealize.ShloMosaic.Lib.ValueIdx
import Idealize.ShloMosaic.Lib.Affine
import Idealize.ShloMosaic.Lib.Pipeline.Value
import proofs.«424017_j2946347566021_2_alg».proof.Proof.Algebra
import proofs.«424017_j2946347566021_2_alg».proof.Proof.Glue

set_option maxRecDepth 16384

noncomputable section
namespace Cert.Edges
open Idealize.ShloMosaic Idealize.ShloMosaic.ValueIdx
open Cert.Algebra
open scoped BigOperators

theorem slices_row0 : (⟨2, ![2, 1200000]⟩ : Shape).Slices ![0, 0] ⟨2, ![1, 1200000]⟩ := by decide
theorem slices_row1 : (⟨2, ![2, 1200000]⟩ : Shape).Slices ![1, 0] ⟨2, ![1, 1200000]⟩ := by decide
theorem casts_row : (⟨2, ![1, 1200000]⟩ : Shape).ShapeCasts ⟨1, ![1200000]⟩ := by decide
theorem concat_loops :
    Shape.Concatenates [(⟨1, ![1200000]⟩ : Shape), ⟨1, ![100000]⟩] ⟨1, ![1300000]⟩ 0 := by decide
theorem bcast_edges :
    (⟨0, ![]⟩ : Shape).BroadcastsInDim ⟨1, ![1300000]⟩ (![] : Fin 0 → Fin (⟨1, ![1300000]⟩ : Shape).rank) := by decide
theorem bcast_nodes :
    (⟨0, ![]⟩ : Shape).BroadcastsInDim ⟨1, ![100000]⟩ (![] : Fin 0 → Fin (⟨1, ![100000]⟩ : Shape).rank) := by decide
theorem bcast_col :
    (⟨1, ![1300000]⟩ : Shape).BroadcastsInDim ⟨2, ![1300000, 1]⟩
      (![0] : Fin 1 → Fin (⟨2, ![1300000, 1]⟩ : Shape).rank) := by decide
theorem casts_col : (⟨1, ![100000]⟩ : Shape).ShapeCasts ⟨2, ![100000, 1]⟩ := by decide

def degScatter : ScatterDims ⟨1, ![100000]⟩ ⟨2, ![1300000, 1]⟩ ⟨1, ![1300000]⟩ where
  updateWindowDims := []
  insertedWindowDims := [0]
  scatterDimsToOperandDims := [0]
  indexVectorDim := 1
  wf := by decide

def srcV (ei : IVec ⟨2, ![2, 1200000]⟩ 32) : IVec ⟨1, ![1300000]⟩ 32 :=
  concatenate ⟨1, ![1300000]⟩ 0
    [⟨⟨1, ![1200000]⟩, shapeCast ⟨1, ![1200000]⟩ (extractStridedSlice ⟨2, ![1, 1200000]⟩ ![0, 0] ei slices_row0) casts_row⟩,
     ⟨⟨1, ![100000]⟩, iotaInDim ⟨1, ![100000]⟩ 32 0⟩] concat_loops

def dstV (ei : IVec ⟨2, ![2, 1200000]⟩ 32) : IVec ⟨1, ![1300000]⟩ 32 :=
  concatenate ⟨1, ![1300000]⟩ 0
    [⟨⟨1, ![1200000]⟩, shapeCast ⟨1, ![1200000]⟩ (extractStridedSlice ⟨2, ![1, 1200000]⟩ ![1, 0] ei slices_row1) casts_row⟩,
     ⟨⟨1, ![100000]⟩, iotaInDim ⟨1, ![100000]⟩ 32 0⟩] concat_loops

def normV (v : IVec ⟨1, ![1300000]⟩ 32) : IVec ⟨1, ![1300000]⟩ 32 :=
  select (cmpi .slt v (broadcastInDim ⟨1, ![1300000]⟩ ![] bcast_edges (constantI ⟨0, ![]⟩ 32 0#32)))
    (addi v (broadcastInDim ⟨1, ![1300000]⟩ ![] bcast_edges (constantI ⟨0, ![]⟩ 32 100000#32))) v

def colI (v : IVec ⟨1, ![1300000]⟩ 32) : IVec ⟨2, ![1300000, 1]⟩ 32 :=
  broadcastInDim ⟨2, ![1300000, 1]⟩ ![0] bcast_col v

def T (ei : IVec ⟨2, ![2, 1200000]⟩ 32) (e : Fin 1300000) (n : Fin 100000) : Prop :=
  ((colI (dstV ei)) (ix2 e 0)).toInt = (n.val : Int)

instance (ei : IVec ⟨2, ![2, 1200000]⟩ 32) (e : Fin 1300000) (n : Fin 100000) : Decidable (T ei e n) := by
  unfold T; infer_instance

theorem colI_apply (v : IVec ⟨1, ![1300000]⟩ 32) (e : Fin 1300000) : colI v (ix2 e 0) = v (ix1 e) := by
  unfold colI
  refine broadcastInDim_apply _ _ _ _ _ (fun a => ?_)
  match a with
  | ⟨0, _⟩ => rfl

theorem normV_apply (v : IVec ⟨1, ![1300000]⟩ 32) (i : (⟨1, ![1300000]⟩ : Shape).Idx) :
    normV v i = if (v i).toInt < 0 then v i + 100000#32 else v i := by
  have hc : (IntOp.cmpi .slt (v i) 0#32 = (1 : BitVec 1)) ↔ (v i).toInt < 0 := by
    have h1 : (IntOp.cmpi .slt (v i) 0#32 = 1#1) ↔ (v i).toInt < (0#32 : BitVec 32).toInt := IntOp.cmpi_slt
    have h0 : (0#32 : BitVec 32).toInt = 0 := by decide
    rw [h0] at h1; exact h1
  unfold normV
  show Scalar.select (IntOp.cmpi .slt (v i) 0#32) (IntOp.addi (v i) 100000#32) (v i) = _
  unfold Scalar.select
  by_cases h : (v i).toInt < 0
  · rw [if_pos h, if_pos (hc.2 h)]; rfl
  · rw [if_neg h, if_neg (fun hcc => h (hc.1 hcc))]

theorem normV_of_nonneg (v : IVec ⟨1, ![1300000]⟩ 32) (i : (⟨1, ![1300000]⟩ : Shape).Idx) (h : 0 ≤ (v i).toInt) :
    normV v i = v i := by
  rw [normV_apply, if_neg (not_lt.2 h)]

def rS (ei : IVec ⟨2, ![2, 1200000]⟩ 32) (e : Fin 1300000) : Fin 100000 :=
  Cert.Glue.rowOf 100000 ((colI (normV (srcV ei))) (ix2 e 0))

def rD (ei : IVec ⟨2, ![2, 1200000]⟩ 32) (e : Fin 1300000) : Fin 100000 :=
  Cert.Glue.rowOf 100000 ((colI (normV (dstV ei))) (ix2 e 0))

theorem hT (ei : IVec ⟨2, ![2, 1200000]⟩ 32) (e : Fin 1300000) (n : Fin 100000) (h : T ei e n) : rD ei e = n := by
  unfold T at h
  rw [colI_apply] at h
  have h0 : 0 ≤ (dstV ei (ix1 e)).toInt := by rw [h]; exact Int.natCast_nonneg _
  have h1 : (dstV ei (ix1 e)).toInt < ((100000 : ℕ) : ℤ) := by rw [h]; exact_mod_cast n.isLt
  unfold rD
  rw [colI_apply, normV_of_nonneg _ _ h0]
  apply Fin.ext
  have hr := Cert.Glue.rowOf_of_inRange (N := 100000) h0 h1
  rw [h] at hr
  exact_mod_cast hr

def degV (ei : IVec ⟨2, ![2, 1200000]⟩ 32) : (⟨1, ![100000]⟩ : Shape).Idx → EReal :=
  Host.scatterAdd (F := Ideal) (φ := .f32) degScatter
    (broadcastInDim ⟨1, ![100000]⟩ ![] bcast_nodes (constant (F := Ideal) ⟨0, ![]⟩ .f32 0x00000000#32))
    (colI (dstV ei))
    (broadcastInDim ⟨1, ![1300000]⟩ ![] bcast_edges (constant (F := Ideal) ⟨0, ![]⟩ .f32 0x3F800000#32))

def dinvV (ei : IVec ⟨2, ![2, 1200000]⟩ 32) : (⟨1, ![100000]⟩ : Shape).Idx → EReal :=
  select
    (cmpf (F := Ideal) (φ := .f32) .ogt (degV ei)
      (broadcastInDim ⟨1, ![100000]⟩ ![] bcast_nodes (constant (F := Ideal) ⟨0, ![]⟩ .f32 0x00000000#32)))
    (Host.rsqrt (F := Ideal) (φ := .f32) (degV ei))
    (broadcastInDim ⟨1, ![100000]⟩ ![] bcast_nodes (id (constant (F := Ideal) ⟨0, ![]⟩ .f32 0x00000000#32)))

def dinvCol (ei : IVec ⟨2, ![2, 1200000]⟩ 32) : (⟨2, ![100000, 1]⟩ : Shape).Idx → EReal :=
  shapeCast ⟨2, ![100000, 1]⟩ (dinvV ei) casts_col

theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num

theorem degV_eq (ei : IVec ⟨2, ![2, 1200000]⟩ 32) :
    degV ei = Ideal.hostScatterAdd degScatter (fun _ => (0 : EReal)) (colI (dstV ei)) (fun _ => (1 : EReal)) := by
  have hx : (broadcastInDim ⟨1, ![100000]⟩ ![] bcast_nodes (constant (F := Ideal) ⟨0, ![]⟩ .f32 0x00000000#32))
      = fun _ => (0 : EReal) := funext fun _ => ofBits_zero
  have hu : (broadcastInDim ⟨1, ![1300000]⟩ ![] bcast_edges (constant (F := Ideal) ⟨0, ![]⟩ .f32 0x3F800000#32))
      = fun _ => (1 : EReal) := funext fun _ => ofBits_one
  unfold degV
  rw [hx, hu]
  rfl

theorem degV_real (ei : IVec ⟨2, ![2, 1200000]⟩ 32) (i : (⟨1, ![100000]⟩ : Shape).Idx) : IsReal (degV ei i) := by
  rw [degV_eq]
  unfold Ideal.hostScatterAdd
  exact isReal_zero.add (isReal_sum _ _ (fun _ _ => isReal_one))

theorem cmp_ogt_eq_one (x y : EReal) : (Ideal.cmp .ogt x y = (1 : BitVec 1)) ↔ y < x := by
  show (BitVec.ofBool (decide (y < x)) = (1 : BitVec 1)) ↔ y < x
  by_cases h : y < x
  · simp [h]
  · simp [h]

theorem zeros_nodes :
    (broadcastInDim ⟨1, ![100000]⟩ ![] bcast_nodes (constant (F := Ideal) ⟨0, ![]⟩ .f32 0x00000000#32))
      = fun _ => (0 : EReal) := funext fun _ => ofBits_zero

theorem select_gt_rsqrt_apply {s : Shape} (d z z' : s.Idx → EReal) (i : s.Idx) :
    select (cmpf (F := Ideal) (φ := .f32) .ogt d z) (Host.rsqrt (F := Ideal) (φ := .f32) d) z' i
      = if z i < d i then Ideal.rsqrt (d i) else z' i := by
  show Scalar.select (Ideal.cmp .ogt (d i) (z i)) (Ideal.rsqrt (d i)) (z' i) = _
  unfold Scalar.select
  by_cases h : z i < d i
  · rw [if_pos h, if_pos ((cmp_ogt_eq_one _ _).2 h)]
  · rw [if_neg h, if_neg (fun hc => h ((cmp_ogt_eq_one _ _).1 hc))]

theorem dinvV_apply (ei : IVec ⟨2, ![2, 1200000]⟩ 32) (i : (⟨1, ![100000]⟩ : Shape).Idx) :
    dinvV ei i = if 0 < degV ei i then Ideal.rsqrt (degV ei i) else 0 := by
  unfold dinvV
  rw [id, zeros_nodes]
  exact select_gt_rsqrt_apply (degV ei) (fun _ => 0) (fun _ => 0) i

theorem dinvV_real (ei : IVec ⟨2, ![2, 1200000]⟩ 32) (i : (⟨1, ![100000]⟩ : Shape).Idx) : IsReal (dinvV ei i) := by
  rw [dinvV_apply]
  by_cases h : 0 < degV ei i
  · rw [if_pos h]; exact isReal_rsqrt (degV_real ei i) h
  · rw [if_neg h]; exact isReal_zero

theorem dinvCol_real (ei : IVec ⟨2, ![2, 1200000]⟩ 32) : ∀ i, IsReal (dinvCol ei i) := fun i => by
  unfold dinvCol shapeCast
  exact dinvV_real ei _

theorem dinvCol_apply (ei : IVec ⟨2, ![2, 1200000]⟩ 32) (n : Fin 100000) :
    dinvCol ei (ix2 n 0) = dinvV ei (ix1 n) := by
  unfold dinvCol
  refine shapeCast_apply _ _ _ _ ?_
  rw [Shape.rowMajor_val_one, Shape.rowMajor_val_two]
  show n.val = n.val * 1 + 0
  omega

end Cert.Edges
end
-- ==== Proof.KI.Head.lean ====
import proofs.«424017_j2946347566021_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import proofs.«424017_j2946347566021_2_alg».proof.Proof.Edges

set_option maxRecDepth 16384

noncomputable section
namespace Cert.KernelIdeal.Hand
open Cert.KernelIdeal Cert.KernelIdeal.Gen
open Idealize.ShloMosaic Idealize.ShloMosaic.TcCoe Idealize.ShloMosaic.ValueIdx
open Cert.Edges

theorem after0_src (W : Valuation τ sig (Elt Ideal)) :
    (StableHlo.after hostOps0 W (Proc.devRef .tc main_v3) : S1300000.Idx → BitVec 32)
      = srcV (W (Proc.devRef .tc main_arg1) : S2x1200000.Idx → BitVec 32) := by
  after_results
  rfl

theorem after0_dst (W : Valuation τ sig (Elt Ideal)) :
    (StableHlo.after hostOps0 W (Proc.devRef .tc main_v6) : S1300000.Idx → BitVec 32)
      = dstV (W (Proc.devRef .tc main_arg1) : S2x1200000.Idx → BitVec 32) := by
  after_results
  rfl

theorem after0_pos (W : Valuation τ sig (Elt Ideal)) :
    (StableHlo.after hostOps0 W (Proc.devRef .tc main_v12) : S100000.Idx → BitVec 1)
      = cmpf (F := Ideal) (φ := .f32) .ogt (degV (W (Proc.devRef .tc main_arg1) : S2x1200000.Idx → BitVec 32))
          (broadcastInDim S100000 ![] bcast_S_S100000 (constant (F := Ideal) S_ .f32 0x00000000#32)) := by
  after_results
  rfl

theorem after0_rsqrt (W : Valuation τ sig (Elt Ideal)) :
    (StableHlo.after hostOps0 W (Proc.devRef .tc main_v13) : S100000.Idx → EReal)
      = Host.rsqrt (F := Ideal) (φ := .f32) (degV (W (Proc.devRef .tc main_arg1) : S2x1200000.Idx → BitVec 32)) := by
  after_results
  rfl

theorem after0_zero (W : Valuation τ sig (Elt Ideal)) :
    (StableHlo.after hostOps0 W (Proc.devRef .tc main_cst_2) : S_.Idx → EReal)
      = constant (F := Ideal) S_ .f32 0x00000000#32 := by
  after_results

theorem after1_dinv (W : Valuation τ sig (Elt Ideal)) :
    (StableHlo.after hostOps0_1 W (Proc.devRef .tc main_v14) : S100000.Idx → EReal)
      = select (W (Proc.devRef .tc main_v12) : S100000.Idx → BitVec 1) (W (Proc.devRef .tc main_v13) : S100000.Idx → EReal)
          (broadcastInDim S100000 ![] bcast_S_S100000 (id (W (Proc.devRef .tc main_cst_2) : S_.Idx → EReal))) := by
  after_results
  rfl

theorem after1_src (W : Valuation τ sig (Elt Ideal)) :
    StableHlo.after hostOps0_1 W (Proc.devRef .tc main_v3) = W (Proc.devRef .tc main_v3) := by
  after_results

theorem after1_dst (W : Valuation τ sig (Elt Ideal)) :
    StableHlo.after hostOps0_1 W (Proc.devRef .tc main_v6) = W (Proc.devRef .tc main_v6) := by
  after_results

theorem after2_col (W : Valuation τ sig (Elt Ideal)) :
    (StableHlo.after hostOps0_2 W (Proc.devRef .tc main_v15) : S100000x1.Idx → EReal)
      = shapeCast S100000x1 (W (Proc.devRef .tc main_v14) : S100000.Idx → EReal) shapeCasts_S100000_S100000x1 := by
  after_results
  rfl

theorem after2_src (W : Valuation τ sig (Elt Ideal)) :
    StableHlo.after hostOps0_2 W (Proc.devRef .tc main_v3) = W (Proc.devRef .tc main_v3) := by
  after_results

theorem after2_dst (W : Valuation τ sig (Elt Ideal)) :
    StableHlo.after hostOps0_2 W (Proc.devRef .tc main_v6) = W (Proc.devRef .tc main_v6) := by
  after_results

theorem head_src (W : Valuation τ sig (Elt Ideal)) :
    (StableHlo.after hostOps0_2 (StableHlo.after hostOps0_1 (StableHlo.after hostOps0 W)) (Proc.devRef .tc main_v3)
        : S1300000.Idx → BitVec 32)
      = srcV (W (Proc.devRef .tc main_arg1) : S2x1200000.Idx → BitVec 32) := by
  rw [after2_src, after1_src]
  exact after0_src W

theorem head_dst (W : Valuation τ sig (Elt Ideal)) :
    (StableHlo.after hostOps0_2 (StableHlo.after hostOps0_1 (StableHlo.after hostOps0 W)) (Proc.devRef .tc main_v6)
        : S1300000.Idx → BitVec 32)
      = dstV (W (Proc.devRef .tc main_arg1) : S2x1200000.Idx → BitVec 32) := by
  rw [after2_dst, after1_dst]
  exact after0_dst W

theorem head_dinv (W : Valuation τ sig (Elt Ideal)) :
    (StableHlo.after hostOps0_2 (StableHlo.after hostOps0_1 (StableHlo.after hostOps0 W)) (Proc.devRef .tc main_v15)
        : S100000x1.Idx → EReal)
      = dinvCol (W (Proc.devRef .tc main_arg1) : S2x1200000.Idx → BitVec 32) := by
  rw [after2_col, after1_dinv, after0_pos, after0_rsqrt, after0_zero]
  rfl

end Cert.KernelIdeal.Hand
end
-- ==== Proof.KI.Tail.lean ====
import proofs.«424017_j2946347566021_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section
namespace Cert.KernelIdeal.Hand
open Cert.KernelIdeal Cert.KernelIdeal.Gen
open Idealize.ShloMosaic Idealize.ShloMosaic.TcCoe Idealize.ShloMosaic.ValueIdx

theorem tail_term_apply (a : FVec Ideal S256x64 .f32) (n : FVec Ideal S1x256 .f32) (g : Fin 256) (f : Fin 64) :
    Host.divf a (broadcastInDim S256x64 ![0, 1] bcast_S256x1_S256x64_0_1
        (maximumf (transpose S256x1 [1, 0] n transposes_S1x256_S256x1_1_0)
          (broadcastInDim S256x1 ![] bcast_S_S256x1 (constant (F := Ideal) S_ .f32 0x3F800000#32)))) (ix2 g f)
      = Ideal.div (a (ix2 g f)) (max (n (ix2 (0 : Fin 1) g)) 1) := by
  rw [hostDivf_apply]
  refine congrArg (Ideal.div (a (ix2 g f))) ?_
  rw [broadcastInDim_apply ![0, 1] bcast_S256x1_S256x64_0_1 _ (ix2 g f) (ix2 g (0 : Fin 1))
    (fun ax => by match ax with | ⟨0, _⟩ => rfl | ⟨1, _⟩ => rfl)]
  rw [maximumf_apply, transpose_ix2_apply, broadcastInDim_scalar_apply, constant_apply, Ideal.ofBits_one_f32]

theorem tail_apply (W : Valuation τ sig (Elt Ideal)) (g : Fin 256) (f : Fin 64) :
    (StableHlo.after hostOps5 W (Proc.devRef .tc main_v74) : S256x64.Idx → EReal) (ix2 g f)
      = Ideal.div ((W (Proc.devRef .tc main_v69_0) : S256x64.Idx → EReal) (ix2 g f))
          (max ((W (Proc.devRef .tc main_v69_1) : S1x256.Idx → EReal) (ix2 (0 : Fin 1) g)) 1) := by
  have e : (StableHlo.after hostOps5 W (Proc.devRef .tc main_v74) : S256x64.Idx → EReal)
      = Host.divf (F := Ideal) (W (Proc.devRef .tc main_v69_0) : FVec Ideal S256x64 .f32)
          (broadcastInDim S256x64 ![0, 1] bcast_S256x1_S256x64_0_1
            (maximumf (transpose S256x1 [1, 0] (W (Proc.devRef .tc main_v69_1) : FVec Ideal S1x256 .f32) transposes_S1x256_S256x1_1_0)
              (broadcastInDim S256x1 ![] bcast_S_S256x1 (constant (F := Ideal) S_ .f32 0x3F800000#32)))) := by
    after_results
  rw [e]
  exact tail_term_apply _ _ g f

end Cert.KernelIdeal.Hand
end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr2 (a b : Nat) : Type := (⟨2, ![a, b]⟩ : Shape).Idx → EReal

def linScale {K : Nat} (x : Arr2 100000 K) (W : Arr2 K 64) (δ : Arr2 100000 1) : Arr2 100000 64 :=
  fun i =>
    let n : Fin 100000 := i 0
    let d : Fin 64 := i 1
    (∑ k : Fin K, x (ix2 n k) * W (ix2 k d)) * δ (ix2 n 0)

def act (agg : Arr2 100000 64) (δ : Arr2 100000 1) (b : Arr2 1 64) : Arr2 100000 64 :=
  fun i =>
    let n : Fin 100000 := i 0
    let d : Fin 64 := i 1
    max (agg (ix2 n d) * δ (ix2 n 0) + b (ix2 0 d)) 0

def fusedMid (agg : Arr2 100000 64) (δ : Arr2 100000 1) (b : Arr2 1 64) (W : Arr2 64 64) : Arr2 100000 64 :=
  linScale (act agg δ b) W δ

def inGraph (batch : (⟨2, ![100000, 1]⟩ : Shape).Idx → BitVec 32) (n : Fin 100000) (g : Fin 256) : Prop :=
  batch (ix2 n 0) = BitVec.ofNat 32 g.val

instance (batch : (⟨2, ![100000, 1]⟩ : Shape).Idx → BitVec 32) (n : Fin 100000) (g : Fin 256) :
    Decidable (inGraph batch n g) := by unfold inGraph; infer_instance

def poolSums (a : Arr2 100000 64) (batch : (⟨2, ![100000, 1]⟩ : Shape).Idx → BitVec 32) : Arr2 256 64 :=
  fun i =>
    let g : Fin 256 := i 0
    let d : Fin 64 := i 1
    ∑ n : Fin 100000, (if inGraph batch n g then (1 : EReal) else 0) * a (ix2 n d)

def poolCnt (batch : (⟨2, ![100000, 1]⟩ : Shape).Idx → BitVec 32) : Arr2 1 256 :=
  fun i =>
    let g : Fin 256 := i 1
    ∑ n : Fin 100000, (if inGraph batch n g then (1 : EReal) else 0)

end Cert.Spec

end
-- ==== Proof.KI.Val0.lean ====
import proofs.«424017_j2946347566021_2_alg».proof.Proof.KI.Reg0
import proofs.«424017_j2946347566021_2_alg».proof.Proof.Spec
import Idealize.ShloMosaic.Lib.Pipeline.Value
import Idealize.ShloMosaic.Lib.ValueIdx
import Idealize.ShloMosaic.PureOps.Ideal.Laws

set_option maxRecDepth 16384

noncomputable section
namespace Cert.KernelIdeal.Hand
open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem mmL_0 (i : S5000x64.Idx) (q : dot_S5000x15_S15x64_S5000x64_1_0_0_1_n_n.contr.Idx) :
    (dot_S5000x15_S15x64_S5000x64_1_0_0_1_n_n.lhsIdx i q 0).val = (i 0).val := by
  unfold DotDims.lhsIdx
  rw [dif_neg (show ¬(0 : Fin S5000x15.rank) ∈ dot_S5000x15_S15x64_S5000x64_1_0_0_1_n_n.lhsBatch by decide), dif_pos (show (0 : Fin S5000x15.rank) ∈ dot_S5000x15_S15x64_S5000x64_1_0_0_1_n_n.lhsNonContracting by decide)]
  rfl

theorem mmL_1 (i : S5000x64.Idx) (q : dot_S5000x15_S15x64_S5000x64_1_0_0_1_n_n.contr.Idx) :
    (dot_S5000x15_S15x64_S5000x64_1_0_0_1_n_n.lhsIdx i q 1).val = (q ⟨0, by decide⟩).val :=
  dot_S5000x15_S15x64_S5000x64_1_0_0_1_n_n.lhsIdx_val_of_single rfl i q

theorem mmR_0 (i : S5000x64.Idx) (q : dot_S5000x15_S15x64_S5000x64_1_0_0_1_n_n.contr.Idx) :
    (dot_S5000x15_S15x64_S5000x64_1_0_0_1_n_n.rhsIdx i q 0).val = (q ⟨0, by decide⟩).val :=
  dot_S5000x15_S15x64_S5000x64_1_0_0_1_n_n.rhsIdx_val_of_single rfl i q

theorem mmR_1 (i : S5000x64.Idx) (q : dot_S5000x15_S15x64_S5000x64_1_0_0_1_n_n.contr.Idx) :
    (dot_S5000x15_S15x64_S5000x64_1_0_0_1_n_n.rhsIdx i q 1).val = (i 1).val := by
  unfold DotDims.rhsIdx
  rw [dif_neg (show ¬(1 : Fin S15x64.rank) ∈ dot_S5000x15_S15x64_S5000x64_1_0_0_1_n_n.rhsBatch by decide), dif_pos (show (1 : Fin S15x64.rank) ∈ dot_S5000x15_S15x64_S5000x64_1_0_0_1_n_n.rhsNonContracting by decide)]
  rfl

theorem mm_at (a : FVec Ideal S5000x15 .bf16) (b : FVec Ideal S15x64 .bf16) (p : Fin 5000) (q : Fin 64) :
    matmul dot_S5000x15_S15x64_S5000x64_1_0_0_1_n_n none a b (constant (F := Ideal) S5000x64 .f32 0x00000000#32) (ix2 p q)
      = ∑ k : Fin 15, a (ix2 p k) * b (ix2 k q) := by
  simp only [matmul]
  rw [Ideal.matmul_constant_zero_apply, ← Equiv.sum_comp (contrEquiv1 dot_S5000x15_S15x64_S5000x64_1_0_0_1_n_n 15 rfl rfl).symm]
  refine Finset.sum_congr rfl fun k _ => ?_
  have hk := contrEquiv1_symm_val dot_S5000x15_S15x64_S5000x64_1_0_0_1_n_n 15 rfl rfl k
  have el : dot_S5000x15_S15x64_S5000x64_1_0_0_1_n_n.lhsIdx (ix2 p q) ((contrEquiv1 dot_S5000x15_S15x64_S5000x64_1_0_0_1_n_n 15 rfl rfl).symm k) = ix2 p k := funext fun a => Fin.ext (by
    match a with
    | ⟨0, _⟩ => exact mmL_0 _ _
    | ⟨1, _⟩ => exact (mmL_1 _ _).trans hk)
  have er : dot_S5000x15_S15x64_S5000x64_1_0_0_1_n_n.rhsIdx (ix2 p q) ((contrEquiv1 dot_S5000x15_S15x64_S5000x64_1_0_0_1_n_n 15 rfl rfl).symm k) = ix2 k q := funext fun a => Fin.ext (by
    match a with
    | ⟨0, _⟩ => exact (mmR_0 _ _).trans hk
    | ⟨1, _⟩ => exact mmR_1 _ _)
  rw [el, er]

theorem spread_at (s : FVec Ideal S5000x1 .f32) (p : Fin 5000) (q : Fin 64) :
    broadcastTo S5000x64 (shapeCast S5000x1 s shapeCasts_S5000x1_S5000x1) broadcasts_S5000x1_S5000x64 (ix2 p q) = s (ix2 p 0) := by
  rw [shapeCast_self]
  refine broadcastTo_apply s broadcasts_S5000x1_S5000x64 (ix2 p q) (ix2 p 0) (fun a => ?_)
  match a with
  | ⟨0, _⟩ => show p.val = if (5000 : Nat) = 1 then 0 else p.val; rw [if_neg (by decide)]
  | ⟨1, _⟩ => show (0 : Nat) = if (1 : Nat) = 1 then 0 else q.val; rw [if_pos rfl]

theorem pay_at (x0 : Vec Ideal S5000x15 .f32) (x1 : Vec Ideal S15x64 .f32) (x2 : Vec Ideal S5000x1 .f32) (p : Fin 5000) (q : Fin 64) :
    k0_pay1 (F := Ideal) x0 x1 x2 (ix2 p q) = (∑ k : Fin 15, x0 (ix2 p k) * x1 (ix2 k q)) * x2 (ix2 p 0) := by
  unfold k0_pay1
  exact congr (congrArg HMul.hMul (mm_at x0 x1 p q)) (spread_at x2 p q)

theorem where0 : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem zeros2 : (![0, 0] : Fin 2 → Nat) = fun _ => 0 := funext fun a => by
  match a with
  | ⟨0, _⟩ => rfl
  | ⟨1, _⟩ => rfl

theorem flushed0_3 (c : Dev nD) (t : Fin cfg0.N) :
    (dat0 (F := Ideal) V c).flushed 3 t
      = ((cfg0.win 3).blk t).view.read (Elt Ideal) (Cert.Spec.linScale (K := 15) (V c main_arg0) (V c main_arg3) (V c main_v15)) := by
  show (cfg0.win 3).cut (grid0.coords t) ((dat0 (F := Ideal) V c).after 3 t) = _
  rw [after0_3]
  unfold out0_3
  rw [View.canon_unit_zero zeros2]
  simp only [View.ld_unit_zero (S := S5000x15) zeros2, View.ld_unit_zero (S := S15x64) zeros2, View.ld_unit_zero (S := S5000x1) zeros2]
  obtain ⟨e30, e31, e00, e01, e10, e11, e20, e21⟩ := where0 t
  funext j
  obtain ⟨p, q, rfl⟩ : ∃ (p : Fin 5000) (q : Fin 64), j = ix2 p q := ⟨j 0, j 1, eq_ix2 j⟩
  have hp : p.val < 5000 := p.isLt
  have hq : q.val < 64 := q.isLt
  show k0_pay1 (F := Ideal) (iblk0 V c 0 t) (iblk0 V c 1 t) (iblk0 V c 2 t) (ix2 p q)
    = Cert.Spec.linScale (K := 15) (V c main_arg0) (V c main_arg3) (V c main_v15) (((cfg0.win 3).blk t).view.emb (ix2 p q))
  refine (pay_at (iblk0 V c 0 t) (iblk0 V c 1 t) (iblk0 V c 2 t) p q).trans ?_
  unfold Cert.Spec.linScale
  dsimp only

  have h0 : ∀ k : Fin 15, iblk0 V c 0 t (ix2 p k)
      = V c main_arg0 (ix2 ((((cfg0.win 3).blk t).view.emb (ix2 p q)) 0) k) := fun k => by
    have hk : k.val < 15 := k.isLt
    show V c main_arg0 (((cfg0.win 0).blk t).view.emb (ix2 p k)) = _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 15 + 1 * k.val = k.val; omega

  have h1 : ∀ k : Fin 15, iblk0 V c 1 t (ix2 k q)
      = V c main_arg3 (ix2 k ((((cfg0.win 3).blk t).view.emb (ix2 p q)) 1)) := fun k => by
    have hk : k.val < 15 := k.isLt
    show V c main_arg3 (((cfg0.win 1).blk t).view.emb (ix2 k q)) = _
    refine congrArg _ (funext fun a => Fin.ext ?_)
    match a with
    | ⟨0, _⟩ => show win0_1.index t (0 : Fin 2) * 15 + 1 * k.val = k.val; omega
    | ⟨1, _⟩ => show win0_1.index t (1 : Fin 2) * 64 + 1 * q.val = win0_3.index t (1 : Fin 2) * 64 + 1 * q.val; omega

  have h2 : iblk0 V c 2 t (ix2 p 0)
      = V c main_v15 (ix2 ((((cfg0.win 3).blk t).view.emb (ix2 p q)) 0) 0) := by
    show V c main_v15 (((cfg0.win 2).blk t).view.emb (ix2 p 0)) = _
    refine congrArg _ (funext fun a => Fin.ext ?_)
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  rw [h2]
  refine congrArg (· * _) (Finset.sum_congr rfl fun k _ => ?_)
  rw [h0 k, h1 k]

theorem inBlock3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

theorem rows_covered (i : S100000x64.Idx) :
    ∃ t : Fin cfg0.N, (cfg0.win 3).flush t = true ∧ i ∈ ((cfg0.win 3).blk t).view.set := by
  have hN : cfg0.N = 20 := N_0
  have hr : (i 0).val < 100000 := (i 0).isLt
  have hc : (i 1).val < 64 := (i 1).isLt
  refine ⟨⟨(i 0).val / 5000, by rw [hN]; omega⟩, flush0_3 _, ?_⟩
  rw [inBlock3]
  obtain ⟨e0, e1, -⟩ := where0 ⟨(i 0).val / 5000, by rw [hN]; omega⟩
  intro a
  match a with
  | ⟨0, _⟩ =>
    show win0_3.index ⟨(i 0).val / 5000, _⟩ (0 : Fin 2) * 5000 ≤ (i 0).val ∧ (i 0).val < win0_3.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, _⟩ (1 : Fin 2) * 64 ≤ (i 1).val ∧ (i 1).val < win0_3.index ⟨(i 0).val / 5000, _⟩ (1 : Fin 2) * 64 + 64
    rw [e1]; omega

theorem final0 (c : Dev nD) :
    (dat0 (F := Ideal) V c).arrAt 3 cfg0.N = Cert.Spec.linScale (K := 15) (V c main_arg0) (V c main_arg3) (V c main_v15) :=
  (dat0 (F := Ideal) V c).arrAt_eq_of_cover 3 _ (fun t _ => flushed0_3 V c t) rows_covered

end Cert.KernelIdeal.Hand
end
-- ==== Proof.KI.Val1.lean ====
import proofs.«424017_j2946347566021_2_alg».proof.Proof.KI.Reg1
import proofs.«424017_j2946347566021_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem val1_bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem val1_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem val1_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem val1_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem val1_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem val1_matmul (A : FVec Ideal S5000x64 .bf16) (B : FVec Ideal S64x64 .bf16) (p : Fin 5000) (q : Fin 64) :
    matmul dot_S5000x64_S64x64_S5000x64_1_0_0_1_n_n none A B (constant (F := Ideal) S5000x64 .f32 0x00000000#32) (ix2 p q)
      = ∑ k : Fin 64, A (ix2 p k) * B (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact val1_lhs_0 _ _
    | ⟨1, _⟩ => exact (val1_lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (val1_rhs_0 _ _).trans hk
    | ⟨1, _⟩ => exact val1_rhs_1 _ _)
  rw [el, er]

theorem val1_pay (δ : Vec Ideal S5000x1 .f32) (b : Vec Ideal S1x64 .f32) (x : Vec Ideal S5000x64 .f32) (W : Vec Ideal S64x64 .f32)
    (p : Fin 5000) (q : Fin 64) :
    k1_pay1 (F := Ideal) δ b x W (ix2 p q)
      = (∑ k : Fin 64, max (x (ix2 p k) * δ (ix2 p (0 : Fin 1)) + b (ix2 (0 : Fin 1) k)) 0 * W (ix2 k q)) * δ (ix2 p (0 : Fin 1)) := by
  unfold k1_pay1
  simp only [shapeCast_self]
  rw [truncf_apply, mulf_apply, val1_matmul, val1_bcast_col]
  refine congrArg (· * δ (ix2 p (0 : Fin 1))) (Finset.sum_congr rfl fun k _ => ?_)
  rw [truncf_apply, truncf_apply, maximumf_apply, addf_apply, mulf_apply, val1_bcast_col, broadcastTo_1b_ab_apply, broadcast_apply]
  show max _ (Ideal.ofBits .f32 0x00000000#32) * _ = _
  rw [Ideal.ofBits_zero_f32]

variable (V : (c : Dev nD) → (b : Ref sig .tc) → Buf (Elt Ideal) ((c : Thread nD τ).loc b))

theorem val1_zero_off : (![0, 0] : Fin 2 → Nat) = fun _ => 0 := funext fun a => by fin_cases a <;> rfl

theorem val1_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem val1_blk0 (c : Dev nD) (t : Fin cfg1.N) (p : Fin 5000) (k : Fin 64) (n : Fin 100000) (hn : n.val = t.val * 5000 + p.val) :
    iblk1 V c 0 t (ix2 p k) = V c main_v27 (ix2 n k) := by
  obtain ⟨e0, e1, -⟩ := val1_index t
  show V c main_v27 (((cfg1.win 0).blk t).view.emb (ix2 p k)) = V c main_v27 (ix2 n k)
  refine congrArg _ (funext fun a => Fin.ext ?_)
  match a with
  | ⟨0, _⟩ => show win1_0.index t (0 : Fin 2) * 5000 + 1 * p.val = n.val; omega
  | ⟨1, _⟩ => show win1_0.index t (1 : Fin 2) * 64 + 1 * k.val = k.val; omega

theorem val1_blk1 (c : Dev nD) (t : Fin cfg1.N) (p : Fin 5000) (n : Fin 100000) (hn : n.val = t.val * 5000 + p.val) :
    iblk1 V c 1 t (ix2 p (0 : Fin 1)) = V c main_v15 (ix2 n (0 : Fin 1)) := by
  obtain ⟨-, -, e0, e1, -⟩ := val1_index t
  show V c main_v15 (((cfg1.win 1).blk t).view.emb (ix2 p (0 : Fin 1))) = V c main_v15 (ix2 n (0 : Fin 1))
  refine congrArg _ (funext fun a => Fin.ext ?_)
  match a with
  | ⟨0, _⟩ => show win1_1.index t (0 : Fin 2) * 5000 + 1 * p.val = n.val; omega
  | ⟨1, _⟩ => show win1_1.index t (1 : Fin 2) * 1 + 1 * 0 = 0; omega

theorem val1_blk2 (c : Dev nD) (t : Fin cfg1.N) (k : Fin 64) :
    iblk1 V c 2 t (ix2 (0 : Fin 1) k) = V c main_v28 (ix2 (0 : Fin 1) k) := by
  obtain ⟨-, -, -, -, e0, e1, -⟩ := val1_index t
  show V c main_v28 (((cfg1.win 2).blk t).view.emb (ix2 (0 : Fin 1) k)) = V c main_v28 (ix2 (0 : Fin 1) k)
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * k.val = k.val; omega

theorem val1_blk3 (c : Dev nD) (t : Fin cfg1.N) (k : Fin 64) (q d : Fin 64) (hd : d.val = q.val) :
    iblk1 V c 3 t (ix2 k q) = V c main_arg5 (ix2 k d) := by
  obtain ⟨-, -, -, -, -, -, e0, e1, -⟩ := val1_index t
  show V c main_arg5 (((cfg1.win 3).blk t).view.emb (ix2 k q)) = V c main_arg5 (ix2 k d)
  refine congrArg _ (funext fun a => Fin.ext ?_)
  match a with
  | ⟨0, _⟩ => show win1_3.index t (0 : Fin 2) * 64 + 1 * k.val = k.val; omega
  | ⟨1, _⟩ => show win1_3.index t (1 : Fin 2) * 64 + 1 * q.val = d.val; omega

theorem val1_spec (agg : Cert.Spec.Arr2 100000 64) (δ : Cert.Spec.Arr2 100000 1) (b : Cert.Spec.Arr2 1 64) (W : Cert.Spec.Arr2 64 64)
    (i : (⟨2, ![100000, 64]⟩ : Shape).Idx) :
    Cert.Spec.fusedMid agg δ b W i
      = (∑ k : Fin 64, max (agg (ix2 (i 0) k) * δ (ix2 (i 0) (0 : Fin 1)) + b (ix2 (0 : Fin 1) k)) 0 * W (ix2 k (i 1)))
          * δ (ix2 (i 0) (0 : Fin 1)) := rfl

theorem val1_flushed (c : Dev nD) (t : Fin cfg1.N) :
    (dat1 (F := Ideal) V c).flushed 4 t = ((cfg1.win 4).blk t).view.read (Elt Ideal)
      (Cert.Spec.fusedMid (V c main_v27) (V c main_v15) (V c main_v28) (V c main_arg5)) := by
  show (cfg1.win 4).cut (grid1.coords t) ((dat1 V c).after 4 t) = _
  rw [after1_4]
  unfold out1_4
  rw [View.canon_unit_zero val1_zero_off]
  simp only [View.ld_unit_zero (S := S5000x64) val1_zero_off, View.ld_unit_zero (S := S5000x1) val1_zero_off,
    View.ld_unit_zero (S := S1x64) val1_zero_off, View.ld_unit_zero (S := S64x64) val1_zero_off]
  obtain ⟨-, -, -, -, -, -, -, -, e0, e1⟩ := val1_index t
  funext j
  obtain ⟨p, q, rfl⟩ : ∃ (p : Fin 5000) (q : Fin 64), j = ix2 p q := ⟨j 0, j 1, eq_ix2 j⟩
  show k1_pay1 (F := Ideal) (iblk1 V c 1 t) (iblk1 V c 2 t) (iblk1 V c 0 t) (iblk1 V c 3 t) (ix2 p q)
    = Cert.Spec.fusedMid (V c main_v27) (V c main_v15) (V c main_v28) (V c main_arg5) (((cfg1.win 4).blk t).view.emb (ix2 p q))
  rw [val1_pay]
  generalize hi : ((cfg1.win 4).blk t).view.emb (ix2 p q) = i
  have hrow : (i 0).val = t.val * 5000 + p.val := by
    rw [← hi]; show win1_4.index t (0 : Fin 2) * 5000 + 1 * p.val = _; omega
  have hcol : (i 1).val = q.val := by
    rw [← hi]; show win1_4.index t (1 : Fin 2) * 64 + 1 * q.val = _; omega
  rw [val1_spec]
  rw [val1_blk1 V c t p (i 0) hrow]
  refine congrArg (· * _) (Finset.sum_congr rfl fun k _ => ?_)
  rw [val1_blk0 V c t p k (i 0) hrow, val1_blk2 V c t k, val1_blk3 V c t k q (i 1) hcol]

theorem val1_mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v29).slice (win1_4.rect t)).set ↔ _
  rw [View.set_slice_whole, Rect.mem_set_unit]
  exact Iff.rfl

theorem val1_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hlt : (i 0).val / 5000 < cfg1.N := by show (i 0).val / 5000 < grid1.N; rw [N_1]; omega
  obtain ⟨-, -, -, -, -, -, -, -, e0, e1⟩ := val1_index ⟨(i 0).val / 5000, hlt⟩
  refine ⟨⟨(i 0).val / 5000, hlt⟩, flush1_4 _, ?_⟩
  rw [val1_mem_blk]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hlt⟩ (1 : Fin 2) * 64 ≤ (i 1).val
      ∧ (i 1).val < win1_4.index ⟨(i 0).val / 5000, hlt⟩ (1 : Fin 2) * 64 + 64
    rw [e1]; omega

theorem final1 (c : Dev nD) :
    (dat1 (F := Ideal) V c).arrAt 4 cfg1.N
      = Cert.Spec.fusedMid (V c main_v27) (V c main_v15) (V c main_v28) (V c main_arg5) :=
  (dat1 (F := Ideal) V c).arrAt_eq_of_cover 4 _ (fun t _ => val1_flushed V c t) val1_cover

end Cert.KernelIdeal.Hand
end
-- ==== Proof.KI.Val2.lean ====
import proofs.«424017_j2946347566021_2_alg».proof.Proof.KI.Reg2
import proofs.«424017_j2946347566021_2_alg».proof.Proof.KI.Val1
import proofs.«424017_j2946347566021_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem val2_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem val2_blk0 (c : Dev nD) (t : Fin cfg2.N) (p : Fin 5000) (k : Fin 64) (n : Fin 100000) (hn : n.val = t.val * 5000 + p.val) :
    iblk2 V c 0 t (ix2 p k) = V c main_v40 (ix2 n k) := by
  obtain ⟨e0, e1, -⟩ := val2_index t
  show V c main_v40 (((cfg2.win 0).blk t).view.emb (ix2 p k)) = V c main_v40 (ix2 n k)
  refine congrArg _ (funext fun a => Fin.ext ?_)
  match a with
  | ⟨0, _⟩ => show win2_0.index t (0 : Fin 2) * 5000 + 1 * p.val = n.val; omega
  | ⟨1, _⟩ => show win2_0.index t (1 : Fin 2) * 64 + 1 * k.val = k.val; omega

theorem val2_blk1 (c : Dev nD) (t : Fin cfg2.N) (p : Fin 5000) (n : Fin 100000) (hn : n.val = t.val * 5000 + p.val) :
    iblk2 V c 1 t (ix2 p (0 : Fin 1)) = V c main_v15 (ix2 n (0 : Fin 1)) := by
  obtain ⟨-, -, e0, e1, -⟩ := val2_index t
  show V c main_v15 (((cfg2.win 1).blk t).view.emb (ix2 p (0 : Fin 1))) = V c main_v15 (ix2 n (0 : Fin 1))
  refine congrArg _ (funext fun a => Fin.ext ?_)
  match a with
  | ⟨0, _⟩ => show win2_1.index t (0 : Fin 2) * 5000 + 1 * p.val = n.val; omega
  | ⟨1, _⟩ => show win2_1.index t (1 : Fin 2) * 1 + 1 * 0 = 0; omega

theorem val2_blk2 (c : Dev nD) (t : Fin cfg2.N) (k : Fin 64) :
    iblk2 V c 2 t (ix2 (0 : Fin 1) k) = V c main_v41 (ix2 (0 : Fin 1) k) := by
  obtain ⟨-, -, -, -, e0, e1, -⟩ := val2_index t
  show V c main_v41 (((cfg2.win 2).blk t).view.emb (ix2 (0 : Fin 1) k)) = V c main_v41 (ix2 (0 : Fin 1) k)
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * k.val = k.val; omega

theorem val2_blk3 (c : Dev nD) (t : Fin cfg2.N) (k : Fin 64) (q d : Fin 64) (hd : d.val = q.val) :
    iblk2 V c 3 t (ix2 k q) = V c main_arg7 (ix2 k d) := by
  obtain ⟨-, -, -, -, -, -, e0, e1, -⟩ := val2_index t
  show V c main_arg7 (((cfg2.win 3).blk t).view.emb (ix2 k q)) = V c main_arg7 (ix2 k d)
  refine congrArg _ (funext fun a => Fin.ext ?_)
  match a with
  | ⟨0, _⟩ => show win2_3.index t (0 : Fin 2) * 64 + 1 * k.val = k.val; omega
  | ⟨1, _⟩ => show win2_3.index t (1 : Fin 2) * 64 + 1 * q.val = d.val; omega

theorem val2_flushed (c : Dev nD) (t : Fin cfg2.N) :
    (dat2 (F := Ideal) V c).flushed 4 t = ((cfg2.win 4).blk t).view.read (Elt Ideal)
      (Cert.Spec.fusedMid (V c main_v40) (V c main_v15) (V c main_v41) (V c main_arg7)) := by
  show (cfg2.win 4).cut (grid2.coords t) ((dat2 V c).after 4 t) = _
  rw [after2_4]
  unfold out1_4
  rw [View.canon_unit_zero val1_zero_off]
  simp only [View.ld_unit_zero (S := S5000x64) val1_zero_off, View.ld_unit_zero (S := S5000x1) val1_zero_off,
    View.ld_unit_zero (S := S1x64) val1_zero_off, View.ld_unit_zero (S := S64x64) val1_zero_off]
  obtain ⟨-, -, -, -, -, -, -, -, e0, e1⟩ := val2_index t
  funext j
  obtain ⟨p, q, rfl⟩ : ∃ (p : Fin 5000) (q : Fin 64), j = ix2 p q := ⟨j 0, j 1, eq_ix2 j⟩
  show k1_pay1 (F := Ideal) (iblk2 V c 1 t) (iblk2 V c 2 t) (iblk2 V c 0 t) (iblk2 V c 3 t) (ix2 p q)
    = Cert.Spec.fusedMid (V c main_v40) (V c main_v15) (V c main_v41) (V c main_arg7) (((cfg2.win 4).blk t).view.emb (ix2 p q))
  rw [val1_pay]
  generalize hi : ((cfg2.win 4).blk t).view.emb (ix2 p q) = i
  have hrow : (i 0).val = t.val * 5000 + p.val := by
    rw [← hi]; show win2_4.index t (0 : Fin 2) * 5000 + 1 * p.val = _; omega
  have hcol : (i 1).val = q.val := by
    rw [← hi]; show win2_4.index t (1 : Fin 2) * 64 + 1 * q.val = _; omega
  rw [val1_spec]
  rw [val2_blk1 V c t p (i 0) hrow]
  refine congrArg (· * _) (Finset.sum_congr rfl fun k _ => ?_)
  rw [val2_blk0 V c t p k (i 0) hrow, val2_blk2 V c t k, val2_blk3 V c t k q (i 1) hcol]

theorem val2_mem_blk (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v42).slice (win2_4.rect t)).set ↔ _
  rw [View.set_slice_whole, Rect.mem_set_unit]
  exact Iff.rfl

theorem val2_cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hlt : (i 0).val / 5000 < cfg2.N := by show (i 0).val / 5000 < grid2.N; rw [N_2]; omega
  obtain ⟨-, -, -, -, -, -, -, -, e0, e1⟩ := val2_index ⟨(i 0).val / 5000, hlt⟩
  refine ⟨⟨(i 0).val / 5000, hlt⟩, flush2_4 _, ?_⟩
  rw [val2_mem_blk]
  intro a
  match a with
  | ⟨0, _⟩ =>
    show win2_4.index ⟨(i 0).val / 5000, hlt⟩ (0 : Fin 2) * 5000 ≤ (i 0).val
      ∧ (i 0).val < win2_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, hlt⟩ (1 : Fin 2) * 64 ≤ (i 1).val
      ∧ (i 1).val < win2_4.index ⟨(i 0).val / 5000, hlt⟩ (1 : Fin 2) * 64 + 64
    rw [e1]; omega

theorem final2 (c : Dev nD) :
    (dat2 (F := Ideal) V c).arrAt 4 cfg2.N
      = Cert.Spec.fusedMid (V c main_v40) (V c main_v15) (V c main_v41) (V c main_arg7) :=
  (dat2 (F := Ideal) V c).arrAt_eq_of_cover 4 _ (fun t _ => val2_flushed V c t) val2_cover

end Cert.KernelIdeal.Hand
end
-- ==== Proof.KI.Val3.lean ====
import proofs.«424017_j2946347566021_2_alg».proof.Proof.KI.Reg3
import proofs.«424017_j2946347566021_2_alg».proof.Proof.KI.Val1
import proofs.«424017_j2946347566021_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem val3_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem val3_blk0 (c : Dev nD) (t : Fin cfg3.N) (p : Fin 5000) (k : Fin 64) (n : Fin 100000) (hn : n.val = t.val * 5000 + p.val) :
    iblk3 V c 0 t (ix2 p k) = V c main_v53 (ix2 n k) := by
  obtain ⟨e0, e1, -⟩ := val3_index t
  show V c main_v53 (((cfg3.win 0).blk t).view.emb (ix2 p k)) = V c main_v53 (ix2 n k)
  refine congrArg _ (funext fun a => Fin.ext ?_)
  match a with
  | ⟨0, _⟩ => show win3_0.index t (0 : Fin 2) * 5000 + 1 * p.val = n.val; omega
  | ⟨1, _⟩ => show win3_0.index t (1 : Fin 2) * 64 + 1 * k.val = k.val; omega

theorem val3_blk1 (c : Dev nD) (t : Fin cfg3.N) (p : Fin 5000) (n : Fin 100000) (hn : n.val = t.val * 5000 + p.val) :
    iblk3 V c 1 t (ix2 p (0 : Fin 1)) = V c main_v15 (ix2 n (0 : Fin 1)) := by
  obtain ⟨-, -, e0, e1, -⟩ := val3_index t
  show V c main_v15 (((cfg3.win 1).blk t).view.emb (ix2 p (0 : Fin 1))) = V c main_v15 (ix2 n (0 : Fin 1))
  refine congrArg _ (funext fun a => Fin.ext ?_)
  match a with
  | ⟨0, _⟩ => show win3_1.index t (0 : Fin 2) * 5000 + 1 * p.val = n.val; omega
  | ⟨1, _⟩ => show win3_1.index t (1 : Fin 2) * 1 + 1 * 0 = 0; omega

theorem val3_blk2 (c : Dev nD) (t : Fin cfg3.N) (k : Fin 64) :
    iblk3 V c 2 t (ix2 (0 : Fin 1) k) = V c main_v54 (ix2 (0 : Fin 1) k) := by
  obtain ⟨-, -, -, -, e0, e1, -⟩ := val3_index t
  show V c main_v54 (((cfg3.win 2).blk t).view.emb (ix2 (0 : Fin 1) k)) = V c main_v54 (ix2 (0 : Fin 1) k)
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * k.val = k.val; omega

theorem val3_blk3 (c : Dev nD) (t : Fin cfg3.N) (k : Fin 64) (q d : Fin 64) (hd : d.val = q.val) :
    iblk3 V c 3 t (ix2 k q) = V c main_arg9 (ix2 k d) := by
  obtain ⟨-, -, -, -, -, -, e0, e1, -⟩ := val3_index t
  show V c main_arg9 (((cfg3.win 3).blk t).view.emb (ix2 k q)) = V c main_arg9 (ix2 k d)
  refine congrArg _ (funext fun a => Fin.ext ?_)
  match a with
  | ⟨0, _⟩ => show win3_3.index t (0 : Fin 2) * 64 + 1 * k.val = k.val; omega
  | ⟨1, _⟩ => show win3_3.index t (1 : Fin 2) * 64 + 1 * q.val = d.val; omega

theorem val3_flushed (c : Dev nD) (t : Fin cfg3.N) :
    (dat3 (F := Ideal) V c).flushed 4 t = ((cfg3.win 4).blk t).view.read (Elt Ideal)
      (Cert.Spec.fusedMid (V c main_v53) (V c main_v15) (V c main_v54) (V c main_arg9)) := by
  show (cfg3.win 4).cut (grid3.coords t) ((dat3 V c).after 4 t) = _
  rw [after3_4]
  unfold out1_4
  rw [View.canon_unit_zero val1_zero_off]
  simp only [View.ld_unit_zero (S := S5000x64) val1_zero_off, View.ld_unit_zero (S := S5000x1) val1_zero_off,
    View.ld_unit_zero (S := S1x64) val1_zero_off, View.ld_unit_zero (S := S64x64) val1_zero_off]
  obtain ⟨-, -, -, -, -, -, -, -, e0, e1⟩ := val3_index t
  funext j
  obtain ⟨p, q, rfl⟩ : ∃ (p : Fin 5000) (q : Fin 64), j = ix2 p q := ⟨j 0, j 1, eq_ix2 j⟩
  show k1_pay1 (F := Ideal) (iblk3 V c 1 t) (iblk3 V c 2 t) (iblk3 V c 0 t) (iblk3 V c 3 t) (ix2 p q)
    = Cert.Spec.fusedMid (V c main_v53) (V c main_v15) (V c main_v54) (V c main_arg9) (((cfg3.win 4).blk t).view.emb (ix2 p q))
  rw [val1_pay]
  generalize hi : ((cfg3.win 4).blk t).view.emb (ix2 p q) = i
  have hrow : (i 0).val = t.val * 5000 + p.val := by
    rw [← hi]; show win3_4.index t (0 : Fin 2) * 5000 + 1 * p.val = _; omega
  have hcol : (i 1).val = q.val := by
    rw [← hi]; show win3_4.index t (1 : Fin 2) * 64 + 1 * q.val = _; omega
  rw [val1_spec]
  rw [val3_blk1 V c t p (i 0) hrow]
  refine congrArg (· * _) (Finset.sum_congr rfl fun k _ => ?_)
  rw [val3_blk0 V c t p k (i 0) hrow, val3_blk2 V c t k, val3_blk3 V c t k q (i 1) hcol]

theorem val3_mem_blk (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v55).slice (win3_4.rect t)).set ↔ _
  rw [View.set_slice_whole, Rect.mem_set_unit]
  exact Iff.rfl

theorem val3_cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hlt : (i 0).val / 5000 < cfg3.N := by show (i 0).val / 5000 < grid3.N; rw [N_3]; omega
  obtain ⟨-, -, -, -, -, -, -, -, e0, e1⟩ := val3_index ⟨(i 0).val / 5000, hlt⟩
  refine ⟨⟨(i 0).val / 5000, hlt⟩, flush3_4 _, ?_⟩
  rw [val3_mem_blk]
  intro a
  match a with
  | ⟨0, _⟩ =>
    show win3_4.index ⟨(i 0).val / 5000, hlt⟩ (0 : Fin 2) * 5000 ≤ (i 0).val
      ∧ (i 0).val < win3_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, hlt⟩ (1 : Fin 2) * 64 ≤ (i 1).val
      ∧ (i 1).val < win3_4.index ⟨(i 0).val / 5000, hlt⟩ (1 : Fin 2) * 64 + 64
    rw [e1]; omega

theorem final3 (c : Dev nD) :
    (dat3 (F := Ideal) V c).arrAt 4 cfg3.N
      = Cert.Spec.fusedMid (V c main_v53) (V c main_v15) (V c main_v54) (V c main_arg9) :=
  (dat3 (F := Ideal) V c).arrAt_eq_of_cover 4 _ (fun t _ => val3_flushed V c t) val3_cover

end Cert.KernelIdeal.Hand
end
-- ==== Proof.KI.Pay4.lean ====
import proofs.«424017_j2946347566021_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

set_option maxRecDepth 16384

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem

theorem val4_bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem val4_bit (x y : BitVec 32) :
    ((((IntOp.cmpi .eq x y).setWidth 32).toInt : ℝ) : EReal) = if x = y then (1 : EReal) else 0 := by
  rw [toInt_setWidth_bit]
  by_cases h : x = y
  · rw [if_pos h]; subst h; simp [IntOp.cmpi]
  · rw [if_neg h]; simp [IntOp.cmpi, h]

theorem val4_onehot (bc : Vec Ideal S5000x1 .i32) (r : Fin 5000) (g : Fin 256) :
    k4_pay4 (F := Ideal) bc (ix2 r g) = if bc (ix2 r (0 : Fin 1)) = BitVec.ofNat 32 g.val then (1 : EReal) else 0 := by
  unfold k4_pay4
  simp only [shapeCast_self]
  rw [truncf_apply, sitofp_apply, extui_apply]
  show ((((IntOp.cmpi .eq (broadcastTo S5000x256 bc broadcasts_S5000x1_S5000x256 (ix2 r g))
      (iota .tc S5000x256 32 [1] iota_S5000x256_d1_w32 (ix2 r g))).setWidth 32).toInt : ℝ) : EReal) = _
  rw [val4_bit, val4_bcast_col, iota_single_apply]

theorem val4_sum_lhs_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem val4_sum_lhs_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
theorem val4_sum_rhs_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem val4_sum_rhs_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

theorem val4_sum_matmul (A : FVec Ideal S5000x256 .bf16) (B : FVec Ideal S5000x64 .bf16) (g : Fin 256) (d : Fin 64) :
    matmul dot_S5000x256_S5000x64_S256x64_0_0_1_1_n_n none A B (constant (F := Ideal) S256x64 .f32 0x00000000#32) (ix2 g d)
      = ∑ r : Fin 5000, A (ix2 r g) * B (ix2 r d) := by
  simp only [matmul]
  rw [Ideal.matmul_constant_zero_apply, ← Equiv.sum_comp (contrEquiv1 dot_S5000x256_S5000x64_S256x64_0_0_1_1_n_n 5000 rfl rfl).symm]
  refine Finset.sum_congr rfl fun r _ => ?_
  have hr := contrEquiv1_symm_val dot_S5000x256_S5000x64_S256x64_0_0_1_1_n_n 5000 rfl rfl r
  have el : dot_S5000x256_S5000x64_S256x64_0_0_1_1_n_n.lhsIdx (ix2 g d) ((contrEquiv1 dot_S5000x256_S5000x64_S256x64_0_0_1_1_n_n 5000 rfl rfl).symm r) = ix2 r g := funext fun a => Fin.ext (by
    match a with
    | ⟨0, _⟩ => exact (val4_sum_lhs_0 _ _).trans hr
    | ⟨1, _⟩ => exact val4_sum_lhs_1 _ _)
  have er : dot_S5000x256_S5000x64_S256x64_0_0_1_1_n_n.rhsIdx (ix2 g d) ((contrEquiv1 dot_S5000x256_S5000x64_S256x64_0_0_1_1_n_n 5000 rfl rfl).symm r) = ix2 r d := funext fun a => Fin.ext (by
    match a with
    | ⟨0, _⟩ => exact (val4_sum_rhs_0 _ _).trans hr
    | ⟨1, _⟩ => exact val4_sum_rhs_1 _ _)
  rw [el, er]

theorem val4_cnt_lhs_0 (i : S1x256.Idx) (q : dot_S1x5000_S5000x256_S1x256_1_0_0_1_n_n.contr.Idx) :
    (dot_S1x5000_S5000x256_S1x256_1_0_0_1_n_n.lhsIdx i q 0).val = (i 0).val := by
  unfold DotDims.lhsIdx
  rw [dif_neg (show ¬(0 : Fin S1x5000.rank) ∈ dot_S1x5000_S5000x256_S1x256_1_0_0_1_n_n.lhsBatch by decide), dif_pos (show (0 : Fin S1x5000.rank) ∈ dot_S1x5000_S5000x256_S1x256_1_0_0_1_n_n.lhsNonContracting by decide)]
  rfl
theorem val4_cnt_lhs_1 (i : S1x256.Idx) (q : dot_S1x5000_S5000x256_S1x256_1_0_0_1_n_n.contr.Idx) :
    (dot_S1x5000_S5000x256_S1x256_1_0_0_1_n_n.lhsIdx i q 1).val = (q ⟨0, by decide⟩).val :=
  dot_S1x5000_S5000x256_S1x256_1_0_0_1_n_n.lhsIdx_val_of_single rfl i q
theorem val4_cnt_rhs_0 (i : S1x256.Idx) (q : dot_S1x5000_S5000x256_S1x256_1_0_0_1_n_n.contr.Idx) :
    (dot_S1x5000_S5000x256_S1x256_1_0_0_1_n_n.rhsIdx i q 0).val = (q ⟨0, by decide⟩).val :=
  dot_S1x5000_S5000x256_S1x256_1_0_0_1_n_n.rhsIdx_val_of_single rfl i q
theorem val4_cnt_rhs_1 (i : S1x256.Idx) (q : dot_S1x5000_S5000x256_S1x256_1_0_0_1_n_n.contr.Idx) :
    (dot_S1x5000_S5000x256_S1x256_1_0_0_1_n_n.rhsIdx i q 1).val = (i 1).val := by
  unfold DotDims.rhsIdx
  rw [dif_neg (show ¬(1 : Fin S5000x256.rank) ∈ dot_S1x5000_S5000x256_S1x256_1_0_0_1_n_n.rhsBatch by decide), dif_pos (show (1 : Fin S5000x256.rank) ∈ dot_S1x5000_S5000x256_S1x256_1_0_0_1_n_n.rhsNonContracting by decide)]
  rfl

theorem val4_cnt_matmul (A : FVec Ideal S1x5000 .bf16) (B : FVec Ideal S5000x256 .bf16) (g : Fin 256) :
    matmul dot_S1x5000_S5000x256_S1x256_1_0_0_1_n_n none A B (constant (F := Ideal) S1x256 .f32 0x00000000#32) (ix2 (0 : Fin 1) g)
      = ∑ r : Fin 5000, A (ix2 (0 : Fin 1) r) * B (ix2 r g) := by
  simp only [matmul]
  rw [Ideal.matmul_constant_zero_apply, ← Equiv.sum_comp (contrEquiv1 dot_S1x5000_S5000x256_S1x256_1_0_0_1_n_n 5000 rfl rfl).symm]
  refine Finset.sum_congr rfl fun r _ => ?_
  have hr := contrEquiv1_symm_val dot_S1x5000_S5000x256_S1x256_1_0_0_1_n_n 5000 rfl rfl r
  have el : dot_S1x5000_S5000x256_S1x256_1_0_0_1_n_n.lhsIdx (ix2 (0 : Fin 1) g) ((contrEquiv1 dot_S1x5000_S5000x256_S1x256_1_0_0_1_n_n 5000 rfl rfl).symm r) = ix2 (0 : Fin 1) r := funext fun a => Fin.ext (by
    match a with
    | ⟨0, _⟩ => exact val4_cnt_lhs_0 _ _
    | ⟨1, _⟩ => exact (val4_cnt_lhs_1 _ _).trans hr)
  have er : dot_S1x5000_S5000x256_S1x256_1_0_0_1_n_n.rhsIdx (ix2 (0 : Fin 1) g) ((contrEquiv1 dot_S1x5000_S5000x256_S1x256_1_0_0_1_n_n 5000 rfl rfl).symm r) = ix2 r g := funext fun a => Fin.ext (by
    match a with
    | ⟨0, _⟩ => exact (val4_cnt_rhs_0 _ _).trans hr
    | ⟨1, _⟩ => exact val4_cnt_rhs_1 _ _)
  rw [el, er]

theorem val4_pay5 (δ : Vec Ideal S5000x1 .f32) (b : Vec Ideal S1x64 .f32) (x : Vec Ideal S5000x64 .f32) (bc : Vec Ideal S5000x1 .i32) (xs0 : Vec Ideal S256x64 .f32) (g : Fin 256) (d : Fin 64) :
    k4_pay5 (F := Ideal) δ b x bc xs0 (ix2 g d)
      = xs0 (ix2 g d) + ∑ r : Fin 5000, (if bc (ix2 r (0 : Fin 1)) = BitVec.ofNat 32 g.val then (1 : EReal) else 0) * max (x (ix2 r d) * δ (ix2 r (0 : Fin 1)) + b (ix2 (0 : Fin 1) d)) 0 := by
  unfold k4_pay5
  simp only [shapeCast_self]
  rw [addf_apply, val4_sum_matmul]
  refine congrArg (xs0 (ix2 g d) + ·) (Finset.sum_congr rfl fun r _ => ?_)
  rw [val4_onehot, truncf_apply, maximumf_apply, addf_apply, mulf_apply, val4_bcast_col, broadcastTo_1b_ab_apply, broadcast_apply]
  show _ * max _ (Ideal.ofBits .f32 0x00000000#32) = _
  rw [Ideal.ofBits_zero_f32]

theorem val4_pay6 (bc : Vec Ideal S5000x1 .i32) (xs1 : Vec Ideal S1x256 .f32) (g : Fin 256) :
    k4_pay6 (F := Ideal) bc xs1 (ix2 (0 : Fin 1) g)
      = xs1 (ix2 (0 : Fin 1) g) + ∑ r : Fin 5000, (if bc (ix2 r (0 : Fin 1)) = BitVec.ofNat 32 g.val then (1 : EReal) else 0) := by
  unfold k4_pay6
  rw [addf_apply, val4_cnt_matmul]
  refine congrArg (xs1 (ix2 (0 : Fin 1) g) + ·) (Finset.sum_congr rfl fun r _ => ?_)
  rw [val4_onehot, broadcast_apply]
  show Ideal.ofBits .bf16 0x3F80#16 * _ = _
  rw [Ideal.ofBits_one_bf16, one_mul]

theorem val4_pay1 (v : FVec Ideal S1x256 .f32) : k4_pay1 (F := Ideal) v = v := by
  unfold k4_pay1; exact shapeCast_self _ _

theorem val4_pay2 (i : S256x64.Idx) : k4_pay2 (F := Ideal) i = 0 := by
  unfold k4_pay2
  simp only [shapeCast_self]
  show Ideal.ofBits .f32 0x00000000#32 = 0
  exact Ideal.ofBits_zero_f32
theorem val4_pay3 (i : S1x256.Idx) : k4_pay3 (F := Ideal) i = 0 := by
  unfold k4_pay3
  simp only [shapeCast_self]
  show Ideal.ofBits .f32 0x00000000#32 = 0
  exact Ideal.ofBits_zero_f32

end Cert.KernelIdeal.Hand
end
-- ==== Proof.Pool.lean ====
import proofs.«424017_j2946347566021_2_alg».proof.Proof.Spec
import proofs.«424017_j2946347566021_2_alg».proof.Proof.Algebra

noncomputable section
namespace Cert.Pool
open Cert.Spec Cert.Algebra Idealize.ShloMosaic Idealize.ShloMosaic.ValueIdx
open scoped BigOperators

theorem toInt_ofNat_graph (g : Fin 256) : (BitVec.ofNat 32 g.val).toInt = (g.val : Int) := by
  have hg := g.isLt
  rw [BitVec.toInt_ofNat']
  exact Int.bmod_eq_of_le_mul_two (by omega) (by omega)

theorem inGraph_iff (bc : (⟨2, ![100000, 1]⟩ : Shape).Idx → BitVec 32) (n : Fin 100000) (g : Fin 256) :
    inGraph bc n g ↔ (bc (ix2 n 0)).toInt = (g.val : Int) := by
  unfold inGraph
  constructor
  · intro h
    rw [h, toInt_ofNat_graph]
  · intro h
    apply BitVec.eq_of_toInt_eq
    rw [h, toInt_ofNat_graph]

theorem poolSums_apply (a : Arr2 100000 64) (bc : (⟨2, ![100000, 1]⟩ : Shape).Idx → BitVec 32)
    (g : Fin 256) (f : Fin 64) :
    poolSums a bc (ix2 g f)
      = 0 + ∑ n : Fin 100000, if (bc (ix2 n 0)).toInt = (g.val : Int) then a (ix2 n f) else 0 := by
  rw [zero_add]
  show ∑ n : Fin 100000, (if inGraph bc n g then (1 : EReal) else 0) * a (ix2 n f) = _
  refine Finset.sum_congr rfl fun n _ => ?_
  rw [onehot_mul]
  exact if_congr (inGraph_iff bc n g) rfl rfl

theorem poolCnt_apply (bc : (⟨2, ![100000, 1]⟩ : Shape).Idx → BitVec 32) (g : Fin 256) :
    poolCnt bc (ix2 0 g)
      = 0 + ∑ n : Fin 100000, if (bc (ix2 n 0)).toInt = (g.val : Int) then (1 : EReal) else 0 := by
  rw [zero_add]
  show ∑ n : Fin 100000, (if inGraph bc n g then (1 : EReal) else 0) = _
  exact Finset.sum_congr rfl fun n _ => if_congr (inGraph_iff bc n g) rfl rfl

theorem row_lt (t : Fin 20) (r : Fin 5000) : t.val * 5000 + r.val < 100000 := by
  have ht := t.isLt
  have hr := r.isLt
  omega

theorem sum_rows (F : Fin 100000 → EReal) :
    ∑ n : Fin 100000, F n = ∑ t : Fin 20, ∑ r : Fin 5000, F ⟨t.val * 5000 + r.val, row_lt t r⟩ :=
  sum_blocks (B := 20) (R := 5000) F

theorem poolSums_blocks (a : Arr2 100000 64) (bc : (⟨2, ![100000, 1]⟩ : Shape).Idx → BitVec 32)
    (g : Fin 256) (f : Fin 64) :
    poolSums a bc (ix2 g f)
      = ∑ t : Fin 20, ∑ r : Fin 5000,
          (if inGraph bc ⟨t.val * 5000 + r.val, row_lt t r⟩ g then (1 : EReal) else 0)
            * a (ix2 ⟨t.val * 5000 + r.val, row_lt t r⟩ f) :=
  sum_rows fun n => (if inGraph bc n g then (1 : EReal) else 0) * a (ix2 n f)

theorem poolCnt_blocks (bc : (⟨2, ![100000, 1]⟩ : Shape).Idx → BitVec 32) (g : Fin 256) :
    poolCnt bc (ix2 0 g)
      = ∑ t : Fin 20, ∑ r : Fin 5000,
          (if inGraph bc ⟨t.val * 5000 + r.val, row_lt t r⟩ g then (1 : EReal) else 0) :=
  sum_rows fun n => if inGraph bc n g then (1 : EReal) else 0

end Cert.Pool
-- ==== Proof.KI.Val4.lean ====
import proofs.«424017_j2946347566021_2_alg».proof.Proof.KI.Reg4
import proofs.«424017_j2946347566021_2_alg».proof.Proof.KI.Pay4
import proofs.«424017_j2946347566021_2_alg».proof.Proof.Spec
import proofs.«424017_j2946347566021_2_alg».proof.Proof.Pool
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section
namespace Cert.KernelIdeal.Hand
open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat)
open scoped BigOperators

theorem val4_hz : (![0, 0] : Fin 2 → Nat) = fun _ => 0 := funext fun a => by fin_cases a <;> rfl

section Pieces
variable {F : FTy → Type} [FloatOps F] (c : Dev nD) (t : Fin cfg4.N) (x0 : Vec F S5000x64 .f32) (x1 : Vec F S5000x1 .f32) (x2 : Vec F S1x64 .f32) (x3 : Vec F S5000x1 .i32)

-- Each buffer a case stores into ends at its last whole store, a payload of the point's input blocks.
theorem val4_soutA0 (h0 : t.val = 0) : sout4_A_0 c t x0 x1 x2 x3 h0 = k4_pay5 x1 x2 x0 x3 (k4_pay2 (F := F)) := by
  unfold sout4_A_0
  rw [View.read_writes_eq_canon _ _ _ (scover4_A_0 c t x0 x1 x2 x3 h0)]
  unfold run4_A kernelRun4_A
  dsimp only
  try sl_unfold_words
  rw [View.canon_cons_unit_zero val4_hz, View.readCov_unit_zero _ val4_hz]
  simp only [View.readAt_eq_ld, (hs4_0 t).read_unread, (hs4_1 t).read_unread, (hs4_2 t).read_unread, (hs4_3 t).read_unread,
    (Memref.isWhole_whole _ : scM4_0.IsWhole).read_unread, (Memref.isWhole_whole _ : scM4_1.IsWhole).read_unread,
    View.ld_unit_zero (S := S5000x64) val4_hz, View.ld_unit_zero (S := S5000x1) val4_hz, View.ld_unit_zero (S := S1x64) val4_hz,
    View.ld_unit_zero (S := S256x64) val4_hz, View.ld_unit_zero (S := S1x256) val4_hz]

theorem val4_soutA1 (h0 : t.val = 0) : sout4_A_1 c t x0 x1 x2 x3 h0 = k4_pay1 (k4_pay6 x3 (k4_pay3 (F := F))) := by
  unfold sout4_A_1
  rw [View.read_writes_eq_canon _ _ _ (scover4_A_1 c t x0 x1 x2 x3 h0)]
  unfold run4_A kernelRun4_A
  dsimp only
  try sl_unfold_words
  rw [View.canon_cons_unit_zero val4_hz, View.readCov_unit_zero _ val4_hz]
  simp only [View.readAt_eq_ld, (hs4_0 t).read_unread, (hs4_1 t).read_unread, (hs4_2 t).read_unread, (hs4_3 t).read_unread,
    (Memref.isWhole_whole _ : scM4_0.IsWhole).read_unread, (Memref.isWhole_whole _ : scM4_1.IsWhole).read_unread,
    View.ld_unit_zero (S := S5000x64) val4_hz, View.ld_unit_zero (S := S5000x1) val4_hz, View.ld_unit_zero (S := S1x64) val4_hz,
    View.ld_unit_zero (S := S256x64) val4_hz, View.ld_unit_zero (S := S1x256) val4_hz]

variable (xs0 : Vec F S256x64 .f32) (xs1 : Vec F S1x256 .f32)

theorem val4_soutB0 (h0 : t.val ≠ 0) (h1 : t.val ≠ 19) : sout4_B_0 c t x0 x1 x2 x3 xs0 xs1 h0 h1 = k4_pay5 x1 x2 x0 x3 xs0 := by
  unfold sout4_B_0
  rw [View.read_writes_eq_canon _ _ _ (scover4_B_0 c t x0 x1 x2 x3 xs0 xs1 h0 h1)]
  unfold run4_B kernelRun4_B
  dsimp only
  try sl_unfold_words
  rw [View.canon_unit_zero val4_hz]
  simp only [View.readAt_eq_ld, (hs4_0 t).read_unread, (hs4_1 t).read_unread, (hs4_2 t).read_unread, (hs4_3 t).read_unread,
    (Memref.isWhole_whole _ : scM4_0.IsWhole).read_unread, (Memref.isWhole_whole _ : scM4_1.IsWhole).read_unread,
    View.ld_unit_zero (S := S5000x64) val4_hz, View.ld_unit_zero (S := S5000x1) val4_hz, View.ld_unit_zero (S := S1x64) val4_hz,
    View.ld_unit_zero (S := S256x64) val4_hz, View.ld_unit_zero (S := S1x256) val4_hz]

theorem val4_soutB1 (h0 : t.val ≠ 0) (h1 : t.val ≠ 19) : sout4_B_1 c t x0 x1 x2 x3 xs0 xs1 h0 h1 = k4_pay1 (k4_pay6 x3 xs1) := by
  unfold sout4_B_1
  rw [View.read_writes_eq_canon _ _ _ (scover4_B_1 c t x0 x1 x2 x3 xs0 xs1 h0 h1)]
  unfold run4_B kernelRun4_B
  dsimp only
  try sl_unfold_words
  rw [View.canon_unit_zero val4_hz]
  simp only [View.readAt_eq_ld, (hs4_0 t).read_unread, (hs4_1 t).read_unread, (hs4_2 t).read_unread, (hs4_3 t).read_unread,
    (Memref.isWhole_whole _ : scM4_0.IsWhole).read_unread, (Memref.isWhole_whole _ : scM4_1.IsWhole).read_unread,
    View.ld_unit_zero (S := S5000x64) val4_hz, View.ld_unit_zero (S := S5000x1) val4_hz, View.ld_unit_zero (S := S1x64) val4_hz,
    View.ld_unit_zero (S := S256x64) val4_hz, View.ld_unit_zero (S := S1x256) val4_hz]

theorem val4_soutC0 (h1 : t.val = 19) : sout4_C_0 c t x0 x1 x2 x3 xs0 xs1 h1 = k4_pay5 x1 x2 x0 x3 xs0 := by
  unfold sout4_C_0
  rw [View.read_writes_eq_canon _ _ _ (scover4_C_0 c t x0 x1 x2 x3 xs0 xs1 h1)]
  unfold run4_C kernelRun4_C
  dsimp only
  try sl_unfold_words
  rw [View.canon_unit_zero val4_hz]
  simp only [View.readAt_eq_ld, (hs4_0 t).read_unread, (hs4_1 t).read_unread, (hs4_2 t).read_unread, (hs4_3 t).read_unread,
    (Memref.isWhole_whole _ : scM4_0.IsWhole).read_unread, (Memref.isWhole_whole _ : scM4_1.IsWhole).read_unread,
    View.ld_unit_zero (S := S5000x64) val4_hz, View.ld_unit_zero (S := S5000x1) val4_hz, View.ld_unit_zero (S := S1x64) val4_hz,
    View.ld_unit_zero (S := S256x64) val4_hz, View.ld_unit_zero (S := S1x256) val4_hz]

theorem val4_soutC1 (h1 : t.val = 19) : sout4_C_1 c t x0 x1 x2 x3 xs0 xs1 h1 = k4_pay1 (k4_pay6 x3 xs1) := by
  unfold sout4_C_1
  rw [View.read_writes_eq_canon _ _ _ (scover4_C_1 c t x0 x1 x2 x3 xs0 xs1 h1)]
  unfold run4_C kernelRun4_C
  dsimp only
  try sl_unfold_words
  rw [View.canon_unit_zero val4_hz]
  simp only [View.readAt_eq_ld, (hs4_0 t).read_unread, (hs4_1 t).read_unread, (hs4_2 t).read_unread, (hs4_3 t).read_unread,
    (Memref.isWhole_whole _ : scM4_0.IsWhole).read_unread, (Memref.isWhole_whole _ : scM4_1.IsWhole).read_unread,
    View.ld_unit_zero (S := S5000x64) val4_hz, View.ld_unit_zero (S := S5000x1) val4_hz, View.ld_unit_zero (S := S1x64) val4_hz,
    View.ld_unit_zero (S := S256x64) val4_hz, View.ld_unit_zero (S := S1x256) val4_hz]

theorem val4_outC4 (h1 : t.val = 19) : out4_C_4 c t x0 x1 x2 x3 xs0 xs1 h1 = k4_pay5 x1 x2 x0 x3 xs0 := by
  unfold out4_C_4
  rw [View.read_writes_eq_canon _ _ _ (cover4_C_4 c t x0 x1 x2 x3 xs0 xs1 h1)]
  unfold run4_C kernelRun4_C
  dsimp only
  try sl_unfold_words
  rw [View.canon_unit_zero val4_hz, View.readCov_unit_zero _ val4_hz]
  simp only [View.readAt_eq_ld, (hs4_0 t).read_unread, (hs4_1 t).read_unread, (hs4_2 t).read_unread, (hs4_3 t).read_unread,
    (Memref.isWhole_whole _ : scM4_0.IsWhole).read_unread, (Memref.isWhole_whole _ : scM4_1.IsWhole).read_unread,
    View.ld_unit_zero (S := S5000x64) val4_hz, View.ld_unit_zero (S := S5000x1) val4_hz, View.ld_unit_zero (S := S1x64) val4_hz,
    View.ld_unit_zero (S := S256x64) val4_hz, View.ld_unit_zero (S := S1x256) val4_hz]

theorem val4_outC5 (h1 : t.val = 19) : out4_C_5 c t x0 x1 x2 x3 xs0 xs1 h1 = k4_pay1 (k4_pay6 x3 xs1) := by
  unfold out4_C_5
  rw [View.read_writes_eq_canon _ _ _ (cover4_C_5 c t x0 x1 x2 x3 xs0 xs1 h1)]
  unfold run4_C kernelRun4_C
  dsimp only
  try sl_unfold_words
  rw [View.canon_unit_zero val4_hz, View.readCov_unit_zero _ val4_hz]
  simp only [View.readAt_eq_ld, (hs4_0 t).read_unread, (hs4_1 t).read_unread, (hs4_2 t).read_unread, (hs4_3 t).read_unread,
    (Memref.isWhole_whole _ : scM4_0.IsWhole).read_unread, (Memref.isWhole_whole _ : scM4_1.IsWhole).read_unread,
    View.ld_unit_zero (S := S5000x64) val4_hz, View.ld_unit_zero (S := S5000x1) val4_hz, View.ld_unit_zero (S := S1x64) val4_hz,
    View.ld_unit_zero (S := S256x64) val4_hz, View.ld_unit_zero (S := S1x256) val4_hz]

end Pieces

theorem val4_sum_zero (T : Fin 20 → EReal) : (∑ t' : Fin 20, if t'.val ≤ 0 then T t' else 0) = T ⟨0, by decide⟩ := by
  rw [Finset.sum_eq_single (⟨0, by decide⟩ : Fin 20)]
  · rw [if_pos (Nat.le_refl 0)]
  · intro b _ hb
    rw [if_neg (fun h => hb (Fin.ext (Nat.le_zero.mp h)))]
  · intro h; exact absurd (Finset.mem_univ _) h

theorem val4_sum_succ (T : Fin 20 → EReal) (n : ℕ) (hn : n + 1 < 20) :
    (∑ t' : Fin 20, if t'.val ≤ n + 1 then T t' else 0) = (∑ t' : Fin 20, if t'.val ≤ n then T t' else 0) + T ⟨n + 1, hn⟩ := by
  have hsplit : ∀ t' : Fin 20, (if t'.val ≤ n + 1 then T t' else 0)
      = (if t'.val ≤ n then T t' else 0) + (if t' = ⟨n + 1, hn⟩ then T t' else 0) := by
    intro t'
    by_cases h1 : t'.val ≤ n
    · rw [if_pos h1, if_pos (Nat.le_succ_of_le h1), if_neg (fun e => by rw [e] at h1; exact absurd h1 (Nat.not_succ_le_self n)), add_zero]
    · by_cases h2 : t'.val = n + 1
      · rw [if_neg h1, if_pos (Nat.le_of_eq h2), if_pos (Fin.ext h2), zero_add]
      · rw [if_neg h1, if_neg (by omega), if_neg (fun e => h2 (by rw [e])), add_zero]
  rw [Finset.sum_congr rfl fun t' _ => hsplit t', Finset.sum_add_distrib, Finset.sum_ite_eq' Finset.univ (⟨n + 1, hn⟩ : Fin 20) T,
    if_pos (Finset.mem_univ _)]

theorem val4_sum_last (T : Fin 20 → EReal) : (∑ t' : Fin 20, if t'.val ≤ 19 then T t' else 0) = ∑ t' : Fin 20, T t' :=
  Finset.sum_congr rfl fun t' _ => if_pos (Nat.le_of_lt_succ t'.isLt)

variable (V : (c : Dev nD) → (b : Ref sig .tc) → Buf (Elt Ideal) ((c : Thread nD τ).loc b))

theorem val4_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

theorem val4_blk0 (c : Dev nD) (t : Fin cfg4.N) (p : Fin 5000) (k : Fin 64) (n : Fin 100000) (hn : n.val = t.val * 5000 + p.val) :
    iblk4 V c 0 t (ix2 p k) = V c main_v66 (ix2 n k) := by
  obtain ⟨e0, e1, -⟩ := val4_index t
  show V c main_v66 (((cfg4.win 0).blk t).view.emb (ix2 p k)) = V c main_v66 (ix2 n k)
  refine congrArg _ (funext fun a => Fin.ext ?_)
  match a with
  | ⟨0, _⟩ => show win4_0.index t (0 : Fin 2) * 5000 + 1 * p.val = n.val; omega
  | ⟨1, _⟩ => show win4_0.index t (1 : Fin 2) * 64 + 1 * k.val = k.val; omega

theorem val4_blk1 (c : Dev nD) (t : Fin cfg4.N) (p : Fin 5000) (n : Fin 100000) (hn : n.val = t.val * 5000 + p.val) :
    iblk4 V c 1 t (ix2 p (0 : Fin 1)) = V c main_v15 (ix2 n (0 : Fin 1)) := by
  obtain ⟨-, -, e0, e1, -⟩ := val4_index t
  show V c main_v15 (((cfg4.win 1).blk t).view.emb (ix2 p (0 : Fin 1))) = V c main_v15 (ix2 n (0 : Fin 1))
  refine congrArg _ (funext fun a => Fin.ext ?_)
  match a with
  | ⟨0, _⟩ => show win4_1.index t (0 : Fin 2) * 5000 + 1 * p.val = n.val; omega
  | ⟨1, _⟩ => show win4_1.index t (1 : Fin 2) * 1 + 1 * 0 = 0; omega

theorem val4_blk2 (c : Dev nD) (t : Fin cfg4.N) (k : Fin 64) :
    iblk4 V c 2 t (ix2 (0 : Fin 1) k) = V c main_v68 (ix2 (0 : Fin 1) k) := by
  obtain ⟨-, -, -, -, e0, e1, -⟩ := val4_index t
  show V c main_v68 (((cfg4.win 2).blk t).view.emb (ix2 (0 : Fin 1) k)) = V c main_v68 (ix2 (0 : Fin 1) k)
  refine congrArg _ (funext fun a => Fin.ext ?_)
  match a with
  | ⟨0, _⟩ => show win4_2.index t (0 : Fin 2) * 1 + 1 * 0 = 0; omega
  | ⟨1, _⟩ => show win4_2.index t (1 : Fin 2) * 64 + 1 * k.val = k.val; omega

theorem val4_blk3 (c : Dev nD) (t : Fin cfg4.N) (p : Fin 5000) (n : Fin 100000) (hn : n.val = t.val * 5000 + p.val) :
    iblk4 V c 3 t (ix2 p (0 : Fin 1)) = V c main_v67 (ix2 n (0 : Fin 1)) := by
  obtain ⟨-, -, -, -, -, -, e0, e1, -⟩ := val4_index t
  show V c main_v67 (((cfg4.win 3).blk t).view.emb (ix2 p (0 : Fin 1))) = V c main_v67 (ix2 n (0 : Fin 1))
  refine congrArg _ (funext fun a => Fin.ext ?_)
  match a with
  | ⟨0, _⟩ => show win4_3.index t (0 : Fin 2) * 5000 + 1 * p.val = n.val; omega
  | ⟨1, _⟩ => show win4_3.index t (1 : Fin 2) * 1 + 1 * 0 = 0; omega

def val4_T0 (c : Dev nD) (t : Fin 20) (g : Fin 256) (d : Fin 64) : EReal :=
  ∑ r : Fin 5000, (if Cert.Spec.inGraph (V c main_v67) ⟨t.val * 5000 + r.val, Cert.Pool.row_lt t r⟩ g then (1 : EReal) else 0)
    * Cert.Spec.act (V c main_v66) (V c main_v15) (V c main_v68) (ix2 ⟨t.val * 5000 + r.val, Cert.Pool.row_lt t r⟩ d)

def val4_T1 (c : Dev nD) (t : Fin 20) (g : Fin 256) : EReal :=
  ∑ r : Fin 5000, (if Cert.Spec.inGraph (V c main_v67) ⟨t.val * 5000 + r.val, Cert.Pool.row_lt t r⟩ g then (1 : EReal) else 0)

theorem val4_step0 (c : Dev nD) (t : Fin cfg4.N) (xs0 : Vec Ideal S256x64 .f32) (g : Fin 256) (d : Fin 64) :
    k4_pay5 (F := Ideal) (iblk4 V c 1 t) (iblk4 V c 2 t) (iblk4 V c 0 t) (iblk4 V c 3 t) xs0 (ix2 g d)
      = xs0 (ix2 g d) + val4_T0 V c (Fin.cast N_4 t) g d := by
  rw [val4_pay5]
  unfold val4_T0
  refine congrArg (xs0 (ix2 g d) + ·) (Finset.sum_congr rfl fun r _ => ?_)
  have hn : (⟨(Fin.cast N_4 t).val * 5000 + r.val, Cert.Pool.row_lt _ r⟩ : Fin 100000).val = t.val * 5000 + r.val := rfl
  rw [val4_blk3 V c t r _ hn, val4_blk0 V c t r d _ hn, val4_blk1 V c t r _ hn, val4_blk2 V c t d]
  exact congrArg₂ (· * ·) (if_congr Iff.rfl rfl rfl) rfl

theorem val4_step1 (c : Dev nD) (t : Fin cfg4.N) (xs1 : Vec Ideal S1x256 .f32) (g : Fin 256) :
    k4_pay1 (F := Ideal) (k4_pay6 (F := Ideal) (iblk4 V c 3 t) xs1) (ix2 (0 : Fin 1) g)
      = xs1 (ix2 (0 : Fin 1) g) + val4_T1 V c (Fin.cast N_4 t) g := by
  rw [val4_pay1, val4_pay6]
  unfold val4_T1
  refine congrArg (xs1 (ix2 (0 : Fin 1) g) + ·) (Finset.sum_congr rfl fun r _ => ?_)
  have hn : (⟨(Fin.cast N_4 t).val * 5000 + r.val, Cert.Pool.row_lt _ r⟩ : Fin 100000).val = t.val * 5000 + r.val := rfl
  rw [val4_blk3 V c t r _ hn]
  exact if_congr Iff.rfl rfl rfl

theorem val4_scr0 (c : Dev nD) : ∀ (n : ℕ) (hn : n < cfg4.N) (g : Fin 256) (d : Fin 64),
    (outsAt4 (F := Ideal) V c n hn).2.2.1 (ix2 g d) = ∑ t' : Fin 20, if t'.val ≤ n then val4_T0 V c t' g d else 0 := by
  intro n
  induction n with
  | zero =>
    intro hn g d
    rw [show outsAt4 (F := Ideal) V c 0 hn = _ from outsAt4_A (F := Ideal) V c ⟨0, hn⟩ rfl]
    dsimp only
    rw [val4_soutA0, val4_step0, val4_pay2, zero_add, val4_sum_zero]
    rfl
  | succ n ih =>
    intro hn g d
    have hN : n + 1 < 20 := lt_of_lt_of_eq hn N_4
    by_cases h : n + 1 = 19
    · rw [show outsAt4 (F := Ideal) V c (n + 1) hn = _ from outsAt4_C (F := Ideal) V c ⟨n + 1, hn⟩ (Nat.succ_ne_zero n) h]
      dsimp only
      rw [val4_soutC0, val4_step0, val4_sum_succ _ n hN, ← ih (Nat.lt_of_succ_lt hn) g d]
      rfl
    · rw [show outsAt4 (F := Ideal) V c (n + 1) hn = _ from outsAt4_B (F := Ideal) V c ⟨n + 1, hn⟩ (Nat.succ_ne_zero n) h]
      dsimp only
      rw [val4_soutB0, val4_step0, val4_sum_succ _ n hN, ← ih (Nat.lt_of_succ_lt hn) g d]
      rfl

theorem val4_scr1 (c : Dev nD) : ∀ (n : ℕ) (hn : n < cfg4.N) (g : Fin 256),
    (outsAt4 (F := Ideal) V c n hn).2.2.2 (ix2 (0 : Fin 1) g) = ∑ t' : Fin 20, if t'.val ≤ n then val4_T1 V c t' g else 0 := by
  intro n
  induction n with
  | zero =>
    intro hn g
    rw [show outsAt4 (F := Ideal) V c 0 hn = _ from outsAt4_A (F := Ideal) V c ⟨0, hn⟩ rfl]
    dsimp only
    rw [val4_soutA1, val4_step1, val4_pay3, zero_add, val4_sum_zero]
    rfl
  | succ n ih =>
    intro hn g
    have hN : n + 1 < 20 := lt_of_lt_of_eq hn N_4
    by_cases h : n + 1 = 19
    · rw [show outsAt4 (F := Ideal) V c (n + 1) hn = _ from outsAt4_C (F := Ideal) V c ⟨n + 1, hn⟩ (Nat.succ_ne_zero n) h]
      dsimp only
      rw [val4_soutC1, val4_step1, val4_sum_succ _ n hN, ← ih (Nat.lt_of_succ_lt hn) g]
      rfl
    · rw [show outsAt4 (F := Ideal) V c (n + 1) hn = _ from outsAt4_B (F := Ideal) V c ⟨n + 1, hn⟩ (Nat.succ_ne_zero n) h]
      dsimp only
      rw [val4_soutB1, val4_step1, val4_sum_succ _ n hN, ← ih (Nat.lt_of_succ_lt hn) g]
      rfl

theorem val4_flush4_last (t : Fin cfg4.N) (hf : (cfg4.win 4).flush t = true) : t.val = 19 := by
  have h := (flush4_4 t).mp hf
  have hN : t.val < 20 := lt_of_lt_of_eq t.isLt N_4
  omega
theorem val4_flush5_last (t : Fin cfg4.N) (hf : (cfg4.win 5).flush t = true) : t.val = 19 := by
  have h := (flush4_5 t).mp hf
  have hN : t.val < 20 := lt_of_lt_of_eq t.isLt N_4
  omega

abbrev val4_sums (c : Dev nD) : Cert.Spec.Arr2 256 64 :=
  Cert.Spec.poolSums (Cert.Spec.act (V c main_v66) (V c main_v15) (V c main_v68)) (V c main_v67)

abbrev val4_cnt (c : Dev nD) : Cert.Spec.Arr2 1 256 := Cert.Spec.poolCnt (V c main_v67)

theorem val4_out4 (c : Dev nD) (t : Fin cfg4.N) (h19 : t.val = 19) (g : Fin 256) (d : Fin 64) :
    (outsAt4 (F := Ideal) V c t.val t.isLt).1 (ix2 g d) = val4_sums V c (ix2 g d) := by
  obtain ⟨n, hn⟩ := t
  obtain rfl : n = 19 := h19
  rw [show outsAt4 (F := Ideal) V c 19 hn = _ from outsAt4_C (F := Ideal) V c ⟨19, hn⟩ (Nat.succ_ne_zero 18) rfl]
  dsimp only
  rw [val4_outC4, val4_step0]
  show (outsAt4 (F := Ideal) V c 18 _).2.2.1 (ix2 g d) + val4_T0 V c ⟨18 + 1, by decide⟩ g d = _
  rw [val4_scr0 V c 18 _ g d, ← val4_sum_succ (fun t' => val4_T0 V c t' g d) 18 (by decide), val4_sum_last]
  exact (Cert.Pool.poolSums_blocks _ _ g d).symm

theorem val4_out5 (c : Dev nD) (t : Fin cfg4.N) (h19 : t.val = 19) (g : Fin 256) :
    (outsAt4 (F := Ideal) V c t.val t.isLt).2.1 (ix2 (0 : Fin 1) g) = val4_cnt V c (ix2 (0 : Fin 1) g) := by
  obtain ⟨n, hn⟩ := t
  obtain rfl : n = 19 := h19
  rw [show outsAt4 (F := Ideal) V c 19 hn = _ from outsAt4_C (F := Ideal) V c ⟨19, hn⟩ (Nat.succ_ne_zero 18) rfl]
  dsimp only
  rw [val4_outC5, val4_step1]
  show (outsAt4 (F := Ideal) V c 18 _).2.2.2 (ix2 (0 : Fin 1) g) + val4_T1 V c ⟨18 + 1, by decide⟩ g = _
  rw [val4_scr1 V c 18 _ g, ← val4_sum_succ (fun t' => val4_T1 V c t' g) 18 (by decide), val4_sum_last]
  exact (Cert.Pool.poolCnt_blocks _ g).symm

theorem val4_flushed4 (c : Dev nD) (t : Fin cfg4.N) (hf : (cfg4.win 4).flush t = true) :
    (dat4 (F := Ideal) V c).flushed 4 t = ((cfg4.win 4).blk t).view.read (Elt Ideal) (val4_sums V c) := by
  have h19 := val4_flush4_last t hf
  show (cfg4.win 4).cut (grid4.coords t) ((dat4 V c).after 4 t) = _
  rw [after4_4]
  obtain ⟨-, -, -, -, -, -, -, -, e0, e1, -⟩ := val4_index t
  funext j
  obtain ⟨g, d, rfl⟩ : ∃ (g : Fin 256) (d : Fin 64), j = ix2 g d := ⟨j 0, j 1, eq_ix2 j⟩
  have hcut : ∀ X : Vec Ideal S256x64 .f32, (cfg4.win 4).cut (grid4.coords t) X (ix2 g d) = X (ix2 g d) := fun X => rfl
  rw [hcut, View.read_apply, val4_out4 V c t h19 g d]
  generalize val4_sums V c = G
  refine congrArg G (funext fun a => Fin.ext ?_)
  match a with
  | ⟨0, _⟩ => show g.val = win4_4.index t (0 : Fin 2) * 256 + 1 * g.val; omega
  | ⟨1, _⟩ => show d.val = win4_4.index t (1 : Fin 2) * 64 + 1 * d.val; omega

theorem val4_flushed5 (c : Dev nD) (t : Fin cfg4.N) (hf : (cfg4.win 5).flush t = true) :
    (dat4 (F := Ideal) V c).flushed 5 t = ((cfg4.win 5).blk t).view.read (Elt Ideal) (val4_cnt V c) := by
  have h19 := val4_flush5_last t hf
  show (cfg4.win 5).cut (grid4.coords t) ((dat4 V c).after 5 t) = _
  rw [after4_5]
  obtain ⟨-, -, -, -, -, -, -, -, -, -, e0, e1⟩ := val4_index t
  funext j
  obtain ⟨z, g, rfl⟩ : ∃ (z : Fin 1) (g : Fin 256), j = ix2 z g := ⟨j 0, j 1, eq_ix2 j⟩
  obtain rfl : z = 0 := Subsingleton.elim _ _
  have hcut : ∀ X : Vec Ideal S1x256 .f32, (cfg4.win 5).cut (grid4.coords t) X (ix2 (0 : Fin 1) g) = X (ix2 (0 : Fin 1) g) := fun X => rfl
  rw [hcut, View.read_apply, val4_out5 V c t h19 g]
  generalize val4_cnt V c = G
  refine congrArg G (funext fun a => Fin.ext ?_)
  match a with
  | ⟨0, _⟩ => show 0 = win4_5.index t (0 : Fin 2) * 1 + 1 * 0; omega
  | ⟨1, _⟩ => show g.val = win4_5.index t (1 : Fin 2) * 256 + 1 * g.val; omega

theorem val4_cover4 (i : S256x64.Idx) :
    ∃ t : Fin cfg4.N, (cfg4.win 4).flush t = true ∧ i ∈ ((cfg4.win 4).blk t).view.set := by
  have hlt : 19 < cfg4.N := by show 19 < grid4.N; rw [N_4]; decide
  obtain ⟨-, -, -, -, -, -, -, -, e0, e1, -⟩ := val4_index ⟨19, hlt⟩
  refine ⟨⟨19, hlt⟩, (flush4_4 _).mpr rfl, ?_⟩
  show i ∈ ((View.whole main_v69_0).slice (win4_4.rect ⟨19, hlt⟩)).set
  rw [View.set_slice_whole, Rect.mem_set_unit]
  intro a
  have hi0 : (i 0).val < 256 := (i 0).isLt
  have hi1 : (i 1).val < 64 := (i 1).isLt
  match a with
  | ⟨0, _⟩ =>
    show win4_4.index ⟨19, hlt⟩ (0 : Fin 2) * 256 ≤ (i 0).val ∧ (i 0).val < win4_4.index ⟨19, hlt⟩ (0 : Fin 2) * 256 + 256
    rw [e0]; omega
  | ⟨1, _⟩ =>
    show win4_4.index ⟨19, hlt⟩ (1 : Fin 2) * 64 ≤ (i 1).val ∧ (i 1).val < win4_4.index ⟨19, hlt⟩ (1 : Fin 2) * 64 + 64
    rw [e1]; omega

theorem val4_cover5 (i : S1x256.Idx) :
    ∃ t : Fin cfg4.N, (cfg4.win 5).flush t = true ∧ i ∈ ((cfg4.win 5).blk t).view.set := by
  have hlt : 19 < cfg4.N := by show 19 < grid4.N; rw [N_4]; decide
  obtain ⟨-, -, -, -, -, -, -, -, -, -, e0, e1⟩ := val4_index ⟨19, hlt⟩
  refine ⟨⟨19, hlt⟩, (flush4_5 _).mpr rfl, ?_⟩
  show i ∈ ((View.whole main_v69_1).slice (win4_5.rect ⟨19, hlt⟩)).set
  rw [View.set_slice_whole, Rect.mem_set_unit]
  intro a
  have hi0 : (i 0).val < 1 := (i 0).isLt
  have hi1 : (i 1).val < 256 := (i 1).isLt
  match a with
  | ⟨0, _⟩ =>
    show win4_5.index ⟨19, hlt⟩ (0 : Fin 2) * 1 ≤ (i 0).val ∧ (i 0).val < win4_5.index ⟨19, hlt⟩ (0 : Fin 2) * 1 + 1
    rw [e0]; omega
  | ⟨1, _⟩ =>
    show win4_5.index ⟨19, hlt⟩ (1 : Fin 2) * 256 ≤ (i 1).val ∧ (i 1).val < win4_5.index ⟨19, hlt⟩ (1 : Fin 2) * 256 + 256
    rw [e1]; omega

theorem final4_sums (c : Dev nD) :
    (dat4 (F := Ideal) V c).arrAt 4 cfg4.N
      = Cert.Spec.poolSums (Cert.Spec.act (V c main_v66) (V c main_v15) (V c main_v68)) (V c main_v67) :=
  (dat4 (F := Ideal) V c).arrAt_eq_of_cover 4 _ (val4_flushed4 V c) val4_cover4

theorem final4_cnt (c : Dev nD) :
    (dat4 (F := Ideal) V c).arrAt 5 cfg4.N = Cert.Spec.poolCnt (V c main_v67) :=
  (dat4 (F := Ideal) V c).arrAt_eq_of_cover 5 _ (val4_flushed5 V c) val4_cover5

end Cert.KernelIdeal.Hand

end
-- ==== Proof.Bridge.lean ====
import proofs.«424017_j2946347566021_2_alg».proof.Proof.Spec
import proofs.«424017_j2946347566021_2_alg».proof.Proof.Algebra

noncomputable section
namespace Cert.Bridge
open Cert.Spec Cert.Algebra Idealize.ShloMosaic Idealize.ShloMosaic.ValueIdx
open scoped BigOperators

section

variable (T : Fin 1300000 → Fin 100000 → Prop) [∀ e n, Decidable (T e n)]
  (r r' : Fin 1300000 → Fin 100000) (δ : Arr2 100000 1)

def aggK (h : Arr2 100000 64) : Arr2 100000 64 :=
  fun i =>
    let n : Fin 100000 := i 0
    let f : Fin 64 := i 1
    0 + ∑ e : Fin 1300000, if T e n then h (ix2 (r e) f) else 0

def refLayer {K : Nat} (a : Arr2 100000 K) (W : Arr2 K 64) (b : Arr2 1 64) : Arr2 100000 64 :=
  fun i =>
    let n : Fin 100000 := i 0
    let f : Fin 64 := i 1
    max ((0 + ∑ e : Fin 1300000,
            if T e n then (∑ k : Fin K, a (ix2 (r e) k) * W (ix2 k f)) * (δ (ix2 (r e) 0) * δ (ix2 (r' e) 0))
            else 0)
          + b (ix2 0 f)) 0

theorem layer_eq (hT : ∀ e n, T e n → r' e = n) (hδ : ∀ i, IsReal (δ i))
    {K : Nat} (a : Arr2 100000 K) (W : Arr2 K 64) (b : Arr2 1 64)
    (ha : ∀ i, IsReal (a i)) (hW : ∀ i, IsReal (W i)) :
    act (aggK T r (linScale a W δ)) δ b = refLayer T r r' δ a W b := by
  funext i
  have h := agg_scale (E := 1300000)
    (fun (n : Fin 100000) (f : Fin 64) => ∑ k : Fin K, a (ix2 n k) * W (ix2 k f))
    (fun n : Fin 100000 => δ (ix2 n 0))
    (fun n f => matmul_real _ _ (fun k => ha (ix2 n k)) (fun k => hW (ix2 k f)))
    (fun n => hδ (ix2 n 0)) T r r' hT (i 0) (i 1)
  exact congrArg (fun z => max (z + b (ix2 0 (i 1))) 0) h

theorem layer_real (hδ : ∀ i, IsReal (δ i))
    {K : Nat} (a : Arr2 100000 K) (W : Arr2 K 64) (b : Arr2 1 64)
    (ha : ∀ i, IsReal (a i)) (hW : ∀ i, IsReal (W i)) (hb : ∀ i, IsReal (b i)) :
    ∀ i, IsReal (refLayer T r r' δ a W b i) := by
  intro i
  have h := agg_real (E := 1300000)
    (fun (n : Fin 100000) (f : Fin 64) => ∑ k : Fin K, a (ix2 n k) * W (ix2 k f))
    (fun n : Fin 100000 => δ (ix2 n 0))
    (fun n f => matmul_real _ _ (fun k => ha (ix2 n k)) (fun k => hW (ix2 k f)))
    (fun n => hδ (ix2 n 0)) T r r' (i 0) (i 1)
  exact (h.add (hb (ix2 0 (i 1)))).max isReal_zero

theorem network_eq (hT : ∀ e n, T e n → r' e = n) (hδ : ∀ i, IsReal (δ i))
    (x : Arr2 100000 15) (W1 : Arr2 15 64) (W2 W3 W4 : Arr2 64 64) (b1 b2 b3 b4 : Arr2 1 64)
    (hx : ∀ i, IsReal (x i)) (hW1 : ∀ i, IsReal (W1 i)) (hW2 : ∀ i, IsReal (W2 i))
    (hW3 : ∀ i, IsReal (W3 i)) (hW4 : ∀ i, IsReal (W4 i))
    (hb1 : ∀ i, IsReal (b1 i)) (hb2 : ∀ i, IsReal (b2 i)) (hb3 : ∀ i, IsReal (b3 i)) :
    act (aggK T r (fusedMid (aggK T r (fusedMid (aggK T r (fusedMid (aggK T r (linScale x W1 δ))
        δ b1 W2)) δ b2 W3)) δ b3 W4)) δ b4
      = refLayer T r r' δ (refLayer T r r' δ (refLayer T r r' δ (refLayer T r r' δ x W1 b1) W2 b2) W3 b3)
          W4 b4 := by
  have r1 := layer_real T r r' δ hδ x W1 b1 hx hW1 hb1
  have r2 := layer_real T r r' δ hδ _ W2 b2 r1 hW2 hb2
  have r3 := layer_real T r r' δ hδ _ W3 b3 r2 hW3 hb3
  unfold fusedMid
  rw [layer_eq T r r' δ hT hδ x W1 b1 hx hW1, layer_eq T r r' δ hT hδ _ W2 b2 r1 hW2,
    layer_eq T r r' δ hT hδ _ W3 b3 r2 hW3, layer_eq T r r' δ hT hδ _ W4 b4 r3 hW4]

end

end Cert.Bridge
-- ==== Proof.Final.lean ====
import proofs.«424017_j2946347566021_2_alg».proof.Proof.Bridge
import proofs.«424017_j2946347566021_2_alg».proof.Proof.Edges
import proofs.«424017_j2946347566021_2_alg».proof.Proof.Pool

noncomputable section

namespace Cert.Final

open Idealize.ShloMosaic Idealize.ShloMosaic.ValueIdx Cert.Spec Cert.Algebra Cert.Bridge Cert.Edges

def biasRow (b : (⟨1, ![64]⟩ : Shape).Idx → EReal) : Arr2 1 64 := fun i => b (ix1 (i 1))

def batchCol (batch : (⟨1, ![100000]⟩ : Shape).Idx → BitVec 32) : (⟨2, ![100000, 1]⟩ : Shape).Idx → BitVec 32 :=
  fun i => batch (ix1 (i 0))

variable (ei : IVec ⟨2, ![2, 1200000]⟩ 32)
variable (x : Arr2 100000 15) (W1 : Arr2 15 64) (W2 W3 W4 : Arr2 64 64)
variable (b1 b2 b3 b4 : (⟨1, ![64]⟩ : Shape).Idx → EReal)

abbrev agg (h : Arr2 100000 64) : Arr2 100000 64 := aggK (T ei) (rS ei) h

def stage1 : Arr2 100000 64 := linScale x W1 (dinvCol ei)
def stage2 : Arr2 100000 64 := fusedMid (agg ei (stage1 ei x W1)) (dinvCol ei) (biasRow b1) W2
def stage3 : Arr2 100000 64 := fusedMid (agg ei (stage2 ei x W1 W2 b1)) (dinvCol ei) (biasRow b2) W3
def stage4 : Arr2 100000 64 := fusedMid (agg ei (stage3 ei x W1 W2 W3 b1 b2)) (dinvCol ei) (biasRow b3) W4

def lastActK : Arr2 100000 64 := act (agg ei (stage4 ei x W1 W2 W3 W4 b1 b2 b3)) (dinvCol ei) (biasRow b4)

abbrev layerR {K : Nat} (a : Arr2 100000 K) (W : Arr2 K 64) (b : (⟨1, ![64]⟩ : Shape).Idx → EReal) : Arr2 100000 64 :=
  refLayer (T ei) (rS ei) (rD ei) (dinvCol ei) a W (biasRow b)

def lastActR : Arr2 100000 64 :=
  layerR ei (layerR ei (layerR ei (layerR ei x W1 b1) W2 b2) W3 b3) W4 b4

def pooled (a : Arr2 100000 64) (batch : (⟨1, ![100000]⟩ : Shape).Idx → BitVec 32) : Arr2 256 64 :=
  fun i =>
    let g : Fin 256 := i 0
    let f : Fin 64 := i 1
    Ideal.div (poolSums a (batchCol batch) (ix2 g f)) (max (poolCnt (batchCol batch) (ix2 0 g)) 1)

theorem lastAct_eq
    (hx : ∀ i, IsReal (x i)) (hW1 : ∀ i, IsReal (W1 i)) (hW2 : ∀ i, IsReal (W2 i)) (hW3 : ∀ i, IsReal (W3 i))
    (hW4 : ∀ i, IsReal (W4 i)) (hb1 : ∀ i, IsReal (b1 i)) (hb2 : ∀ i, IsReal (b2 i)) (hb3 : ∀ i, IsReal (b3 i)) :
    lastActK ei x W1 W2 W3 W4 b1 b2 b3 b4 = lastActR ei x W1 W2 W3 W4 b1 b2 b3 b4 :=
  network_eq (T ei) (rS ei) (rD ei) (dinvCol ei) (hT ei) (dinvCol_real ei) x W1 W2 W3 W4
    (biasRow b1) (biasRow b2) (biasRow b3) (biasRow b4) hx hW1 hW2 hW3 hW4
    (fun i => hb1 _) (fun i => hb2 _) (fun i => hb3 _)

end Cert.Final

end
-- ==== Proof.KI.Stretch1.lean ====
import proofs.«424017_j2946347566021_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«424017_j2946347566021_2_alg».proof.Proof.Glue
import proofs.«424017_j2946347566021_2_alg».proof.Proof.Edges
import proofs.«424017_j2946347566021_2_alg».proof.Proof.Bridge
import proofs.«424017_j2946347566021_2_alg».proof.Proof.Final

set_option maxRecDepth 16384

noncomputable section
namespace Cert.KernelIdeal.Hand
open Cert.KernelIdeal Cert.KernelIdeal.Gen
open Idealize.ShloMosaic Idealize.ShloMosaic.TcCoe Idealize.ShloMosaic.ValueIdx Cert.Spec Cert.Edges

theorem colI1_eq (v : IVec S1300000 32) :
    broadcastInDim S1300000x1 ![0] bcast_S1300000_S1300000x1_0 v = colI v := rfl

theorem normV1_eq (v : IVec S1300000 32) :
    select (cmpi .slt v (broadcastInDim S1300000 ![] bcast_S_S1300000 (constantI S_ 32 0#32)))
      (addi v (broadcastInDim S1300000 ![] bcast_S_S1300000 (constantI S_ 32 100000#32))) v = normV v := rfl

theorem scat1_apply (x : FVec Ideal S100000x64 .f32) (idx : IVec S1300000x1 32) (upd : FVec Ideal S1300000x64 .f32)
    (n : Fin 100000) (f : Fin 64) :
    Host.scatterAdd (F := Ideal) scatter_S100000x64_S1300000x1_S1300000x64_1_0_0_1 x idx upd (ix2 n f)
      = x (ix2 n f) + ∑ e : Fin 1300000, if (idx (ix2 e 0)).toInt = (n.val : Int) then upd (ix2 e f) else 0 :=
  Cert.Glue.scatterAdd_rows_apply scatter_S100000x64_S1300000x1_S1300000x64_1_0_0_1 rfl rfl rfl rfl x idx upd n f

theorem gath1_apply (h : FVec Ideal S100000x64 .bf16) (idx : IVec S1300000x1 32) (e : Fin 1300000) (f : Fin 64) :
    extf .f32 (Host.gather gather_S100000x64_S1300000x1_S1300000x64_1_0_n_n_0_1_164 h idx) bitsLt_bf16_f32 (ix2 e f)
      = h (ix2 (Cert.Glue.rowOf 100000 (idx (ix2 e 0))) f) :=
  Cert.Glue.gather_rows_apply gather_S100000x64_S1300000x1_S1300000x64_1_0_n_n_0_1_164 rfl rfl rfl rfl rfl h idx e f

theorem nbr1_term_apply (src dst : IVec S1300000 32) (h : FVec Ideal S100000x64 .bf16) (n : Fin 100000) (f : Fin 64) :
    Host.scatterAdd (F := Ideal) scatter_S100000x64_S1300000x1_S1300000x64_1_0_0_1
        (broadcastInDim S100000x64 ![] bcast_S_S100000x64 (constant (F := Ideal) S_ .f32 0x00000000#32))
        (broadcastInDim S1300000x1 ![0] bcast_S1300000_S1300000x1_0 dst)
        (extf .f32 (Host.gather gather_S100000x64_S1300000x1_S1300000x64_1_0_n_n_0_1_164 h
            (broadcastInDim S1300000x1 ![0] bcast_S1300000_S1300000x1_0
              (select (cmpi .slt src (broadcastInDim S1300000 ![] bcast_S_S1300000 (constantI S_ 32 0#32)))
                (addi src (broadcastInDim S1300000 ![] bcast_S_S1300000 (constantI S_ 32 100000#32))) src)))
          bitsLt_bf16_f32) (ix2 n f)
      = 0 + ∑ e : Fin 1300000, if ((colI dst) (ix2 e 0)).toInt = (n.val : Int)
          then h (ix2 (Cert.Glue.rowOf 100000 ((colI (normV src)) (ix2 e 0))) f) else 0 := by
  rw [normV1_eq, colI1_eq, colI1_eq]
  refine (scat1_apply _ _ _ n f).trans ?_
  refine congr (congrArg HAdd.hAdd ?_) (Finset.sum_congr rfl fun e _ => ?_)
  · rw [broadcastInDim_scalar_apply, constant_apply]
    exact Ideal.ofBits_zero_f32
  · rw [gath1_apply]

theorem bias1_term_apply (b : FVec Ideal S64 .f32) (u : Fin 1) (j : Fin 64) :
    shapeCast S1x64 b shapeCasts_S64_S1x64 (ix2 u j) = b (ix1 j) :=
  shapeCast_a_1a_apply b shapeCasts_S64_S1x64 u j

theorem stretch1_agg (W : Valuation τ sig (Elt Ideal)) (ei : IVec ⟨2, ![2, 1200000]⟩ 32)
    (hs : (W (Proc.devRef .tc main_v3) : S1300000.Idx → BitVec 32) = srcV ei)
    (hd : (W (Proc.devRef .tc main_v6) : S1300000.Idx → BitVec 32) = dstV ei) :
    (StableHlo.after hostOps1 W (Proc.devRef .tc main_v27) : S100000x64.Idx → EReal)
      = Cert.Final.agg ei (W (Proc.devRef .tc main_v16) : S100000x64.Idx → EReal) := by
  have e : (StableHlo.after hostOps1 W (Proc.devRef .tc main_v27) : S100000x64.Idx → EReal)
      = Host.scatterAdd (F := Ideal) scatter_S100000x64_S1300000x1_S1300000x64_1_0_0_1
          (broadcastInDim S100000x64 ![] bcast_S_S100000x64 (constant (F := Ideal) S_ .f32 0x00000000#32))
          (broadcastInDim S1300000x1 ![0] bcast_S1300000_S1300000x1_0 (W (Proc.devRef .tc main_v6) : IVec S1300000 32))
          (extf .f32 (Host.gather gather_S100000x64_S1300000x1_S1300000x64_1_0_n_n_0_1_164
              (W (Proc.devRef .tc main_v16) : FVec Ideal S100000x64 .bf16)
              (broadcastInDim S1300000x1 ![0] bcast_S1300000_S1300000x1_0
                (select (cmpi .slt (W (Proc.devRef .tc main_v3) : IVec S1300000 32)
                    (broadcastInDim S1300000 ![] bcast_S_S1300000 (constantI S_ 32 0#32)))
                  (addi (W (Proc.devRef .tc main_v3) : IVec S1300000 32)
                    (broadcastInDim S1300000 ![] bcast_S_S1300000 (constantI S_ 32 100000#32)))
                  (W (Proc.devRef .tc main_v3) : IVec S1300000 32))))
            bitsLt_bf16_f32) := by
    after_results_simp
  rw [e]
  funext i
  obtain ⟨n, f, rfl⟩ : ∃ (n : Fin 100000) (f : Fin 64), i = ix2 n f := ⟨i 0, i 1, eq_ix2 i⟩
  refine (nbr1_term_apply (W (Proc.devRef .tc main_v3)) (W (Proc.devRef .tc main_v6)) (W (Proc.devRef .tc main_v16)) n f).trans ?_
  rw [hs, hd]
  unfold Cert.Final.agg Cert.Bridge.aggK
  refine congrArg (0 + ·) (Finset.sum_congr rfl fun e _ => ?_)
  exact if_congr Iff.rfl rfl rfl

theorem stretch1_bias (W : Valuation τ sig (Elt Ideal)) :
    (StableHlo.after hostOps1 W (Proc.devRef .tc main_v28) : S1x64.Idx → EReal)
      = Cert.Final.biasRow (W (Proc.devRef .tc main_arg4) : S64.Idx → EReal) := by
  have e : (StableHlo.after hostOps1 W (Proc.devRef .tc main_v28) : S1x64.Idx → EReal)
      = shapeCast S1x64 (W (Proc.devRef .tc main_arg4) : FVec Ideal S64 .f32) shapeCasts_S64_S1x64 := by
    after_results
    rfl
  rw [e]
  funext i
  obtain ⟨u, j, rfl⟩ : ∃ (u : Fin 1) (j : Fin 64), i = ix2 u j := ⟨i 0, i 1, eq_ix2 i⟩
  exact bias1_term_apply _ u j

end Cert.KernelIdeal.Hand
end
-- ==== Proof.KI.Stretch2.lean ====
import proofs.«424017_j2946347566021_2_alg».proof.Proof.KI.Stretch1

set_option maxRecDepth 16384

noncomputable section
namespace Cert.KernelIdeal.Hand
open Cert.KernelIdeal Cert.KernelIdeal.Gen
open Idealize.ShloMosaic Idealize.ShloMosaic.TcCoe Idealize.ShloMosaic.ValueIdx Cert.Spec Cert.Edges

theorem stretch2_agg (W : Valuation τ sig (Elt Ideal)) (ei : IVec ⟨2, ![2, 1200000]⟩ 32)
    (hs : (W (Proc.devRef .tc main_v3) : S1300000.Idx → BitVec 32) = srcV ei)
    (hd : (W (Proc.devRef .tc main_v6) : S1300000.Idx → BitVec 32) = dstV ei) :
    (StableHlo.after hostOps2 W (Proc.devRef .tc main_v40) : S100000x64.Idx → EReal)
      = Cert.Final.agg ei (W (Proc.devRef .tc main_v29) : S100000x64.Idx → EReal) := by
  have e : (StableHlo.after hostOps2 W (Proc.devRef .tc main_v40) : S100000x64.Idx → EReal)
      = Host.scatterAdd (F := Ideal) scatter_S100000x64_S1300000x1_S1300000x64_1_0_0_1
          (broadcastInDim S100000x64 ![] bcast_S_S100000x64 (constant (F := Ideal) S_ .f32 0x00000000#32))
          (broadcastInDim S1300000x1 ![0] bcast_S1300000_S1300000x1_0 (W (Proc.devRef .tc main_v6) : IVec S1300000 32))
          (extf .f32 (Host.gather gather_S100000x64_S1300000x1_S1300000x64_1_0_n_n_0_1_164
              (W (Proc.devRef .tc main_v29) : FVec Ideal S100000x64 .bf16)
              (broadcastInDim S1300000x1 ![0] bcast_S1300000_S1300000x1_0
                (select (cmpi .slt (W (Proc.devRef .tc main_v3) : IVec S1300000 32)
                    (broadcastInDim S1300000 ![] bcast_S_S1300000 (constantI S_ 32 0#32)))
                  (addi (W (Proc.devRef .tc main_v3) : IVec S1300000 32)
                    (broadcastInDim S1300000 ![] bcast_S_S1300000 (constantI S_ 32 100000#32)))
                  (W (Proc.devRef .tc main_v3) : IVec S1300000 32))))
            bitsLt_bf16_f32) := by
    after_results_simp
  rw [e]
  funext i
  obtain ⟨n, f, rfl⟩ : ∃ (n : Fin 100000) (f : Fin 64), i = ix2 n f := ⟨i 0, i 1, eq_ix2 i⟩
  refine (nbr1_term_apply (W (Proc.devRef .tc main_v3)) (W (Proc.devRef .tc main_v6)) (W (Proc.devRef .tc main_v29)) n f).trans ?_
  rw [hs, hd]
  unfold Cert.Final.agg Cert.Bridge.aggK
  refine congrArg (0 + ·) (Finset.sum_congr rfl fun e _ => ?_)
  exact if_congr Iff.rfl rfl rfl

theorem stretch2_bias (W : Valuation τ sig (Elt Ideal)) :
    (StableHlo.after hostOps2 W (Proc.devRef .tc main_v41) : S1x64.Idx → EReal)
      = Cert.Final.biasRow (W (Proc.devRef .tc main_arg6) : S64.Idx → EReal) := by
  have e : (StableHlo.after hostOps2 W (Proc.devRef .tc main_v41) : S1x64.Idx → EReal)
      = shapeCast S1x64 (W (Proc.devRef .tc main_arg6) : FVec Ideal S64 .f32) shapeCasts_S64_S1x64 := by
    after_results
    rfl
  rw [e]
  funext i
  obtain ⟨u, j, rfl⟩ : ∃ (u : Fin 1) (j : Fin 64), i = ix2 u j := ⟨i 0, i 1, eq_ix2 i⟩
  exact bias1_term_apply _ u j

end Cert.KernelIdeal.Hand
end
-- ==== Proof.KI.Stretch3.lean ====
import proofs.«424017_j2946347566021_2_alg».proof.Proof.KI.Stretch1

set_option maxRecDepth 16384

noncomputable section
namespace Cert.KernelIdeal.Hand
open Cert.KernelIdeal Cert.KernelIdeal.Gen
open Idealize.ShloMosaic Idealize.ShloMosaic.TcCoe Idealize.ShloMosaic.ValueIdx Cert.Spec Cert.Edges

theorem stretch3_agg (W : Valuation τ sig (Elt Ideal)) (ei : IVec ⟨2, ![2, 1200000]⟩ 32)
    (hs : (W (Proc.devRef .tc main_v3) : S1300000.Idx → BitVec 32) = srcV ei)
    (hd : (W (Proc.devRef .tc main_v6) : S1300000.Idx → BitVec 32) = dstV ei) :
    (StableHlo.after hostOps3 W (Proc.devRef .tc main_v53) : S100000x64.Idx → EReal)
      = Cert.Final.agg ei (W (Proc.devRef .tc main_v42) : S100000x64.Idx → EReal) := by
  have e : (StableHlo.after hostOps3 W (Proc.devRef .tc main_v53) : S100000x64.Idx → EReal)
      = Host.scatterAdd (F := Ideal) scatter_S100000x64_S1300000x1_S1300000x64_1_0_0_1
          (broadcastInDim S100000x64 ![] bcast_S_S100000x64 (constant (F := Ideal) S_ .f32 0x00000000#32))
          (broadcastInDim S1300000x1 ![0] bcast_S1300000_S1300000x1_0 (W (Proc.devRef .tc main_v6) : IVec S1300000 32))
          (extf .f32 (Host.gather gather_S100000x64_S1300000x1_S1300000x64_1_0_n_n_0_1_164
              (W (Proc.devRef .tc main_v42) : FVec Ideal S100000x64 .bf16)
              (broadcastInDim S1300000x1 ![0] bcast_S1300000_S1300000x1_0
                (select (cmpi .slt (W (Proc.devRef .tc main_v3) : IVec S1300000 32)
                    (broadcastInDim S1300000 ![] bcast_S_S1300000 (constantI S_ 32 0#32)))
                  (addi (W (Proc.devRef .tc main_v3) : IVec S1300000 32)
                    (broadcastInDim S1300000 ![] bcast_S_S1300000 (constantI S_ 32 100000#32)))
                  (W (Proc.devRef .tc main_v3) : IVec S1300000 32))))
            bitsLt_bf16_f32) := by
    after_results_simp
  rw [e]
  funext i
  obtain ⟨n, f, rfl⟩ : ∃ (n : Fin 100000) (f : Fin 64), i = ix2 n f := ⟨i 0, i 1, eq_ix2 i⟩
  refine (nbr1_term_apply (W (Proc.devRef .tc main_v3)) (W (Proc.devRef .tc main_v6)) (W (Proc.devRef .tc main_v42)) n f).trans ?_
  rw [hs, hd]
  unfold Cert.Final.agg Cert.Bridge.aggK
  refine congrArg (0 + ·) (Finset.sum_congr rfl fun e _ => ?_)
  exact if_congr Iff.rfl rfl rfl

theorem stretch3_bias (W : Valuation τ sig (Elt Ideal)) :
    (StableHlo.after hostOps3 W (Proc.devRef .tc main_v54) : S1x64.Idx → EReal)
      = Cert.Final.biasRow (W (Proc.devRef .tc main_arg8) : S64.Idx → EReal) := by
  have e : (StableHlo.after hostOps3 W (Proc.devRef .tc main_v54) : S1x64.Idx → EReal)
      = shapeCast S1x64 (W (Proc.devRef .tc main_arg8) : FVec Ideal S64 .f32) shapeCasts_S64_S1x64 := by
    after_results
    rfl
  rw [e]
  funext i
  obtain ⟨u, j, rfl⟩ : ∃ (u : Fin 1) (j : Fin 64), i = ix2 u j := ⟨i 0, i 1, eq_ix2 i⟩
  exact bias1_term_apply _ u j

end Cert.KernelIdeal.Hand
end
-- ==== Proof.KI.Stretch4.lean ====
import proofs.«424017_j2946347566021_2_alg».proof.Proof.KI.Stretch1

set_option maxRecDepth 16384

noncomputable section
namespace Cert.KernelIdeal.Hand
open Cert.KernelIdeal Cert.KernelIdeal.Gen
open Idealize.ShloMosaic Idealize.ShloMosaic.TcCoe Idealize.ShloMosaic.ValueIdx Cert.Spec Cert.Edges

theorem batch4_term_apply (b : IVec S100000 32) (n : Fin 100000) (u : Fin 1) :
    shapeCast S100000x1 b shapeCasts_S100000_S100000x1 (ix2 n u) = b (ix1 n) := by
  have hu : u.val = 0 := by omega
  refine shapeCast_apply b shapeCasts_S100000_S100000x1 (ix2 n u) (ix1 n) ?_
  rw [Shape.rowMajor_val_one, Shape.rowMajor_val_two]
  show n.val = n.val * 1 + u.val
  omega

theorem stretch4_agg (W : Valuation τ sig (Elt Ideal)) (ei : IVec ⟨2, ![2, 1200000]⟩ 32)
    (hs : (W (Proc.devRef .tc main_v3) : S1300000.Idx → BitVec 32) = srcV ei)
    (hd : (W (Proc.devRef .tc main_v6) : S1300000.Idx → BitVec 32) = dstV ei) :
    (StableHlo.after hostOps4 W (Proc.devRef .tc main_v66) : S100000x64.Idx → EReal)
      = Cert.Final.agg ei (W (Proc.devRef .tc main_v55) : S100000x64.Idx → EReal) := by
  have e : (StableHlo.after hostOps4 W (Proc.devRef .tc main_v66) : S100000x64.Idx → EReal)
      = Host.scatterAdd (F := Ideal) scatter_S100000x64_S1300000x1_S1300000x64_1_0_0_1
          (broadcastInDim S100000x64 ![] bcast_S_S100000x64 (constant (F := Ideal) S_ .f32 0x00000000#32))
          (broadcastInDim S1300000x1 ![0] bcast_S1300000_S1300000x1_0 (W (Proc.devRef .tc main_v6) : IVec S1300000 32))
          (extf .f32 (Host.gather gather_S100000x64_S1300000x1_S1300000x64_1_0_n_n_0_1_164
              (W (Proc.devRef .tc main_v55) : FVec Ideal S100000x64 .bf16)
              (broadcastInDim S1300000x1 ![0] bcast_S1300000_S1300000x1_0
                (select (cmpi .slt (W (Proc.devRef .tc main_v3) : IVec S1300000 32)
                    (broadcastInDim S1300000 ![] bcast_S_S1300000 (constantI S_ 32 0#32)))
                  (addi (W (Proc.devRef .tc main_v3) : IVec S1300000 32)
                    (broadcastInDim S1300000 ![] bcast_S_S1300000 (constantI S_ 32 100000#32)))
                  (W (Proc.devRef .tc main_v3) : IVec S1300000 32))))
            bitsLt_bf16_f32) := by
    after_results_simp
  rw [e]
  funext i
  obtain ⟨n, f, rfl⟩ : ∃ (n : Fin 100000) (f : Fin 64), i = ix2 n f := ⟨i 0, i 1, eq_ix2 i⟩
  refine (nbr1_term_apply (W (Proc.devRef .tc main_v3)) (W (Proc.devRef .tc main_v6)) (W (Proc.devRef .tc main_v55)) n f).trans ?_
  rw [hs, hd]
  unfold Cert.Final.agg Cert.Bridge.aggK
  refine congrArg (0 + ·) (Finset.sum_congr rfl fun e _ => ?_)
  exact if_congr Iff.rfl rfl rfl

theorem stretch4_bias (W : Valuation τ sig (Elt Ideal)) :
    (StableHlo.after hostOps4 W (Proc.devRef .tc main_v68) : S1x64.Idx → EReal)
      = Cert.Final.biasRow (W (Proc.devRef .tc main_arg10) : S64.Idx → EReal) := by
  have e : (StableHlo.after hostOps4 W (Proc.devRef .tc main_v68) : S1x64.Idx → EReal)
      = shapeCast S1x64 (W (Proc.devRef .tc main_arg10) : FVec Ideal S64 .f32) shapeCasts_S64_S1x64 := by
    after_results
    rfl
  rw [e]
  funext i
  obtain ⟨u, j, rfl⟩ : ∃ (u : Fin 1) (j : Fin 64), i = ix2 u j := ⟨i 0, i 1, eq_ix2 i⟩
  exact bias1_term_apply _ u j

theorem stretch4_batch (W : Valuation τ sig (Elt Ideal)) :
    (StableHlo.after hostOps4 W (Proc.devRef .tc main_v67) : S100000x1.Idx → BitVec 32)
      = Cert.Final.batchCol (W (Proc.devRef .tc main_arg2) : S100000.Idx → BitVec 32) := by
  have e : (StableHlo.after hostOps4 W (Proc.devRef .tc main_v67) : S100000x1.Idx → BitVec 32)
      = shapeCast S100000x1 (W (Proc.devRef .tc main_arg2) : IVec S100000 32) shapeCasts_S100000_S100000x1 := by
    after_results
    rfl
  rw [e]
  funext i
  obtain ⟨n, u, rfl⟩ : ∃ (n : Fin 100000) (u : Fin 1), i = ix2 n u := ⟨i 0, i 1, eq_ix2 i⟩
  exact batch4_term_apply _ n u

end Cert.KernelIdeal.Hand
end
-- ==== Proof.KI.Value.lean ====
import proofs.«424017_j2946347566021_2_alg».proof.Proof.KI.Carry
import proofs.«424017_j2946347566021_2_alg».proof.Proof.KI.Head
import proofs.«424017_j2946347566021_2_alg».proof.Proof.KI.Tail
import proofs.«424017_j2946347566021_2_alg».proof.Proof.KI.Val0
import proofs.«424017_j2946347566021_2_alg».proof.Proof.KI.Val1
import proofs.«424017_j2946347566021_2_alg».proof.Proof.KI.Val2
import proofs.«424017_j2946347566021_2_alg».proof.Proof.KI.Val3
import proofs.«424017_j2946347566021_2_alg».proof.Proof.KI.Val4
import proofs.«424017_j2946347566021_2_alg».proof.Proof.KI.Stretch1
import proofs.«424017_j2946347566021_2_alg».proof.Proof.KI.Stretch2
import proofs.«424017_j2946347566021_2_alg».proof.Proof.KI.Stretch3
import proofs.«424017_j2946347566021_2_alg».proof.Proof.KI.Stretch4
import proofs.«424017_j2946347566021_2_alg».proof.Proof.Final

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Spec Cert.Edges Cert.Final

variable (m : (ℓ : Loc nD τ sig) → Buf (Elt Ideal) ℓ) (c : Dev nD)

abbrev eiA : S2x1200000.Idx → BitVec 32 := m ((c : Thread nD τ).loc main_arg1)
abbrev xA : S100000x15.Idx → EReal := m ((c : Thread nD τ).loc main_arg0)
abbrev batchA : S100000.Idx → BitVec 32 := m ((c : Thread nD τ).loc main_arg2)
abbrev w1A : S15x64.Idx → EReal := m ((c : Thread nD τ).loc main_arg3)
abbrev b1A : S64.Idx → EReal := m ((c : Thread nD τ).loc main_arg4)
abbrev w2A : S64x64.Idx → EReal := m ((c : Thread nD τ).loc main_arg5)
abbrev b2A : S64.Idx → EReal := m ((c : Thread nD τ).loc main_arg6)
abbrev w3A : S64x64.Idx → EReal := m ((c : Thread nD τ).loc main_arg7)
abbrev b3A : S64.Idx → EReal := m ((c : Thread nD τ).loc main_arg8)
abbrev w4A : S64x64.Idx → EReal := m ((c : Thread nD τ).loc main_arg9)
abbrev b4A : S64.Idx → EReal := m ((c : Thread nD τ).loc main_arg10)

theorem src3 : (W3 m c (Proc.devRef .tc main_v3) : S1300000.Idx → BitVec 32) = srcV (eiA m c) := head_src (W0 m c)
theorem dst3 : (W3 m c (Proc.devRef .tc main_v6) : S1300000.Idx → BitVec 32) = dstV (eiA m c) := head_dst (W0 m c)
theorem dinv3 : (W3 m c (Proc.devRef .tc main_v15) : S100000x1.Idx → EReal) = dinvCol (eiA m c) := head_dinv (W0 m c)

theorem out0 : (W4 m c (Proc.devRef .tc main_v16) : S100000x64.Idx → EReal) = stage1 (eiA m c) (xA m c) (w1A m c) := by
  have h0 : (V3 m c main_arg0 : S100000x15.Idx → EReal) = xA m c := W3_launch m c main_arg0 (by decide) (by decide) (by decide)
  have h3 : (V3 m c main_arg3 : S15x64.Idx → EReal) = w1A m c := W3_launch m c main_arg3 (by decide) (by decide) (by decide)
  have hd : (V3 m c main_v15 : S100000x1.Idx → EReal) = dinvCol (eiA m c) := dinv3 m c
  refine (W4_arr m c 3).trans ((final0 (V3 m) c).trans ?_)
  rw [h0, h3, hd]; rfl

theorem src4 : (W4 m c (Proc.devRef .tc main_v3) : S1300000.Idx → BitVec 32) = srcV (eiA m c) :=
  (W4_from3 m c main_v3 (by decide)).trans (src3 m c)
theorem dst4 : (W4 m c (Proc.devRef .tc main_v6) : S1300000.Idx → BitVec 32) = dstV (eiA m c) :=
  (W4_from3 m c main_v6 (by decide)).trans (dst3 m c)

theorem agg1 : (W5 m c (Proc.devRef .tc main_v27) : S100000x64.Idx → EReal) = agg (eiA m c) (stage1 (eiA m c) (xA m c) (w1A m c)) := by
  rw [← out0 m c]; exact stretch1_agg (W4 m c) (eiA m c) (src4 m c) (dst4 m c)

theorem bias1 : (W5 m c (Proc.devRef .tc main_v28) : S1x64.Idx → EReal) = biasRow (b1A m c) := by
  have h : (W4 m c (Proc.devRef .tc main_arg4) : S64.Idx → EReal) = b1A m c :=
    (W4_from3 m c main_arg4 (by decide)).trans (W3_launch m c main_arg4 (by decide) (by decide) (by decide))
  rw [← h]; exact stretch1_bias (W4 m c)

theorem out1 : (W6 m c (Proc.devRef .tc main_v29) : S100000x64.Idx → EReal)
    = stage2 (eiA m c) (xA m c) (w1A m c) (w2A m c) (b1A m c) := by
  have h0 : (V5 m c main_v27 : S100000x64.Idx → EReal) = _ := agg1 m c
  have h1 : (V5 m c main_v15 : S100000x1.Idx → EReal) = dinvCol (eiA m c) := (W5_from3 m c main_v15 (by decide) (by decide)).trans (dinv3 m c)
  have h2 : (V5 m c main_v28 : S1x64.Idx → EReal) = biasRow (b1A m c) := bias1 m c
  have h3 : (V5 m c main_arg5 : S64x64.Idx → EReal) = w2A m c :=
    (W5_from3 m c main_arg5 (by decide) (by decide)).trans (W3_launch m c main_arg5 (by decide) (by decide) (by decide))
  refine (W6_arr m c 4).trans ((final1 (V5 m) c).trans ?_)
  rw [h0, h1, h2, h3]; rfl

theorem src6 : (W6 m c (Proc.devRef .tc main_v3) : S1300000.Idx → BitVec 32) = srcV (eiA m c) :=
  (W6_from3 m c main_v3 (by decide) (by decide) (by decide)).trans (src3 m c)
theorem dst6 : (W6 m c (Proc.devRef .tc main_v6) : S1300000.Idx → BitVec 32) = dstV (eiA m c) :=
  (W6_from3 m c main_v6 (by decide) (by decide) (by decide)).trans (dst3 m c)

theorem agg2 : (W7 m c (Proc.devRef .tc main_v40) : S100000x64.Idx → EReal)
    = agg (eiA m c) (stage2 (eiA m c) (xA m c) (w1A m c) (w2A m c) (b1A m c)) := by
  rw [← out1 m c]; exact stretch2_agg (W6 m c) (eiA m c) (src6 m c) (dst6 m c)

theorem bias2 : (W7 m c (Proc.devRef .tc main_v41) : S1x64.Idx → EReal) = biasRow (b2A m c) := by
  have h : (W6 m c (Proc.devRef .tc main_arg6) : S64.Idx → EReal) = b2A m c :=
    (W6_from3 m c main_arg6 (by decide) (by decide) (by decide)).trans (W3_launch m c main_arg6 (by decide) (by decide) (by decide))
  rw [← h]; exact stretch2_bias (W6 m c)

theorem out2 : (W8 m c (Proc.devRef .tc main_v42) : S100000x64.Idx → EReal)
    = stage3 (eiA m c) (xA m c) (w1A m c) (w2A m c) (w3A m c) (b1A m c) (b2A m c) := by
  have h0 : (V7 m c main_v40 : S100000x64.Idx → EReal) = _ := agg2 m c
  have h1 : (V7 m c main_v15 : S100000x1.Idx → EReal) = dinvCol (eiA m c) := (W7_from3 m c main_v15 (by decide) (by decide) (by decide) (by decide)).trans (dinv3 m c)
  have h2 : (V7 m c main_v41 : S1x64.Idx → EReal) = biasRow (b2A m c) := bias2 m c
  have h3 : (V7 m c main_arg7 : S64x64.Idx → EReal) = w3A m c :=
    (W7_from3 m c main_arg7 (by decide) (by decide) (by decide) (by decide)).trans (W3_launch m c main_arg7 (by decide) (by decide) (by decide))
  refine (W8_arr m c 4).trans ((final2 (V7 m) c).trans ?_)
  rw [h0, h1, h2, h3]; rfl

theorem src8 : (W8 m c (Proc.devRef .tc main_v3) : S1300000.Idx → BitVec 32) = srcV (eiA m c) :=
  (W8_from3 m c main_v3 (by decide) (by decide) (by decide) (by decide) (by decide)).trans (src3 m c)
theorem dst8 : (W8 m c (Proc.devRef .tc main_v6) : S1300000.Idx → BitVec 32) = dstV (eiA m c) :=
  (W8_from3 m c main_v6 (by decide) (by decide) (by decide) (by decide) (by decide)).trans (dst3 m c)

theorem agg3 : (W9 m c (Proc.devRef .tc main_v53) : S100000x64.Idx → EReal)
    = agg (eiA m c) (stage3 (eiA m c) (xA m c) (w1A m c) (w2A m c) (w3A m c) (b1A m c) (b2A m c)) := by
  rw [← out2 m c]; exact stretch3_agg (W8 m c) (eiA m c) (src8 m c) (dst8 m c)

theorem bias3 : (W9 m c (Proc.devRef .tc main_v54) : S1x64.Idx → EReal) = biasRow (b3A m c) := by
  have h : (W8 m c (Proc.devRef .tc main_arg8) : S64.Idx → EReal) = b3A m c :=
    (W8_from3 m c main_arg8 (by decide) (by decide) (by decide) (by decide) (by decide)).trans (W3_launch m c main_arg8 (by decide) (by decide) (by decide))
  rw [← h]; exact stretch3_bias (W8 m c)

theorem out3 : (W10 m c (Proc.devRef .tc main_v55) : S100000x64.Idx → EReal)
    = stage4 (eiA m c) (xA m c) (w1A m c) (w2A m c) (w3A m c) (w4A m c) (b1A m c) (b2A m c) (b3A m c) := by
  have h0 : (V9 m c main_v53 : S100000x64.Idx → EReal) = _ := agg3 m c
  have h1 : (V9 m c main_v15 : S100000x1.Idx → EReal) = dinvCol (eiA m c) := (W9_from3 m c main_v15 (by decide) (by decide) (by decide) (by decide) (by decide) (by decide)).trans (dinv3 m c)
  have h2 : (V9 m c main_v54 : S1x64.Idx → EReal) = biasRow (b3A m c) := bias3 m c
  have h3 : (V9 m c main_arg9 : S64x64.Idx → EReal) = w4A m c :=
    (W9_from3 m c main_arg9 (by decide) (by decide) (by decide) (by decide) (by decide) (by decide)).trans (W3_launch m c main_arg9 (by decide) (by decide) (by decide))
  refine (W10_arr m c 4).trans ((final3 (V9 m) c).trans ?_)
  rw [h0, h1, h2, h3]; rfl

theorem src10 : (W10 m c (Proc.devRef .tc main_v3) : S1300000.Idx → BitVec 32) = srcV (eiA m c) :=
  (W10_from3 m c main_v3 (by decide) (by decide) (by decide) (by decide) (by decide) (by decide) (by decide)).trans (src3 m c)
theorem dst10 : (W10 m c (Proc.devRef .tc main_v6) : S1300000.Idx → BitVec 32) = dstV (eiA m c) :=
  (W10_from3 m c main_v6 (by decide) (by decide) (by decide) (by decide) (by decide) (by decide) (by decide)).trans (dst3 m c)

theorem agg4 : (W11 m c (Proc.devRef .tc main_v66) : S100000x64.Idx → EReal)
    = agg (eiA m c) (stage4 (eiA m c) (xA m c) (w1A m c) (w2A m c) (w3A m c) (w4A m c) (b1A m c) (b2A m c) (b3A m c)) := by
  rw [← out3 m c]; exact stretch4_agg (W10 m c) (eiA m c) (src10 m c) (dst10 m c)

theorem bias4 : (W11 m c (Proc.devRef .tc main_v68) : S1x64.Idx → EReal) = biasRow (b4A m c) := by
  have h : (W10 m c (Proc.devRef .tc main_arg10) : S64.Idx → EReal) = b4A m c :=
    (W10_from3 m c main_arg10 (by decide) (by decide) (by decide) (by decide) (by decide) (by decide) (by decide)).trans (W3_launch m c main_arg10 (by decide) (by decide) (by decide))
  rw [← h]; exact stretch4_bias (W10 m c)

theorem batch11 : (W11 m c (Proc.devRef .tc main_v67) : S100000x1.Idx → BitVec 32) = batchCol (batchA m c) := by
  have h : (W10 m c (Proc.devRef .tc main_arg2) : S100000.Idx → BitVec 32) = batchA m c :=
    (W10_from3 m c main_arg2 (by decide) (by decide) (by decide) (by decide) (by decide) (by decide) (by decide)).trans (W3_launch m c main_arg2 (by decide) (by decide) (by decide))
  rw [← h]; exact stretch4_batch (W10 m c)

theorem dinv11 : (V11 m c main_v15 : S100000x1.Idx → EReal) = dinvCol (eiA m c) :=
  (W11_from3 m c main_v15 (by decide) (by decide) (by decide) (by decide) (by decide) (by decide) (by decide) (by decide)).trans (dinv3 m c)

theorem sums12 : (W12 m c (Proc.devRef .tc main_v69_0) : S256x64.Idx → EReal)
    = poolSums (lastActK (eiA m c) (xA m c) (w1A m c) (w2A m c) (w3A m c) (w4A m c) (b1A m c) (b2A m c) (b3A m c) (b4A m c))
        (batchCol (batchA m c)) := by
  have h0 : (V11 m c main_v66 : S100000x64.Idx → EReal) = _ := agg4 m c
  have h2 : (V11 m c main_v68 : S1x64.Idx → EReal) = biasRow (b4A m c) := bias4 m c
  have h3 : (V11 m c main_v67 : S100000x1.Idx → BitVec 32) = batchCol (batchA m c) := batch11 m c
  refine (W12_arr m c 4).trans ((final4_sums (V11 m) c).trans ?_)
  rw [h0, dinv11 m c, h2, h3]; rfl

theorem cnt12 : (W12 m c (Proc.devRef .tc main_v69_1) : S1x256.Idx → EReal) = poolCnt (batchCol (batchA m c)) := by
  have h3 : (V11 m c main_v67 : S100000x1.Idx → BitVec 32) = batchCol (batchA m c) := batch11 m c
  refine (W12_arr m c 5).trans ((final4_cnt (V11 m) c).trans ?_)
  rw [h3]

theorem ker_value : (W13 m c (Proc.devRef .tc main_v74) : S256x64.Idx → EReal)
    = pooled (lastActK (eiA m c) (xA m c) (w1A m c) (w2A m c) (w3A m c) (w4A m c) (b1A m c) (b2A m c) (b3A m c) (b4A m c)) (batchA m c) := by
  funext i
  obtain ⟨g, f, rfl⟩ : ∃ (g : Fin 256) (f : Fin 64), i = ix2 g f := ⟨i 0, i 1, eq_ix2 i⟩
  refine (tail_apply (W12 m c) g f).trans ?_
  rw [sums12 m c, cnt12 m c]; rfl

end Cert.KernelIdeal.Hand

end
-- ==== Proof.RefReadP.lean ====
import proofs.«424017_j2946347566021_2_alg».proof.Proof.RefRunP
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 : (⟨S100000, .i32⟩ : BufTy).Contents (Elt F) :=
  iotaInDim S100000 32 0

def val_main_v1 (x1 : (⟨S2x1200000, .i32⟩ : BufTy).Contents (Elt F)) : (⟨S1x1200000, .i32⟩ : BufTy).Contents (Elt F) :=
  extractStridedSlice S1x1200000 ![0, 0] (x1) slices_S2x1200000_S1x1200000_0_0

def val_main_v2 (x1 : (⟨S2x1200000, .i32⟩ : BufTy).Contents (Elt F)) : (⟨S1200000, .i32⟩ : BufTy).Contents (Elt F) :=
  shapeCast _ (val_main_v1 (F := F) x1) shapeCasts_S1x1200000_S1200000

def val_main_v3 (x1 : (⟨S2x1200000, .i32⟩ : BufTy).Contents (Elt F)) : (⟨S1300000, .i32⟩ : BufTy).Contents (Elt F) :=
  concatenate S1300000 0 [⟨S1200000, (val_main_v2 (F := F) x1)⟩, ⟨S100000, (val_main_v0 (F := F))⟩] concatenates_S1200000_S100000_S1300000_d0

def val_main_v4 (x1 : (⟨S2x1200000, .i32⟩ : BufTy).Contents (Elt F)) : (⟨S1x1200000, .i32⟩ : BufTy).Contents (Elt F) :=
  extractStridedSlice S1x1200000 ![1, 0] (x1) slices_S2x1200000_S1x1200000_1_0

def val_main_v5 (x1 : (⟨S2x1200000, .i32⟩ : BufTy).Contents (Elt F)) : (⟨S1200000, .i32⟩ : BufTy).Contents (Elt F) :=
  shapeCast _ (val_main_v4 (F := F) x1) shapeCasts_S1x1200000_S1200000

def val_main_v6 (x1 : (⟨S2x1200000, .i32⟩ : BufTy).Contents (Elt F)) : (⟨S1300000, .i32⟩ : BufTy).Contents (Elt F) :=
  concatenate S1300000 0 [⟨S1200000, (val_main_v5 (F := F) x1)⟩, ⟨S100000, (val_main_v0 (F := F))⟩] concatenates_S1200000_S100000_S1300000_d0

def val_main_cst : (⟨S_, .f32⟩ : BufTy).Contents (Elt F) :=
  constant S_ .f32 0x3F800000#32

def val_main_v7 : (⟨S1300000, .f32⟩ : BufTy).Contents (Elt F) :=
  broadcastInDim S1300000 ![] bcast_S_S1300000 (val_main_cst (F := F))

def val_main_cst_0 : (⟨S_, .f32⟩ : BufTy).Contents (Elt F) :=
  constant S_ .f32 0x00000000#32

def val_main_v8 : (⟨S100000, .f32⟩ : BufTy).Contents (Elt F) :=
  broadcastInDim S100000 ![] bcast_S_S100000 (val_main_cst_0 (F := F))

def val_main_v9 (x1 : (⟨S2x1200000, .i32⟩ : BufTy).Contents (Elt F)) : (⟨S1300000x1, .i32⟩ : BufTy).Contents (Elt F) :=
  broadcastInDim S1300000x1 ![0] bcast_S1300000_S1300000x1_0 (val_main_v6 (F := F) x1)

def val_main_v10 (x1 : (⟨S2x1200000, .i32⟩ : BufTy).Contents (Elt F)) : (⟨S100000, .f32⟩ : BufTy).Contents (Elt F) :=
  Host.scatterAdd scatter_S100000_S1300000x1_S1300000_n_0_0_1 (val_main_v8 (F := F)) (val_main_v9 (F := F) x1) (val_main_v7 (F := F))

def val_main_cst_1 : (⟨S_, .f32⟩ : BufTy).Contents (Elt F) :=
  constant S_ .f32 0x00000000#32

def val_main_v11 : (⟨S100000, .f32⟩ : BufTy).Contents (Elt F) :=
  broadcastInDim S100000 ![] bcast_S_S100000 (val_main_cst_1 (F := F))

def val_main_v12 (x1 : (⟨S2x1200000, .i32⟩ : BufTy).Contents (Elt F)) : (⟨S100000, .i1⟩ : BufTy).Contents (Elt F) :=
  cmpf .ogt (val_main_v10 (F := F) x1) (val_main_v11 (F := F))

def val_main_v13 (x1 : (⟨S2x1200000, .i32⟩ : BufTy).Contents (Elt F)) : (⟨S100000, .f32⟩ : BufTy).Contents (Elt F) :=
  Host.rsqrt (val_main_v10 (F := F) x1)

def val_main_cst_2 : (⟨S_, .f32⟩ : BufTy).Contents (Elt F) :=
  constant S_ .f32 0x00000000#32

def val_main_call0_v0 : (⟨S_, .f32⟩ : BufTy).Contents (Elt F) :=
  id (val_main_cst_2 (F := F))

def val_main_call0_v1 : (⟨S100000, .f32⟩ : BufTy).Contents (Elt F) :=
  broadcastInDim S100000 ![] bcast_S_S100000 (val_main_call0_v0 (F := F))

def val_main_v14 (x1 : (⟨S2x1200000, .i32⟩ : BufTy).Contents (Elt F)) : (⟨S100000, .f32⟩ : BufTy).Contents (Elt F) :=
  select (val_main_v12 (F := F) x1) (val_main_v13 (F := F) x1) (val_main_call0_v1 (F := F))

def val_main_c : (⟨S_, .i32⟩ : BufTy).Contents (Elt F) :=
  constantI S_ 32 0#32

def val_main_v15 : (⟨S1300000, .i32⟩ : BufTy).Contents (Elt F) :=
  broadcastInDim S1300000 ![] bcast_S_S1300000 (val_main_c (F := F))

def val_main_v16 (x1 : (⟨S2x1200000, .i32⟩ : BufTy).Contents (Elt F)) : (⟨S1300000, .i1⟩ : BufTy).Contents (Elt F) :=
  cmpi .slt (val_main_v3 (F := F) x1) (val_main_v15 (F := F))

def val_main_c_3 : (⟨S_, .i32⟩ : BufTy).Contents (Elt F) :=
  constantI S_ 32 100000#32

def val_main_v17 : (⟨S1300000, .i32⟩ : BufTy).Contents (Elt F) :=
  broadcastInDim S1300000 ![] bcast_S_S1300000 (val_main_c_3 (F := F))

def val_main_v18 (x1 : (⟨S2x1200000, .i32⟩ : BufTy).Contents (Elt F)) : (⟨S1300000, .i32⟩ : BufTy).Contents (Elt F) :=
  addi (val_main_v3 (F := F) x1) (val_main_v17 (F := F))

def val_main_v19 (x1 : (⟨S2x1200000, .i32⟩ : BufTy).Contents (Elt F)) : (⟨S1300000, .i32⟩ : BufTy).Contents (Elt F) :=
  select (val_main_v16 (F := F) x1) (val_main_v18 (F := F) x1) (val_main_v3 (F := F) x1)

def val_main_v20 (x1 : (⟨S2x1200000, .i32⟩ : BufTy).Contents (Elt F)) : (⟨S1300000x1, .i32⟩ : BufTy).Contents (Elt F) :=
  broadcastInDim S1300000x1 ![0] bcast_S1300000_S1300000x1_0 (val_main_v19 (F := F) x1)

def val_main_v21 (x1 : (⟨S2x1200000, .i32⟩ : BufTy).Contents (Elt F)) : (⟨S1300000, .f32⟩ : BufTy).Contents (Elt F) :=
  Host.gather gather_S100000_S1300000x1_S1300000_n_0_n_n_0_1_1 (val_main_v14 (F := F) x1) (val_main_v20 (F := F) x1)

def val_main_c_4 : (⟨S_, .i32⟩ : BufTy).Contents (Elt F) :=
  constantI S_ 32 0#32

def val_main_v22 : (⟨S1300000, .i32⟩ : BufTy).Contents (Elt F) :=
  broadcastInDim S1300000 ![] bcast_S_S1300000 (val_main_c_4 (F := F))

def val_main_v23 (x1 : (⟨S2x1200000, .i32⟩ : BufTy).Contents (Elt F)) : (⟨S1300000, .i1⟩ : BufTy).Contents (Elt F) :=
  cmpi .slt (val_main_v6 (F := F) x1) (val_main_v22 (F := F))

def val_main_c_5 : (⟨S_, .i32⟩ : BufTy).Contents (Elt F) :=
  constantI S_ 32 100000#32

def val_main_v24 : (⟨S1300000, .i32⟩ : BufTy).Contents (Elt F) :=
  broadcastInDim S1300000 ![] bcast_S_S1300000 (val_main_c_5 (F := F))

def val_main_v25 (x1 : (⟨S2x1200000, .i32⟩ : BufTy).Contents (Elt F)) : (⟨S1300000, .i32⟩ : BufTy).Contents (Elt F) :=
  addi (val_main_v6 (F := F) x1) (val_main_v24 (F := F))

def val_main_v26 (x1 : (⟨S2x1200000, .i32⟩ : BufTy).Contents (Elt F)) : (⟨S1300000, .i32⟩ : BufTy).Contents (Elt F) :=
  select (val_main_v23 (F := F) x1) (val_main_v25 (F := F) x1) (val_main_v6 (F := F) x1)

def val_main_v27 (x1 : (⟨S2x1200000, .i32⟩ : BufTy).Contents (Elt F)) : (⟨S1300000x1, .i32⟩ : BufTy).Contents (Elt F) :=
  broadcastInDim S1300000x1 ![0] bcast_S1300000_S1300000x1_0 (val_main_v26 (F := F) x1)

def val_main_v28 (x1 : (⟨S2x1200000, .i32⟩ : BufTy).Contents (Elt F)) : (⟨S1300000, .f32⟩ : BufTy).Contents (Elt F) :=
  Host.gather gather_S100000_S1300000x1_S1300000_n_0_n_n_0_1_1 (val_main_v14 (F := F) x1) (val_main_v27 (F := F) x1)

def val_main_v29 (x1 : (⟨S2x1200000, .i32⟩ : BufTy).Contents (Elt F)) : (⟨S1300000, .f32⟩ : BufTy).Contents (Elt F) :=
  mulf (val_main_v21 (F := F) x1) (val_main_v28 (F := F) x1)

theorem val_main_v29_apply (x1 : (⟨S2x1200000, .i32⟩ : BufTy).Contents (Elt F)) (i : S1300000.Idx) :
    val_main_v29 (F := F) x1 i = FloatOps.mulf (val_main_v21 (F := F) x1 i) (val_main_v28 (F := F) x1 i) := rfl

def val_main_v30 (x0 : (⟨S100000x15, .f32⟩ : BufTy).Contents (Elt F)) (x3 : (⟨S15x64, .f32⟩ : BufTy).Contents (Elt F)) : (⟨S100000x64, .f32⟩ : BufTy).Contents (Elt F) :=
  Host.dotGeneral dot_S100000x15_S15x64_S100000x64_1_0_0_1_n_n none (x0) (x3)

theorem lhs_main_v30_0 (i : S100000x64.Idx) (q : dot_S100000x15_S15x64_S100000x64_1_0_0_1_n_n.contr.Idx) :
    (dot_S100000x15_S15x64_S100000x64_1_0_0_1_n_n.lhsIdx i q 0).val = (i 0).val := by
  unfold DotDims.lhsIdx
  rw [dif_neg (show ¬(0 : Fin S100000x15.rank) ∈ dot_S100000x15_S15x64_S100000x64_1_0_0_1_n_n.lhsBatch by decide), dif_pos (show (0 : Fin S100000x15.rank) ∈ dot_S100000x15_S15x64_S100000x64_1_0_0_1_n_n.lhsNonContracting by decide)]
  rfl

theorem lhs_main_v30_1 (i : S100000x64.Idx) (q : dot_S100000x15_S15x64_S100000x64_1_0_0_1_n_n.contr.Idx) :
    (dot_S100000x15_S15x64_S100000x64_1_0_0_1_n_n.lhsIdx i q 1).val = (q ⟨0, by decide⟩).val :=
  dot_S100000x15_S15x64_S100000x64_1_0_0_1_n_n.lhsIdx_val_of_single rfl i q

theorem rhs_main_v30_0 (i : S100000x64.Idx) (q : dot_S100000x15_S15x64_S100000x64_1_0_0_1_n_n.contr.Idx) :
    (dot_S100000x15_S15x64_S100000x64_1_0_0_1_n_n.rhsIdx i q 0).val = (q ⟨0, by decide⟩).val :=
  dot_S100000x15_S15x64_S100000x64_1_0_0_1_n_n.rhsIdx_val_of_single rfl i q

theorem rhs_main_v30_1 (i : S100000x64.Idx) (q : dot_S100000x15_S15x64_S100000x64_1_0_0_1_n_n.contr.Idx) :
    (dot_S100000x15_S15x64_S100000x64_1_0_0_1_n_n.rhsIdx i q 1).val = (i 1).val := by
  unfold DotDims.rhsIdx
  rw [dif_neg (show ¬(1 : Fin S15x64.rank) ∈ dot_S100000x15_S15x64_S100000x64_1_0_0_1_n_n.rhsBatch by decide), dif_pos (show (1 : Fin S15x64.rank) ∈ dot_S100000x15_S15x64_S100000x64_1_0_0_1_n_n.rhsNonContracting by decide)]
  rfl

abbrev lidx_main_v30 (i : S100000x64.Idx) (k : Fin 15) : S100000x15.Idx := fun a => match a with
  | ⟨0, _⟩ => ⟨(i 0).val, (i 0).isLt⟩
  | ⟨1, _⟩ => ⟨k.val, k.isLt⟩

abbrev ridx_main_v30 (i : S100000x64.Idx) (k : Fin 15) : S15x64.Idx := fun a => match a with
  | ⟨0, _⟩ => ⟨k.val, k.isLt⟩
  | ⟨1, _⟩ => ⟨(i 1).val, (i 1).isLt⟩

theorem val_main_v30_apply (x0 : (⟨S100000x15, .f32⟩ : BufTy).Contents (Elt Ideal)) (x3 : (⟨S15x64, .f32⟩ : BufTy).Contents (Elt Ideal)) (i : S100000x64.Idx) :
    val_main_v30 (F := Ideal) x0 x3 i = ∑ k : Fin 15, x0 (lidx_main_v30 i k) * x3 (ridx_main_v30 i k) := by
  unfold val_main_v30
  simp only [Host.dotGeneral]
  rw [Ideal.dotGeneral_apply, ← Equiv.sum_comp (ValueIdx.contrEquiv1 dot_S100000x15_S15x64_S100000x64_1_0_0_1_n_n 15 rfl rfl).symm]
  refine Finset.sum_congr rfl fun k _ => ?_
  have hk := ValueIdx.contrEquiv1_symm_val dot_S100000x15_S15x64_S100000x64_1_0_0_1_n_n 15 rfl rfl k
  have el : dot_S100000x15_S15x64_S100000x64_1_0_0_1_n_n.lhsIdx i ((ValueIdx.contrEquiv1 dot_S100000x15_S15x64_S100000x64_1_0_0_1_n_n 15 rfl rfl).symm k) = lidx_main_v30 i k := funext fun a => Fin.ext (by
    match a with
    | ⟨0, _⟩ => exact lhs_main_v30_0 _ _
    | ⟨1, _⟩ => exact (lhs_main_v30_1 _ _).trans hk)
  have er : dot_S100000x15_S15x64_S100000x64_1_0_0_1_n_n.rhsIdx i ((ValueIdx.contrEquiv1 dot_S100000x15_S15x64_S100000x64_1_0_0_1_n_n 15 rfl rfl).symm k) = ridx_main_v30 i k := funext fun a => Fin.ext (by
    match a with
    | ⟨0, _⟩ => exact (rhs_main_v30_0 _ _).trans hk
    | ⟨1, _⟩ => exact rhs_main_v30_1 _ _)
  rw [el, er]

def val_main_c_6 : (⟨S_, .i32⟩ : BufTy).Contents (Elt F) :=
  constantI S_ 32 0#32

def val_main_v31 : (⟨S1300000, .i32⟩ : BufTy).Contents (Elt F) :=
  broadcastInDim S1300000 ![] bcast_S_S1300000 (val_main_c_6 (F := F))

def val_main_v32 (x1 : (⟨S2x1200000, .i32⟩ : BufTy).Contents (Elt F)) : (⟨S1300000, .i1⟩ : BufTy).Contents (Elt F) :=
  cmpi .slt (val_main_v3 (F := F) x1) (val_main_v31 (F := F))

def val_main_c_7 : (⟨S_, .i32⟩ : BufTy).Contents (Elt F) :=
  constantI S_ 32 100000#32

def val_main_v33 : (⟨S1300000, .i32⟩ : BufTy).Contents (Elt F) :=
  broadcastInDim S1300000 ![] bcast_S_S1300000 (val_main_c_7 (F := F))

def val_main_v34 (x1 : (⟨S2x1200000, .i32⟩ : BufTy).Contents (Elt F)) : (⟨S1300000, .i32⟩ : BufTy).Contents (Elt F) :=
  addi (val_main_v3 (F := F) x1) (val_main_v33 (F := F))

def val_main_v35 (x1 : (⟨S2x1200000, .i32⟩ : BufTy).Contents (Elt F)) : (⟨S1300000, .i32⟩ : BufTy).Contents (Elt F) :=
  select (val_main_v32 (F := F) x1) (val_main_v34 (F := F) x1) (val_main_v3 (F := F) x1)

def val_main_v36 (x1 : (⟨S2x1200000, .i32⟩ : BufTy).Contents (Elt F)) : (⟨S1300000x1, .i32⟩ : BufTy).Contents (Elt F) :=
  broadcastInDim S1300000x1 ![0] bcast_S1300000_S1300000x1_0 (val_main_v35 (F := F) x1)

def val_main_v37 (x0 : (⟨S100000x15, .f32⟩ : BufTy).Contents (Elt F)) (x1 : (⟨S2x1200000, .i32⟩ : BufTy).Contents (Elt F)) (x3 : (⟨S15x64, .f32⟩ : BufTy).Contents (Elt F)) : (⟨S1300000x64, .f32⟩ : BufTy).Contents (Elt F) :=
  Host.gather gather_S100000x64_S1300000x1_S1300000x64_1_0_n_n_0_1_164 (val_main_v30 (F := F) x0 x3) (val_main_v36 (F := F) x1)

def val_main_v38 (x1 : (⟨S2x1200000, .i32⟩ : BufTy).Contents (Elt F)) : (⟨S1300000x1, .f32⟩ : BufTy).Contents (Elt F) :=
  broadcastInDim S1300000x1 ![0] bcast_S1300000_S1300000x1_0 (val_main_v29 (F := F) x1)

def val_main_v39 (x1 : (⟨S2x1200000, .i32⟩ : BufTy).Contents (Elt F)) : (⟨S1300000x64, .f32⟩ : BufTy).Contents (Elt F) :=
  broadcastInDim S1300000x64 ![0, 1] bcast_S1300000x1_S1300000x64_0_1 (val_main_v38 (F := F) x1)

def val_main_v40 (x0 : (⟨S100000x15, .f32⟩ : BufTy).Contents (Elt F)) (x1 : (⟨S2x1200000, .i32⟩ : BufTy).Contents (Elt F)) (x3 : (⟨S15x64, .f32⟩ : BufTy).Contents (Elt F)) : (⟨S1300000x64, .f32⟩ : BufTy).Contents (Elt F) :=
  mulf (val_main_v37 (F := F) x0 x1 x3) (val_main_v39 (F := F) x1)

def val_main_cst_8 : (⟨S_, .f32⟩ : BufTy).Contents (Elt F) :=
  constant S_ .f32 0x00000000#32

def val_main_v41 : (⟨S100000x64, .f32⟩ : BufTy).Contents (Elt F) :=
  broadcastInDim S100000x64 ![] bcast_S_S100000x64 (val_main_cst_8 (F := F))

def val_main_v42 (x1 : (⟨S2x1200000, .i32⟩ : BufTy).Contents (Elt F)) : (⟨S1300000x1, .i32⟩ : BufTy).Contents (Elt F) :=
  broadcastInDim S1300000x1 ![0] bcast_S1300000_S1300000x1_0 (val_main_v6 (F := F) x1)

def val_main_v43 (x0 : (⟨S100000x15, .f32⟩ : BufTy).Contents (Elt F)) (x1 : (⟨S2x1200000, .i32⟩ : BufTy).Contents (Elt F)) (x3 : (⟨S15x64, .f32⟩ : BufTy).Contents (Elt F)) : (⟨S100000x64, .f32⟩ : BufTy).Contents (Elt F) :=
  Host.scatterAdd scatter_S100000x64_S1300000x1_S1300000x64_1_0_0_1 (val_main_v41 (F := F)) (val_main_v42 (F := F) x1) (val_main_v40 (F := F) x0 x1 x3)

def val_main_v44 (x4 : (⟨S64, .f32⟩ : BufTy).Contents (Elt F)) : (⟨S1x64, .f32⟩ : BufTy).Contents (Elt F) :=
  broadcastInDim S1x64 ![1] bcast_S64_S1x64_1 (x4)

def val_main_v45 (x4 : (⟨S64, .f32⟩ : BufTy).Contents (Elt F)) : (⟨S100000x64, .f32⟩ : BufTy).Contents (Elt F) :=
  broadcastInDim S100000x64 ![0, 1] bcast_S1x64_S100000x64_0_1 (val_main_v44 (F := F) x4)

def val_main_v46 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) : (⟨S100000x64, .f32⟩ : BufTy).Contents (Elt F) :=
  addf (val_main_v43 (F := F) x0 x1 x3) (val_main_v45 (F := F) x4)

def val_main_call1_cst : (⟨S_, .f32⟩ : BufTy).Contents (Elt F) :=
  constant S_ .f32 0x00000000#32

def val_main_call1_v0 : (⟨S100000x64, .f32⟩ : BufTy).Contents (Elt F) :=
  broadcastInDim S100000x64 ![] bcast_S_S100000x64 (val_main_call1_cst (F := F))

def val_main_v47 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) : (⟨S100000x64, .f32⟩ : BufTy).Contents (Elt F) :=
  maximumf (val_main_v46 (F := F) x0 x1 x3 x4) (val_main_call1_v0 (F := F))

def val_main_v48 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) : (⟨S100000x64, .f32⟩ : BufTy).Contents (Elt F) :=
  Host.dotGeneral dot_S100000x64_S64x64_S100000x64_1_0_0_1_n_n none (val_main_v47 (F := F) x0 x1 x3 x4) (x5)

theorem lhs_main_v48_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl

theorem lhs_main_v48_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q

theorem rhs_main_v48_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q

theorem rhs_main_v48_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

abbrev lidx_main_v48 (i : S100000x64.Idx) (k : Fin 64) : S100000x64.Idx := fun a => match a with
  | ⟨0, _⟩ => ⟨(i 0).val, (i 0).isLt⟩
  | ⟨1, _⟩ => ⟨k.val, k.isLt⟩

abbrev ridx_main_v48 (i : S100000x64.Idx) (k : Fin 64) : S64x64.Idx := fun a => match a with
  | ⟨0, _⟩ => ⟨k.val, k.isLt⟩
  | ⟨1, _⟩ => ⟨(i 1).val, (i 1).isLt⟩

theorem val_main_v48_apply (x0 : (⟨S100000x15, .f32⟩ : BufTy).Contents (Elt Ideal)) (x1 : (⟨S2x1200000, .i32⟩ : BufTy).Contents (Elt Ideal)) (x3 : (⟨S15x64, .f32⟩ : BufTy).Contents (Elt Ideal)) (x4 : (⟨S64, .f32⟩ : BufTy).Contents (Elt Ideal)) (x5 : (⟨S64x64, .f32⟩ : BufTy).Contents (Elt Ideal)) (i : S100000x64.Idx) :
    val_main_v48 (F := Ideal) x0 x1 x3 x4 x5 i = ∑ k : Fin 64, (val_main_v47 (F := Ideal) x0 x1 x3 x4) (lidx_main_v48 i k) * x5 (ridx_main_v48 i k) := by
  unfold val_main_v48
  generalize val_main_v47 (F := Ideal) x0 x1 x3 x4 = y0
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v48 i k := funext fun a => Fin.ext (by
    match a with
    | ⟨0, _⟩ => exact lhs_main_v48_0 _ _
    | ⟨1, _⟩ => exact (lhs_main_v48_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v48 i k := funext fun a => Fin.ext (by
    match a with
    | ⟨0, _⟩ => exact (rhs_main_v48_0 _ _).trans hk
    | ⟨1, _⟩ => exact rhs_main_v48_1 _ _)
  rw [el, er]

def val_main_c_9 : (⟨S_, .i32⟩ : BufTy).Contents (Elt F) :=
  constantI S_ 32 0#32

def val_main_v49 : (⟨S1300000, .i32⟩ : BufTy).Contents (Elt F) :=
  broadcastInDim S1300000 ![] bcast_S_S1300000 (val_main_c_9 (F := F))

def val_main_v50 (x1 : (⟨S2x1200000, .i32⟩ : BufTy).Contents (Elt F)) : (⟨S1300000, .i1⟩ : BufTy).Contents (Elt F) :=
  cmpi .slt (val_main_v3 (F := F) x1) (val_main_v49 (F := F))

def val_main_c_10 : (⟨S_, .i32⟩ : BufTy).Contents (Elt F) :=
  constantI S_ 32 100000#32

def val_main_v51 : (⟨S1300000, .i32⟩ : BufTy).Contents (Elt F) :=
  broadcastInDim S1300000 ![] bcast_S_S1300000 (val_main_c_10 (F := F))

def val_main_v52 (x1 : (⟨S2x1200000, .i32⟩ : BufTy).Contents (Elt F)) : (⟨S1300000, .i32⟩ : BufTy).Contents (Elt F) :=
  addi (val_main_v3 (F := F) x1) (val_main_v51 (F := F))

def val_main_v53 (x1 : (⟨S2x1200000, .i32⟩ : BufTy).Contents (Elt F)) : (⟨S1300000, .i32⟩ : BufTy).Contents (Elt F) :=
  select (val_main_v50 (F := F) x1) (val_main_v52 (F := F) x1) (val_main_v3 (F := F) x1)

def val_main_v54 (x1 : (⟨S2x1200000, .i32⟩ : BufTy).Contents (Elt F)) : (⟨S1300000x1, .i32⟩ : BufTy).Contents (Elt F) :=
  broadcastInDim S1300000x1 ![0] bcast_S1300000_S1300000x1_0 (val_main_v53 (F := F) x1)

def val_main_v55 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) : (⟨S1300000x64, .f32⟩ : BufTy).Contents (Elt F) :=
  Host.gather gather_S100000x64_S1300000x1_S1300000x64_1_0_n_n_0_1_164 (val_main_v48 (F := F) x0 x1 x3 x4 x5) (val_main_v54 (F := F) x1)

def val_main_v56 (x1 : (⟨S2x1200000, .i32⟩ : BufTy).Contents (Elt F)) : (⟨S1300000x1, .f32⟩ : BufTy).Contents (Elt F) :=
  broadcastInDim S1300000x1 ![0] bcast_S1300000_S1300000x1_0 (val_main_v29 (F := F) x1)

def val_main_v57 (x1 : (⟨S2x1200000, .i32⟩ : BufTy).Contents (Elt F)) : (⟨S1300000x64, .f32⟩ : BufTy).Contents (Elt F) :=
  broadcastInDim S1300000x64 ![0, 1] bcast_S1300000x1_S1300000x64_0_1 (val_main_v56 (F := F) x1)

def val_main_v58 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) : (⟨S1300000x64, .f32⟩ : BufTy).Contents (Elt F) :=
  mulf (val_main_v55 (F := F) x0 x1 x3 x4 x5) (val_main_v57 (F := F) x1)

def val_main_cst_11 : (⟨S_, .f32⟩ : BufTy).Contents (Elt F) :=
  constant S_ .f32 0x00000000#32

def val_main_v59 : (⟨S100000x64, .f32⟩ : BufTy).Contents (Elt F) :=
  broadcastInDim S100000x64 ![] bcast_S_S100000x64 (val_main_cst_11 (F := F))

def val_main_v60 (x1 : (⟨S2x1200000, .i32⟩ : BufTy).Contents (Elt F)) : (⟨S1300000x1, .i32⟩ : BufTy).Contents (Elt F) :=
  broadcastInDim S1300000x1 ![0] bcast_S1300000_S1300000x1_0 (val_main_v6 (F := F) x1)

def val_main_v61 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) : (⟨S100000x64, .f32⟩ : BufTy).Contents (Elt F) :=
  Host.scatterAdd scatter_S100000x64_S1300000x1_S1300000x64_1_0_0_1 (val_main_v59 (F := F)) (val_main_v60 (F := F) x1) (val_main_v58 (F := F) x0 x1 x3 x4 x5)

def val_main_v62 (x6 : (⟨S64, .f32⟩ : BufTy).Contents (Elt F)) : (⟨S1x64, .f32⟩ : BufTy).Contents (Elt F) :=
  broadcastInDim S1x64 ![1] bcast_S64_S1x64_1 (x6)

def val_main_v63 (x6 : (⟨S64, .f32⟩ : BufTy).Contents (Elt F)) : (⟨S100000x64, .f32⟩ : BufTy).Contents (Elt F) :=
  broadcastInDim S100000x64 ![0, 1] bcast_S1x64_S100000x64_0_1 (val_main_v62 (F := F) x6)

def val_main_v64 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) : (⟨S100000x64, .f32⟩ : BufTy).Contents (Elt F) :=
  addf (val_main_v61 (F := F) x0 x1 x3 x4 x5) (val_main_v63 (F := F) x6)

def val_main_call2_cst : (⟨S_, .f32⟩ : BufTy).Contents (Elt F) :=
  constant S_ .f32 0x00000000#32

def val_main_call2_v0 : (⟨S100000x64, .f32⟩ : BufTy).Contents (Elt F) :=
  broadcastInDim S100000x64 ![] bcast_S_S100000x64 (val_main_call2_cst (F := F))

def val_main_v65 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) : (⟨S100000x64, .f32⟩ : BufTy).Contents (Elt F) :=
  maximumf (val_main_v64 (F := F) x0 x1 x3 x4 x5 x6) (val_main_call2_v0 (F := F))

def val_main_v66 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) : (⟨S100000x64, .f32⟩ : BufTy).Contents (Elt F) :=
  Host.dotGeneral dot_S100000x64_S64x64_S100000x64_1_0_0_1_n_n none (val_main_v65 (F := F) x0 x1 x3 x4 x5 x6) (x7)

theorem lhs_main_v66_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl

theorem lhs_main_v66_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q

theorem rhs_main_v66_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q

theorem rhs_main_v66_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

abbrev lidx_main_v66 (i : S100000x64.Idx) (k : Fin 64) : S100000x64.Idx := fun a => match a with
  | ⟨0, _⟩ => ⟨(i 0).val, (i 0).isLt⟩
  | ⟨1, _⟩ => ⟨k.val, k.isLt⟩

abbrev ridx_main_v66 (i : S100000x64.Idx) (k : Fin 64) : S64x64.Idx := fun a => match a with
  | ⟨0, _⟩ => ⟨k.val, k.isLt⟩
  | ⟨1, _⟩ => ⟨(i 1).val, (i 1).isLt⟩

theorem val_main_v66_apply (x0 : (⟨S100000x15, .f32⟩ : BufTy).Contents (Elt Ideal)) (x1 : (⟨S2x1200000, .i32⟩ : BufTy).Contents (Elt Ideal)) (x3 : (⟨S15x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (i : S100000x64.Idx) :
    val_main_v66 (F := Ideal) x0 x1 x3 x4 x5 x6 x7 i = ∑ k : Fin 64, (val_main_v65 (F := Ideal) x0 x1 x3 x4 x5 x6) (lidx_main_v66 i k) * x7 (ridx_main_v66 i k) := by
  unfold val_main_v66
  generalize val_main_v65 (F := Ideal) x0 x1 x3 x4 x5 x6 = y0
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v66 i k := funext fun a => Fin.ext (by
    match a with
    | ⟨0, _⟩ => exact lhs_main_v66_0 _ _
    | ⟨1, _⟩ => exact (lhs_main_v66_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v66 i k := funext fun a => Fin.ext (by
    match a with
    | ⟨0, _⟩ => exact (rhs_main_v66_0 _ _).trans hk
    | ⟨1, _⟩ => exact rhs_main_v66_1 _ _)
  rw [el, er]

def val_main_c_12 : (⟨S_, .i32⟩ : BufTy).Contents (Elt F) :=
  constantI S_ 32 0#32

def val_main_v67 : (⟨S1300000, .i32⟩ : BufTy).Contents (Elt F) :=
  broadcastInDim S1300000 ![] bcast_S_S1300000 (val_main_c_12 (F := F))

def val_main_v68 (x1 : (⟨S2x1200000, .i32⟩ : BufTy).Contents (Elt F)) : (⟨S1300000, .i1⟩ : BufTy).Contents (Elt F) :=
  cmpi .slt (val_main_v3 (F := F) x1) (val_main_v67 (F := F))

def val_main_c_13 : (⟨S_, .i32⟩ : BufTy).Contents (Elt F) :=
  constantI S_ 32 100000#32

def val_main_v69 : (⟨S1300000, .i32⟩ : BufTy).Contents (Elt F) :=
  broadcastInDim S1300000 ![] bcast_S_S1300000 (val_main_c_13 (F := F))

def val_main_v70 (x1 : (⟨S2x1200000, .i32⟩ : BufTy).Contents (Elt F)) : (⟨S1300000, .i32⟩ : BufTy).Contents (Elt F) :=
  addi (val_main_v3 (F := F) x1) (val_main_v69 (F := F))

def val_main_v71 (x1 : (⟨S2x1200000, .i32⟩ : BufTy).Contents (Elt F)) : (⟨S1300000, .i32⟩ : BufTy).Contents (Elt F) :=
  select (val_main_v68 (F := F) x1) (val_main_v70 (F := F) x1) (val_main_v3 (F := F) x1)

def val_main_v72 (x1 : (⟨S2x1200000, .i32⟩ : BufTy).Contents (Elt F)) : (⟨S1300000x1, .i32⟩ : BufTy).Contents (Elt F) :=
  broadcastInDim S1300000x1 ![0] bcast_S1300000_S1300000x1_0 (val_main_v71 (F := F) x1)

def val_main_v73 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) : (⟨S1300000x64, .f32⟩ : BufTy).Contents (Elt F) :=
  Host.gather gather_S100000x64_S1300000x1_S1300000x64_1_0_n_n_0_1_164 (val_main_v66 (F := F) x0 x1 x3 x4 x5 x6 x7) (val_main_v72 (F := F) x1)

def val_main_v74 (x1 : (⟨S2x1200000, .i32⟩ : BufTy).Contents (Elt F)) : (⟨S1300000x1, .f32⟩ : BufTy).Contents (Elt F) :=
  broadcastInDim S1300000x1 ![0] bcast_S1300000_S1300000x1_0 (val_main_v29 (F := F) x1)

def val_main_v75 (x1 : (⟨S2x1200000, .i32⟩ : BufTy).Contents (Elt F)) : (⟨S1300000x64, .f32⟩ : BufTy).Contents (Elt F) :=
  broadcastInDim S1300000x64 ![0, 1] bcast_S1300000x1_S1300000x64_0_1 (val_main_v74 (F := F) x1)

def val_main_v76 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) : (⟨S1300000x64, .f32⟩ : BufTy).Contents (Elt F) :=
  mulf (val_main_v73 (F := F) x0 x1 x3 x4 x5 x6 x7) (val_main_v75 (F := F) x1)

def val_main_cst_14 : (⟨S_, .f32⟩ : BufTy).Contents (Elt F) :=
  constant S_ .f32 0x00000000#32

def val_main_v77 : (⟨S100000x64, .f32⟩ : BufTy).Contents (Elt F) :=
  broadcastInDim S100000x64 ![] bcast_S_S100000x64 (val_main_cst_14 (F := F))

def val_main_v78 (x1 : (⟨S2x1200000, .i32⟩ : BufTy).Contents (Elt F)) : (⟨S1300000x1, .i32⟩ : BufTy).Contents (Elt F) :=
  broadcastInDim S1300000x1 ![0] bcast_S1300000_S1300000x1_0 (val_main_v6 (F := F) x1)

def val_main_v79 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) : (⟨S100000x64, .f32⟩ : BufTy).Contents (Elt F) :=
  Host.scatterAdd scatter_S100000x64_S1300000x1_S1300000x64_1_0_0_1 (val_main_v77 (F := F)) (val_main_v78 (F := F) x1) (val_main_v76 (F := F) x0 x1 x3 x4 x5 x6 x7)

def val_main_v80 (x8 : (⟨S64, .f32⟩ : BufTy).Contents (Elt F)) : (⟨S1x64, .f32⟩ : BufTy).Contents (Elt F) :=
  broadcastInDim S1x64 ![1] bcast_S64_S1x64_1 (x8)

def val_main_v81 (x8 : (⟨S64, .f32⟩ : BufTy).Contents (Elt F)) : (⟨S100000x64, .f32⟩ : BufTy).Contents (Elt F) :=
  broadcastInDim S100000x64 ![0, 1] bcast_S1x64_S100000x64_0_1 (val_main_v80 (F := F) x8)

def val_main_v82 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) : (⟨S100000x64, .f32⟩ : BufTy).Contents (Elt F) :=
  addf (val_main_v79 (F := F) x0 x1 x3 x4 x5 x6 x7) (val_main_v81 (F := F) x8)

def val_main_call3_cst : (⟨S_, .f32⟩ : BufTy).Contents (Elt F) :=
  constant S_ .f32 0x00000000#32

def val_main_call3_v0 : (⟨S100000x64, .f32⟩ : BufTy).Contents (Elt F) :=
  broadcastInDim S100000x64 ![] bcast_S_S100000x64 (val_main_call3_cst (F := F))

def val_main_v83 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) : (⟨S100000x64, .f32⟩ : BufTy).Contents (Elt F) :=
  maximumf (val_main_v82 (F := F) x0 x1 x3 x4 x5 x6 x7 x8) (val_main_call3_v0 (F := F))

def val_main_v84 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) : (⟨S100000x64, .f32⟩ : BufTy).Contents (Elt F) :=
  Host.dotGeneral dot_S100000x64_S64x64_S100000x64_1_0_0_1_n_n none (val_main_v83 (F := F) x0 x1 x3 x4 x5 x6 x7 x8) (x9)

theorem lhs_main_v84_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl

theorem lhs_main_v84_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q

theorem rhs_main_v84_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q

theorem rhs_main_v84_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

abbrev lidx_main_v84 (i : S100000x64.Idx) (k : Fin 64) : S100000x64.Idx := fun a => match a with
  | ⟨0, _⟩ => ⟨(i 0).val, (i 0).isLt⟩
  | ⟨1, _⟩ => ⟨k.val, k.isLt⟩

abbrev ridx_main_v84 (i : S100000x64.Idx) (k : Fin 64) : S64x64.Idx := fun a => match a with
  | ⟨0, _⟩ => ⟨k.val, k.isLt⟩
  | ⟨1, _⟩ => ⟨(i 1).val, (i 1).isLt⟩

theorem val_main_v84_apply (x0 : (⟨S100000x15, .f32⟩ : BufTy).Contents (Elt Ideal)) (x1 : (⟨S2x1200000, .i32⟩ : BufTy).Contents (Elt Ideal)) (x3 : (⟨S15x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (i : S100000x64.Idx) :
    val_main_v84 (F := Ideal) x0 x1 x3 x4 x5 x6 x7 x8 x9 i = ∑ k : Fin 64, (val_main_v83 (F := Ideal) x0 x1 x3 x4 x5 x6 x7 x8) (lidx_main_v84 i k) * x9 (ridx_main_v84 i k) := by
  unfold val_main_v84
  generalize val_main_v83 (F := Ideal) x0 x1 x3 x4 x5 x6 x7 x8 = y0
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v84 i k := funext fun a => Fin.ext (by
    match a with
    | ⟨0, _⟩ => exact lhs_main_v84_0 _ _
    | ⟨1, _⟩ => exact (lhs_main_v84_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v84 i k := funext fun a => Fin.ext (by
    match a with
    | ⟨0, _⟩ => exact (rhs_main_v84_0 _ _).trans hk
    | ⟨1, _⟩ => exact rhs_main_v84_1 _ _)
  rw [el, er]

def val_main_c_15 : (⟨S_, .i32⟩ : BufTy).Contents (Elt F) :=
  constantI S_ 32 0#32

def val_main_v85 : (⟨S1300000, .i32⟩ : BufTy).Contents (Elt F) :=
  broadcastInDim S1300000 ![] bcast_S_S1300000 (val_main_c_15 (F := F))

def val_main_v86 (x1 : (⟨S2x1200000, .i32⟩ : BufTy).Contents (Elt F)) : (⟨S1300000, .i1⟩ : BufTy).Contents (Elt F) :=
  cmpi .slt (val_main_v3 (F := F) x1) (val_main_v85 (F := F))

def val_main_c_16 : (⟨S_, .i32⟩ : BufTy).Contents (Elt F) :=
  constantI S_ 32 100000#32

def val_main_v87 : (⟨S1300000, .i32⟩ : BufTy).Contents (Elt F) :=
  broadcastInDim S1300000 ![] bcast_S_S1300000 (val_main_c_16 (F := F))

def val_main_v88 (x1 : (⟨S2x1200000, .i32⟩ : BufTy).Contents (Elt F)) : (⟨S1300000, .i32⟩ : BufTy).Contents (Elt F) :=
  addi (val_main_v3 (F := F) x1) (val_main_v87 (F := F))

def val_main_v89 (x1 : (⟨S2x1200000, .i32⟩ : BufTy).Contents (Elt F)) : (⟨S1300000, .i32⟩ : BufTy).Contents (Elt F) :=
  select (val_main_v86 (F := F) x1) (val_main_v88 (F := F) x1) (val_main_v3 (F := F) x1)

def val_main_v90 (x1 : (⟨S2x1200000, .i32⟩ : BufTy).Contents (Elt F)) : (⟨S1300000x1, .i32⟩ : BufTy).Contents (Elt F) :=
  broadcastInDim S1300000x1 ![0] bcast_S1300000_S1300000x1_0 (val_main_v89 (F := F) x1)

def val_main_v91 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) : (⟨S1300000x64, .f32⟩ : BufTy).Contents (Elt F) :=
  Host.gather gather_S100000x64_S1300000x1_S1300000x64_1_0_n_n_0_1_164 (val_main_v84 (F := F) x0 x1 x3 x4 x5 x6 x7 x8 x9) (val_main_v90 (F := F) x1)

def val_main_v92 (x1 : (⟨S2x1200000, .i32⟩ : BufTy).Contents (Elt F)) : (⟨S1300000x1, .f32⟩ : BufTy).Contents (Elt F) :=
  broadcastInDim S1300000x1 ![0] bcast_S1300000_S1300000x1_0 (val_main_v29 (F := F) x1)

def val_main_v93 (x1 : (⟨S2x1200000, .i32⟩ : BufTy).Contents (Elt F)) : (⟨S1300000x64, .f32⟩ : BufTy).Contents (Elt F) :=
  broadcastInDim S1300000x64 ![0, 1] bcast_S1300000x1_S1300000x64_0_1 (val_main_v92 (F := F) x1)

def val_main_v94 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) : (⟨S1300000x64, .f32⟩ : BufTy).Contents (Elt F) :=
  mulf (val_main_v91 (F := F) x0 x1 x3 x4 x5 x6 x7 x8 x9) (val_main_v93 (F := F) x1)

def val_main_cst_17 : (⟨S_, .f32⟩ : BufTy).Contents (Elt F) :=
  constant S_ .f32 0x00000000#32

def val_main_v95 : (⟨S100000x64, .f32⟩ : BufTy).Contents (Elt F) :=
  broadcastInDim S100000x64 ![] bcast_S_S100000x64 (val_main_cst_17 (F := F))

def val_main_v96 (x1 : (⟨S2x1200000, .i32⟩ : BufTy).Contents (Elt F)) : (⟨S1300000x1, .i32⟩ : BufTy).Contents (Elt F) :=
  broadcastInDim S1300000x1 ![0] bcast_S1300000_S1300000x1_0 (val_main_v6 (F := F) x1)

def val_main_v97 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) : (⟨S100000x64, .f32⟩ : BufTy).Contents (Elt F) :=
  Host.scatterAdd scatter_S100000x64_S1300000x1_S1300000x64_1_0_0_1 (val_main_v95 (F := F)) (val_main_v96 (F := F) x1) (val_main_v94 (F := F) x0 x1 x3 x4 x5 x6 x7 x8 x9)

def val_main_v98 (x10 : (⟨S64, .f32⟩ : BufTy).Contents (Elt F)) : (⟨S1x64, .f32⟩ : BufTy).Contents (Elt F) :=
  broadcastInDim S1x64 ![1] bcast_S64_S1x64_1 (x10)

def val_main_v99 (x10 : (⟨S64, .f32⟩ : BufTy).Contents (Elt F)) : (⟨S100000x64, .f32⟩ : BufTy).Contents (Elt F) :=
  broadcastInDim S100000x64 ![0, 1] bcast_S1x64_S100000x64_0_1 (val_main_v98 (F := F) x10)

def val_main_v100 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) : (⟨S100000x64, .f32⟩ : BufTy).Contents (Elt F) :=
  addf (val_main_v97 (F := F) x0 x1 x3 x4 x5 x6 x7 x8 x9) (val_main_v99 (F := F) x10)

def val_main_call4_cst : (⟨S_, .f32⟩ : BufTy).Contents (Elt F) :=
  constant S_ .f32 0x00000000#32

def val_main_call4_v0 : (⟨S100000x64, .f32⟩ : BufTy).Contents (Elt F) :=
  broadcastInDim S100000x64 ![] bcast_S_S100000x64 (val_main_call4_cst (F := F))

def val_main_v101 (x0 : (⟨S100000x15, .f32⟩ : BufTy).Contents (Elt F)) (x1 : (⟨S2x1200000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) : (⟨S100000x64, .f32⟩ : BufTy).Contents (Elt F) :=
  maximumf (val_main_v100 (F := F) x0 x1 x3 x4 x5 x6 x7 x8 x9 x10) (val_main_call4_v0 (F := F))

def val_main_cst_18 : (⟨S_, .f32⟩ : BufTy).Contents (Elt F) :=
  constant S_ .f32 0x00000000#32

def val_main_v102 : (⟨S256x64, .f32⟩ : BufTy).Contents (Elt F) :=
  broadcastInDim S256x64 ![] bcast_S_S256x64 (val_main_cst_18 (F := F))

def val_main_v103 (x2 : (⟨S100000, .i32⟩ : BufTy).Contents (Elt F)) : (⟨S100000x1, .i32⟩ : BufTy).Contents (Elt F) :=
  broadcastInDim S100000x1 ![0] bcast_S100000_S100000x1_0 (x2)

abbrev idx_main_v103 (i : S100000x1.Idx) : S100000.Idx := fun a => match a with
  | ⟨0, _⟩ => ⟨(i 0).val, (i 0).isLt⟩

theorem val_main_v103_apply (x2 : (⟨S100000, .i32⟩ : BufTy).Contents (Elt F)) (i : S100000x1.Idx) :
    val_main_v103 (F := F) x2 i = x2 (idx_main_v103 i) := by
  unfold val_main_v103
  exact broadcastInDim_apply _ bcast_S100000_S100000x1_0 x2 i (idx_main_v103 i) (fun a => match a with
    | ⟨0, _⟩ => by show (i 0).val = if (100000 : Nat) = 1 then 0 else (i 0).val; rw [if_neg (by decide)])

def val_main_v104 (x0 : (⟨S100000x15, .f32⟩ : BufTy).Contents (Elt F)) (x1 : (⟨S2x1200000, .i32⟩ : BufTy).Contents (Elt F)) (x2 : (⟨S100000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) : (⟨S256x64, .f32⟩ : BufTy).Contents (Elt F) :=
  Host.scatterAdd scatter_S256x64_S100000x1_S100000x64_1_0_0_1 (val_main_v102 (F := F)) (val_main_v103 (F := F) x2) (val_main_v101 (F := F) x0 x1 x3 x4 x5 x6 x7 x8 x9 x10)

def val_main_cst_19 : (⟨S_, .f32⟩ : BufTy).Contents (Elt F) :=
  constant S_ .f32 0x3F800000#32

def val_main_v105 : (⟨S100000, .f32⟩ : BufTy).Contents (Elt F) :=
  broadcastInDim S100000 ![] bcast_S_S100000 (val_main_cst_19 (F := F))

def val_main_cst_20 : (⟨S_, .f32⟩ : BufTy).Contents (Elt F) :=
  constant S_ .f32 0x00000000#32

def val_main_v106 : (⟨S256, .f32⟩ : BufTy).Contents (Elt F) :=
  broadcastInDim S256 ![] bcast_S_S256 (val_main_cst_20 (F := F))

def val_main_v107 (x2 : (⟨S100000, .i32⟩ : BufTy).Contents (Elt F)) : (⟨S100000x1, .i32⟩ : BufTy).Contents (Elt F) :=
  broadcastInDim S100000x1 ![0] bcast_S100000_S100000x1_0 (x2)

abbrev idx_main_v107 (i : S100000x1.Idx) : S100000.Idx := fun a => match a with
  | ⟨0, _⟩ => ⟨(i 0).val, (i 0).isLt⟩

theorem val_main_v107_apply (x2 : (⟨S100000, .i32⟩ : BufTy).Contents (Elt F)) (i : S100000x1.Idx) :
    val_main_v107 (F := F) x2 i = x2 (idx_main_v107 i) := by
  unfold val_main_v107
  exact broadcastInDim_apply _ bcast_S100000_S100000x1_0 x2 i (idx_main_v107 i) (fun a => match a with
    | ⟨0, _⟩ => by show (i 0).val = if (100000 : Nat) = 1 then 0 else (i 0).val; rw [if_neg (by decide)])

def val_main_v108 (x2 : (⟨S100000, .i32⟩ : BufTy).Contents (Elt F)) : (⟨S256, .f32⟩ : BufTy).Contents (Elt F) :=
  Host.scatterAdd scatter_S256_S100000x1_S100000_n_0_0_1 (val_main_v106 (F := F)) (val_main_v107 (F := F) x2) (val_main_v105 (F := F))

def val_main_cst_21 : (⟨S_, .f32⟩ : BufTy).Contents (Elt F) :=
  constant S_ .f32 0x3F800000#32

def val_main_v109 : (⟨S256, .f32⟩ : BufTy).Contents (Elt F) :=
  broadcastInDim S256 ![] bcast_S_S256 (val_main_cst_21 (F := F))

def val_main_v110 (x2 : (⟨S100000, .i32⟩ : BufTy).Contents (Elt F)) : (⟨S256, .f32⟩ : BufTy).Contents (Elt F) :=
  maximumf (val_main_v108 (F := F) x2) (val_main_v109 (F := F))

theorem val_main_v110_apply (x2 : (⟨S100000, .i32⟩ : BufTy).Contents (Elt F)) (i : S256.Idx) :
    val_main_v110 (F := F) x2 i = FloatOps.maximumf (val_main_v108 (F := F) x2 i) (val_main_v109 (F := F) i) := rfl

def val_main_v111 (x2 : (⟨S100000, .i32⟩ : BufTy).Contents (Elt F)) : (⟨S256x1, .f32⟩ : BufTy).Contents (Elt F) :=
  broadcastInDim S256x1 ![0] bcast_S256_S256x1_0 (val_main_v110 (F := F) x2)

abbrev idx_main_v111 (i : S256x1.Idx) : S256.Idx := fun a => match a with
  | ⟨0, _⟩ => ⟨(i 0).val, (i 0).isLt⟩

theorem val_main_v111_apply (x2 : (⟨S100000, .i32⟩ : BufTy).Contents (Elt F)) (i : S256x1.Idx) :
    val_main_v111 (F := F) x2 i = val_main_v110 (F := F) x2 (idx_main_v111 i) := by
  unfold val_main_v111
  generalize val_main_v110 (F := F) x2 = y
  exact broadcastInDim_apply _ bcast_S256_S256x1_0 y i (idx_main_v111 i) (fun a => match a with
    | ⟨0, _⟩ => by show (i 0).val = if (256 : Nat) = 1 then 0 else (i 0).val; rw [if_neg (by decide)])

def val_main_v112 (x2 : (⟨S100000, .i32⟩ : BufTy).Contents (Elt F)) : (⟨S256x64, .f32⟩ : BufTy).Contents (Elt F) :=
  broadcastInDim S256x64 ![0, 1] bcast_S256x1_S256x64_0_1 (val_main_v111 (F := F) x2)

abbrev idx_main_v112 (i : S256x64.Idx) : S256x1.Idx := fun a => match a with
  | ⟨0, _⟩ => ⟨(i 0).val, (i 0).isLt⟩
  | ⟨1, _⟩ => ⟨0, Nat.one_pos⟩

theorem val_main_v112_apply (x2 : (⟨S100000, .i32⟩ : BufTy).Contents (Elt F)) (i : S256x64.Idx) :
    val_main_v112 (F := F) x2 i = val_main_v111 (F := F) x2 (idx_main_v112 i) := by
  unfold val_main_v112
  generalize val_main_v111 (F := F) x2 = y
  exact broadcastInDim_apply _ bcast_S256x1_S256x64_0_1 y i (idx_main_v112 i) (fun a => match a with
    | ⟨0, _⟩ => by show (i 0).val = if (256 : Nat) = 1 then 0 else (i 0).val; rw [if_neg (by decide)]
    | ⟨1, _⟩ => by show 0 = if (1 : Nat) = 1 then 0 else (i 1).val; rw [if_pos rfl])

def val_main_v113 (x0 : (⟨S100000x15, .f32⟩ : BufTy).Contents (Elt F)) (x1 : (⟨S2x1200000, .i32⟩ : BufTy).Contents (Elt F)) (x2 : (⟨S100000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) : (⟨S256x64, .f32⟩ : BufTy).Contents (Elt F) :=
  Host.divf (val_main_v104 (F := F) x0 x1 x2 x3 x4 x5 x6 x7 x8 x9 x10) (val_main_v112 (F := F) x2)

theorem val_main_v113_apply (x0 : (⟨S100000x15, .f32⟩ : BufTy).Contents (Elt F)) (x1 : (⟨S2x1200000, .i32⟩ : BufTy).Contents (Elt F)) (x2 : (⟨S100000, .i32⟩ : BufTy).Contents (Elt F)) (x3 : (⟨S15x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (i : S256x64.Idx) :
    val_main_v113 (F := F) x0 x1 x2 x3 x4 x5 x6 x7 x8 x9 x10 i = FloatOps.hostDivf (val_main_v104 (F := F) x0 x1 x2 x3 x4 x5 x6 x7 x8 x9 x10 i) (val_main_v112 (F := F) x2 i) := rfl

theorem val_main_v113_eq (m : (ℓ : Loc nD τ sig) → Buf (Elt F) ℓ) (c : Dev nD) :
    Cert.ReferenceIdeal.RunP.res_main_v113 m c = val_main_v113 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.RunP.res_main_v113; rfl

end Cert.ReferenceIdeal.ReadP

end
-- ==== Proof.RefValue.lean ====
import proofs.«424017_j2946347566021_2_alg».proof.Proof.RefReadP
import proofs.«424017_j2946347566021_2_alg».proof.Proof.Final
import proofs.«424017_j2946347566021_2_alg».proof.Proof.Glue
import proofs.«424017_j2946347566021_2_alg».proof.Proof.Edges
import proofs.«424017_j2946347566021_2_alg».proof.Proof.Pool
import proofs.«424017_j2946347566021_2_alg».proof.Proof.Bridge

set_option maxRecDepth 16384

noncomputable section
namespace Cert.RefValue
open Cert.ReferenceIdeal Cert.ReferenceIdeal.Gen Cert.ReferenceIdeal.ReadP
open Idealize.ShloMosaic Idealize.ShloMosaic.TcCoe Idealize.SL.Sem Idealize.ShloMosaic.StableHlo
open Idealize.ShloMosaic.ValueIdx
open Cert.Spec Cert.Edges Cert.Final
open scoped BigOperators

abbrev EI : Type := IVec ⟨2, ![2, 1200000]⟩ 32

abbrev VE : Type := (⟨1, ![1300000]⟩ : Shape).Idx → EReal
abbrev V64 : Type := (⟨1, ![64]⟩ : Shape).Idx → EReal

section EdgeTerms
variable (x1 : EI)

theorem norm_apply (e : Fin 1300000) :
    val_main_v29 (F := Ideal) x1 (ix1 e) = dinvV x1 (ix1 (rS x1 e)) * dinvV x1 (ix1 (rD x1 e)) := by
  have h21 : val_main_v21 (F := Ideal) x1 (ix1 e) = dinvV x1 (ix1 (rS x1 e)) :=
    Cert.Glue.gather_vec_apply gather_S100000_S1300000x1_S1300000_n_0_n_n_0_1_1 rfl rfl rfl rfl rfl
      (dinvV x1) (colI (normV (srcV x1))) e
  have h28 : val_main_v28 (F := Ideal) x1 (ix1 e) = dinvV x1 (ix1 (rD x1 e)) :=
    Cert.Glue.gather_vec_apply gather_S100000_S1300000x1_S1300000_n_0_n_n_0_1_1 rfl rfl rfl rfl rfl
      (dinvV x1) (colI (normV (dstV x1))) e
  rw [val_main_v29_apply, h21, h28]
  rfl

end EdgeTerms

abbrev zeros2 : Arr2 100000 64 :=
  broadcastInDim S100000x64 ![] bcast_S_S100000x64 (constant (F := Ideal) S_ .f32 0x00000000#32)

def layerOps (x1 : EI) (h : Arr2 100000 64) (nrm : VE) (b : V64) : Arr2 100000 64 :=
  maximumf (F := Ideal) (φ := .f32)
    (addf (F := Ideal) (φ := .f32)
      (Host.scatterAdd (F := Ideal) (φ := .f32) scatter_S100000x64_S1300000x1_S1300000x64_1_0_0_1 zeros2 (colI (dstV x1))
        (mulf (F := Ideal) (φ := .f32)
          (Host.gather gather_S100000x64_S1300000x1_S1300000x64_1_0_n_n_0_1_164 h (colI (normV (srcV x1))))
          (broadcastInDim S1300000x64 ![0, 1] bcast_S1300000x1_S1300000x64_0_1
            (broadcastInDim S1300000x1 ![0] bcast_S1300000_S1300000x1_0 nrm))))
      (broadcastInDim S100000x64 ![0, 1] bcast_S1x64_S100000x64_0_1 (broadcastInDim S1x64 ![1] bcast_S64_S1x64_1 b)))
    zeros2

theorem zeros2_apply (i : S100000x64.Idx) : zeros2 i = 0 := Cert.Edges.ofBits_zero

theorem biasRows_apply (b : V64) (n : Fin 100000) (f : Fin 64) :
    broadcastInDim S100000x64 ![0, 1] bcast_S1x64_S100000x64_0_1 (broadcastInDim S1x64 ![1] bcast_S64_S1x64_1 b) (ix2 n f)
      = b (ix1 f) := by
  rw [broadcastInDim_apply _ bcast_S1x64_S100000x64_0_1 _ (ix2 n f) (ix2 0 f) (fun a => match a with
    | ⟨0, _⟩ => by show 0 = if (1 : Nat) = 1 then 0 else n.val; rw [if_pos rfl]
    | ⟨1, _⟩ => by show f.val = if (64 : Nat) = 1 then 0 else f.val; rw [if_neg (by decide)])]
  exact broadcastInDim_apply _ bcast_S64_S1x64_1 b (ix2 0 f) (ix1 f) (fun a => match a with
    | ⟨0, _⟩ => by show f.val = if (64 : Nat) = 1 then 0 else f.val; rw [if_neg (by decide)])

theorem nrmCols_apply (nrm : VE) (e : Fin 1300000) (f : Fin 64) :
    broadcastInDim S1300000x64 ![0, 1] bcast_S1300000x1_S1300000x64_0_1
        (broadcastInDim S1300000x1 ![0] bcast_S1300000_S1300000x1_0 nrm) (ix2 e f)
      = nrm (ix1 e) := by
  rw [broadcastInDim_apply _ bcast_S1300000x1_S1300000x64_0_1 _ (ix2 e f) (ix2 e 0) (fun a => match a with
    | ⟨0, _⟩ => by show e.val = if (1300000 : Nat) = 1 then 0 else e.val; rw [if_neg (by decide)]
    | ⟨1, _⟩ => by show 0 = if (1 : Nat) = 1 then 0 else f.val; rw [if_pos rfl])]
  exact broadcastInDim_apply _ bcast_S1300000_S1300000x1_0 nrm (ix2 e 0) (ix1 e) (fun a => match a with
    | ⟨0, _⟩ => by show e.val = if (1300000 : Nat) = 1 then 0 else e.val; rw [if_neg (by decide)])

theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

theorem layer_update_apply (x1 : EI) (h : Arr2 100000 64) (nrm : VE) (e : Fin 1300000) (f : Fin 64) :
    mulf (F := Ideal) (φ := .f32)
        (Host.gather gather_S100000x64_S1300000x1_S1300000x64_1_0_n_n_0_1_164 h (colI (normV (srcV x1))))
        (broadcastInDim S1300000x64 ![0, 1] bcast_S1300000x1_S1300000x64_0_1
          (broadcastInDim S1300000x1 ![0] bcast_S1300000_S1300000x1_0 nrm)) (ix2 e f)
      = h (ix2 (rS x1 e) f) * nrm (ix1 e) := by
  rw [mulf_apply, Cert.Glue.gather_rows_apply gather_S100000x64_S1300000x1_S1300000x64_1_0_n_n_0_1_164 rfl rfl rfl rfl rfl,
    nrmCols_apply]
  rfl

theorem layerOps_apply (x1 : EI) (h : Arr2 100000 64) (nrm : VE) (b : V64) (n : Fin 100000) (f : Fin 64) :
    layerOps x1 h nrm b (ix2 n f)
      = max ((0 + ∑ e : Fin 1300000, if T x1 e n then h (ix2 (rS x1 e) f) * nrm (ix1 e) else 0) + b (ix1 f)) 0 := by
  unfold layerOps
  rw [maximumf_apply, addf_apply, zeros2_apply, biasRows_apply, scatterAdd_ideal,
    Cert.Glue.scatterAdd_rows_apply scatter_S100000x64_S1300000x1_S1300000x64_1_0_0_1 rfl rfl rfl rfl, zeros2_apply]
  refine congrArg (fun z : EReal => max ((0 + z) + b (ix1 f)) 0) ?_
  refine Finset.sum_congr rfl fun e _ => ?_
  refine if_congr Iff.rfl ?_ rfl
  exact layer_update_apply x1 h nrm e f

theorem layerR_apply {K : Nat} (x1 : EI) (a : Arr2 100000 K) (W : Arr2 K 64) (b : V64) (n : Fin 100000) (f : Fin 64) :
    layerR x1 a W b (ix2 n f)
      = max ((0 + ∑ e : Fin 1300000,
                if T x1 e n then (∑ k : Fin K, a (ix2 (rS x1 e) k) * W (ix2 k f))
                  * (dinvCol x1 (ix2 (rS x1 e) 0) * dinvCol x1 (ix2 (rD x1 e) 0)) else 0)
              + b (ix1 f)) 0 := rfl

theorem layerOps_eq_layerR {K : Nat} (x1 : EI) (a : Arr2 100000 K) (W : Arr2 K 64) (b : V64) (h : Arr2 100000 64)
    (hh : ∀ n f, h (ix2 n f) = ∑ k : Fin K, a (ix2 n k) * W (ix2 k f)) :
    layerOps x1 h (val_main_v29 (F := Ideal) x1) b = layerR x1 a W b := by
  funext i
  obtain ⟨n, f, rfl⟩ : ∃ (n : Fin 100000) (f : Fin 64), i = ix2 n f := ⟨i 0, i 1, eq_ix2 i⟩
  rw [layerOps_apply, layerR_apply]
  refine congrArg (fun z : EReal => max ((0 + z) + b (ix1 f)) 0) ?_
  refine Finset.sum_congr rfl fun e _ => ?_
  rw [hh, norm_apply, dinvCol_apply, dinvCol_apply]

section Layers
variable (x0 : Arr2 100000 15) (x1 : EI) (x3 : Arr2 15 64) (x4 : V64) (x5 : Arr2 64 64) (x6 : V64)
  (x7 : Arr2 64 64) (x8 : V64) (x9 : Arr2 64 64) (x10 : V64)

theorem v30_at (n : Fin 100000) (f : Fin 64) :
    val_main_v30 (F := Ideal) x0 x3 (ix2 n f) = ∑ k : Fin 15, x0 (ix2 n k) * x3 (ix2 k f) := by
  rw [val_main_v30_apply]
  refine Finset.sum_congr rfl fun k _ => ?_
  have hl : lidx_main_v30 (ix2 n f) k = ix2 n k := by
    funext a; match a with | ⟨0, _⟩ => rfl | ⟨1, _⟩ => rfl
  have hr : ridx_main_v30 (ix2 n f) k = ix2 k f := by
    funext a; match a with | ⟨0, _⟩ => rfl | ⟨1, _⟩ => rfl
  rw [hl, hr]

theorem v47_ops : val_main_v47 (F := Ideal) x0 x1 x3 x4
    = layerOps x1 (val_main_v30 (F := Ideal) x0 x3) (val_main_v29 (F := Ideal) x1) x4 := rfl

theorem layer1 : val_main_v47 (F := Ideal) x0 x1 x3 x4 = layerR x1 x0 x3 x4 :=
  (v47_ops x0 x1 x3 x4).trans (layerOps_eq_layerR x1 x0 x3 x4 _ (v30_at x0 x3))

theorem v48_at (n : Fin 100000) (f : Fin 64) :
    val_main_v48 (F := Ideal) x0 x1 x3 x4 x5 (ix2 n f) = ∑ k : Fin 64, layerR x1 x0 x3 x4 (ix2 n k) * x5 (ix2 k f) := by
  rw [val_main_v48_apply, layer1]
  refine Finset.sum_congr rfl fun k _ => ?_
  have hl : lidx_main_v48 (ix2 n f) k = ix2 n k := by
    funext a; match a with | ⟨0, _⟩ => rfl | ⟨1, _⟩ => rfl
  have hr : ridx_main_v48 (ix2 n f) k = ix2 k f := by
    funext a; match a with | ⟨0, _⟩ => rfl | ⟨1, _⟩ => rfl
  rw [hl, hr]

theorem v65_ops : val_main_v65 (F := Ideal) x0 x1 x3 x4 x5 x6
    = layerOps x1 (val_main_v48 (F := Ideal) x0 x1 x3 x4 x5) (val_main_v29 (F := Ideal) x1) x6 := rfl

theorem layer2 : val_main_v65 (F := Ideal) x0 x1 x3 x4 x5 x6 = layerR x1 (layerR x1 x0 x3 x4) x5 x6 :=
  (v65_ops x0 x1 x3 x4 x5 x6).trans (layerOps_eq_layerR x1 _ x5 x6 _ (v48_at x0 x1 x3 x4 x5))

theorem v66_at (n : Fin 100000) (f : Fin 64) :
    val_main_v66 (F := Ideal) x0 x1 x3 x4 x5 x6 x7 (ix2 n f)
      = ∑ k : Fin 64, layerR x1 (layerR x1 x0 x3 x4) x5 x6 (ix2 n k) * x7 (ix2 k f) := by
  rw [val_main_v66_apply, layer2]
  refine Finset.sum_congr rfl fun k _ => ?_
  have hl : lidx_main_v66 (ix2 n f) k = ix2 n k := by
    funext a; match a with | ⟨0, _⟩ => rfl | ⟨1, _⟩ => rfl
  have hr : ridx_main_v66 (ix2 n f) k = ix2 k f := by
    funext a; match a with | ⟨0, _⟩ => rfl | ⟨1, _⟩ => rfl
  rw [hl, hr]

theorem v83_ops : val_main_v83 (F := Ideal) x0 x1 x3 x4 x5 x6 x7 x8
    = layerOps x1 (val_main_v66 (F := Ideal) x0 x1 x3 x4 x5 x6 x7) (val_main_v29 (F := Ideal) x1) x8 := rfl

theorem layer3 : val_main_v83 (F := Ideal) x0 x1 x3 x4 x5 x6 x7 x8
    = layerR x1 (layerR x1 (layerR x1 x0 x3 x4) x5 x6) x7 x8 :=
  (v83_ops x0 x1 x3 x4 x5 x6 x7 x8).trans (layerOps_eq_layerR x1 _ x7 x8 _ (v66_at x0 x1 x3 x4 x5 x6 x7))

theorem v84_at (n : Fin 100000) (f : Fin 64) :
    val_main_v84 (F := Ideal) x0 x1 x3 x4 x5 x6 x7 x8 x9 (ix2 n f)
      = ∑ k : Fin 64, layerR x1 (layerR x1 (layerR x1 x0 x3 x4) x5 x6) x7 x8 (ix2 n k) * x9 (ix2 k f) := by
  rw [val_main_v84_apply, layer3]
  refine Finset.sum_congr rfl fun k _ => ?_
  have hl : lidx_main_v84 (ix2 n f) k = ix2 n k := by
    funext a; match a with | ⟨0, _⟩ => rfl | ⟨1, _⟩ => rfl
  have hr : ridx_main_v84 (ix2 n f) k = ix2 k f := by
    funext a; match a with | ⟨0, _⟩ => rfl | ⟨1, _⟩ => rfl
  rw [hl, hr]

theorem v101_ops : val_main_v101 (F := Ideal) x0 x1 x3 x4 x5 x6 x7 x8 x9 x10
    = layerOps x1 (val_main_v84 (F := Ideal) x0 x1 x3 x4 x5 x6 x7 x8 x9) (val_main_v29 (F := Ideal) x1) x10 := rfl

theorem layer4 : val_main_v101 (F := Ideal) x0 x1 x3 x4 x5 x6 x7 x8 x9 x10
    = lastActR x1 x0 x3 x5 x7 x9 x4 x6 x8 x10 :=
  (v101_ops x0 x1 x3 x4 x5 x6 x7 x8 x9 x10).trans
    (layerOps_eq_layerR x1 _ x9 x10 _ (v84_at x0 x1 x3 x4 x5 x6 x7 x8 x9))

end Layers

section Pooling
variable (x0 : Arr2 100000 15) (x1 : EI) (x2 : (⟨1, ![100000]⟩ : Shape).Idx → BitVec 32) (x3 : Arr2 15 64) (x4 : V64)
  (x5 : Arr2 64 64) (x6 : V64) (x7 : Arr2 64 64) (x8 : V64) (x9 : Arr2 64 64) (x10 : V64)

theorem v102_zero (i : S256x64.Idx) : val_main_v102 (F := Ideal) i = 0 := Cert.Edges.ofBits_zero
theorem v106_zero (i : S256.Idx) : val_main_v106 (F := Ideal) i = 0 := Cert.Edges.ofBits_zero
theorem v105_one (i : S100000.Idx) : val_main_v105 (F := Ideal) i = 1 := Cert.Edges.ofBits_one
theorem v109_one (i : S256.Idx) : val_main_v109 (F := Ideal) i = 1 := Cert.Edges.ofBits_one

theorem v103_eq : val_main_v103 (F := Ideal) x2 = batchCol x2 := by
  funext i
  rw [val_main_v103_apply]
  have hi : idx_main_v103 i = ix1 (i 0) := by
    funext a; match a with | ⟨0, _⟩ => rfl
  rw [hi]; rfl
theorem v107_eq : val_main_v107 (F := Ideal) x2 = batchCol x2 := by
  funext i
  rw [val_main_v107_apply]
  have hi : idx_main_v107 i = ix1 (i 0) := by
    funext a; match a with | ⟨0, _⟩ => rfl
  rw [hi]; rfl

theorem v104_at (g : Fin 256) (f : Fin 64) :
    val_main_v104 (F := Ideal) x0 x1 x2 x3 x4 x5 x6 x7 x8 x9 x10 (ix2 g f)
      = poolSums (lastActR x1 x0 x3 x5 x7 x9 x4 x6 x8 x10) (batchCol x2) (ix2 g f) := by
  unfold val_main_v104
  rw [scatterAdd_ideal, Cert.Glue.scatterAdd_rows_apply scatter_S256x64_S100000x1_S100000x64_1_0_0_1 rfl rfl rfl rfl,
    v102_zero, v103_eq, layer4, Cert.Pool.poolSums_apply]

theorem v108_at (g : Fin 256) :
    val_main_v108 (F := Ideal) x2 (ix1 g) = poolCnt (batchCol x2) (ix2 0 g) := by
  unfold val_main_v108
  rw [scatterAdd_ideal, Cert.Glue.scatterAdd_vec_apply scatter_S256_S100000x1_S100000_n_0_0_1 rfl rfl rfl rfl,
    v106_zero, v107_eq, Cert.Pool.poolCnt_apply]
  simp only [v105_one]

theorem v112_at (g : Fin 256) (f : Fin 64) :
    val_main_v112 (F := Ideal) x2 (ix2 g f) = max (poolCnt (batchCol x2) (ix2 0 g)) 1 := by
  have h1 : idx_main_v112 (ix2 g f) = ix2 g 0 := by
    funext a; match a with | ⟨0, _⟩ => rfl | ⟨1, _⟩ => rfl
  have h2 : idx_main_v111 (ix2 g (0 : Fin 1)) = ix1 g := by
    funext a; match a with | ⟨0, _⟩ => rfl
  rw [val_main_v112_apply, h1, val_main_v111_apply, h2, val_main_v110_apply, v108_at, v109_one]
  rfl

theorem pooled_apply (a : Arr2 100000 64) (batch : (⟨1, ![100000]⟩ : Shape).Idx → BitVec 32) (g : Fin 256) (f : Fin 64) :
    pooled a batch (ix2 g f)
      = Ideal.div (poolSums a (batchCol batch) (ix2 g f)) (max (poolCnt (batchCol batch) (ix2 0 g)) 1) := rfl

theorem v113_eq_pooled :
    val_main_v113 (F := Ideal) x0 x1 x2 x3 x4 x5 x6 x7 x8 x9 x10
      = pooled (lastActR x1 x0 x3 x5 x7 x9 x4 x6 x8 x10) x2 := by
  funext i
  obtain ⟨g, f, rfl⟩ : ∃ (g : Fin 256) (f : Fin 64), i = ix2 g f := ⟨i 0, i 1, eq_ix2 i⟩
  rw [val_main_v113_apply, Ideal.hostDivf_def, v104_at, v112_at, pooled_apply]

end Pooling

theorem ref_value (m' : (ℓ : Loc nD τ sig) → Buf (Elt Ideal) ℓ) (c : Dev nD) :
    Cert.ReferenceIdeal.RunP.res_main_v113 m' c
      = pooled
          (lastActR (m' ((c.tc : Thread nD τ).loc main_arg1)) (m' ((c.tc : Thread nD τ).loc main_arg0))
            (m' ((c.tc : Thread nD τ).loc main_arg3)) (m' ((c.tc : Thread nD τ).loc main_arg5))
            (m' ((c.tc : Thread nD τ).loc main_arg7)) (m' ((c.tc : Thread nD τ).loc main_arg9))
            (m' ((c.tc : Thread nD τ).loc main_arg4)) (m' ((c.tc : Thread nD τ).loc main_arg6))
            (m' ((c.tc : Thread nD τ).loc main_arg8)) (m' ((c.tc : Thread nD τ).loc main_arg10)))
          (m' ((c.tc : Thread nD τ).loc main_arg2)) :=
  (val_main_v113_eq m' c).trans (v113_eq_pooled _ _ _ _ _ _ _ _ _ _ _)

end Cert.RefValue
end
-- ==== Proof.Finite.lean ====
import proofs.«424017_j2946347566021_2_alg».proof.Pre_finite_inputs
import proofs.«424017_j2946347566021_2_alg».proof.Defs
import Idealize.ShloMosaic.Lib.ReduceAll
import Idealize.ShloMosaic.PureOps.Ideal

set_option maxRecDepth 16384

noncomputable section
namespace Cert.Finite
open Idealize.ShloMosaic

instance : Subsingleton Cert.Pre_finite_inputs.S_.Idx := ⟨fun a b => funext fun d => d.elim0⟩

theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1) :
    ∀ i, ∃ r : ℝ, x i = (r : EReal) := by
  intro i
  have h := Host.reduce_andi_all _ _ hr hu j e i
  refine real_of_abs_lt_top (x i) ?_
  have h' : Ideal.cmp .olt (max (x i) (-(x i))) (Ideal.ofBits .f32 0x7F800000#32) = 1#1 := h
  have ht : Ideal.ofBits .f32 0x7F800000#32 = (⊤ : EReal) := by simp [Ideal.ofBits, Ideal.ieee]
  rw [ht] at h'
  by_contra hn
  simp [Ideal.cmp, hn] at h'

variable [hPre : Cert.Pre_finite_inputs.Facts]

theorem real_args {m : (ℓ : Loc Cert.KernelIdeal.nD Cert.KernelIdeal.τ Cert.KernelIdeal.sig) → Buf (Elt Ideal) ℓ}
    (hpre : Cert.Pre_KernelIdeal m) (c : Dev Cert.KernelIdeal.nD) :
    (∀ i : Cert.KernelIdeal.S100000x15.Idx, ∃ r : ℝ, (m ((c.tc : Thread Cert.KernelIdeal.nD Cert.KernelIdeal.τ).loc Cert.KernelIdeal.main_arg0) : Cert.KernelIdeal.S100000x15.Idx → EReal) i = (r : EReal))
    ∧ (∀ i : Cert.KernelIdeal.S15x64.Idx, ∃ r : ℝ, (m ((c.tc : Thread Cert.KernelIdeal.nD Cert.KernelIdeal.τ).loc Cert.KernelIdeal.main_arg3) : Cert.KernelIdeal.S15x64.Idx → EReal) i = (r : EReal))
    ∧ (∀ i : Cert.KernelIdeal.S64.Idx, ∃ r : ℝ, (m ((c.tc : Thread Cert.KernelIdeal.nD Cert.KernelIdeal.τ).loc Cert.KernelIdeal.main_arg4) : Cert.KernelIdeal.S64.Idx → EReal) i = (r : EReal))
    ∧ (∀ i : Cert.KernelIdeal.S64x64.Idx, ∃ r : ℝ, (m ((c.tc : Thread Cert.KernelIdeal.nD Cert.KernelIdeal.τ).loc Cert.KernelIdeal.main_arg5) : Cert.KernelIdeal.S64x64.Idx → EReal) i = (r : EReal))
    ∧ (∀ i : Cert.KernelIdeal.S64.Idx, ∃ r : ℝ, (m ((c.tc : Thread Cert.KernelIdeal.nD Cert.KernelIdeal.τ).loc Cert.KernelIdeal.main_arg6) : Cert.KernelIdeal.S64.Idx → EReal) i = (r : EReal))
    ∧ (∀ i : Cert.KernelIdeal.S64x64.Idx, ∃ r : ℝ, (m ((c.tc : Thread Cert.KernelIdeal.nD Cert.KernelIdeal.τ).loc Cert.KernelIdeal.main_arg7) : Cert.KernelIdeal.S64x64.Idx → EReal) i = (r : EReal))
    ∧ (∀ i : Cert.KernelIdeal.S64.Idx, ∃ r : ℝ, (m ((c.tc : Thread Cert.KernelIdeal.nD Cert.KernelIdeal.τ).loc Cert.KernelIdeal.main_arg8) : Cert.KernelIdeal.S64.Idx → EReal) i = (r : EReal))
    ∧ (∀ i : Cert.KernelIdeal.S64x64.Idx, ∃ r : ℝ, (m ((c.tc : Thread Cert.KernelIdeal.nD Cert.KernelIdeal.τ).loc Cert.KernelIdeal.main_arg9) : Cert.KernelIdeal.S64x64.Idx → EReal) i = (r : EReal))
    ∧ (∀ i : Cert.KernelIdeal.S64.Idx, ∃ r : ℝ, (m ((c.tc : Thread Cert.KernelIdeal.nD Cert.KernelIdeal.τ).loc Cert.KernelIdeal.main_arg10) : Cert.KernelIdeal.S64.Idx → EReal) i = (r : EReal)) := by
  have h := congrFun (hpre c) (fun a => a.elim0)
  dsimp only [Cert.Pre_finite_inputs.fn, Cert.Pre_finite_inputs.fn_part1, Cert.Pre_finite_inputs.fn_part2, andi] at h
  simp only [IntOp.andi_eq_one, and_assoc] at h
  obtain ⟨h0, h3, h4, h5, h6, h7, h8, h9, h10⟩ := h
  exact ⟨real_of_all _ _ _ _ _ h0, real_of_all _ _ _ _ _ h3, real_of_all _ _ _ _ _ h4, real_of_all _ _ _ _ _ h5,
    real_of_all _ _ _ _ _ h6, real_of_all _ _ _ _ _ h7, real_of_all _ _ _ _ _ h8, real_of_all _ _ _ _ _ h9,
    real_of_all _ _ _ _ _ h10⟩

section
variable {m : (ℓ : Loc Cert.KernelIdeal.nD Cert.KernelIdeal.τ Cert.KernelIdeal.sig) → Buf (Elt Ideal) ℓ}
  {c : Dev Cert.KernelIdeal.nD}

theorem real_arg0 (hpre : Cert.Pre_KernelIdeal m) :
    ∀ i : Cert.KernelIdeal.S100000x15.Idx, ∃ r : ℝ, (m ((c.tc : Thread Cert.KernelIdeal.nD Cert.KernelIdeal.τ).loc Cert.KernelIdeal.main_arg0) : Cert.KernelIdeal.S100000x15.Idx → EReal) i = (r : EReal) :=
  (real_args hpre c).1

theorem real_arg3 (hpre : Cert.Pre_KernelIdeal m) :
    ∀ i : Cert.KernelIdeal.S15x64.Idx, ∃ r : ℝ, (m ((c.tc : Thread Cert.KernelIdeal.nD Cert.KernelIdeal.τ).loc Cert.KernelIdeal.main_arg3) : Cert.KernelIdeal.S15x64.Idx → EReal) i = (r : EReal) :=
  (real_args hpre c).2.1

theorem real_arg4 (hpre : Cert.Pre_KernelIdeal m) :
    ∀ i : Cert.KernelIdeal.S64.Idx, ∃ r : ℝ, (m ((c.tc : Thread Cert.KernelIdeal.nD Cert.KernelIdeal.τ).loc Cert.KernelIdeal.main_arg4) : Cert.KernelIdeal.S64.Idx → EReal) i = (r : EReal) :=
  (real_args hpre c).2.2.1

theorem real_arg5 (hpre : Cert.Pre_KernelIdeal m) :
    ∀ i : Cert.KernelIdeal.S64x64.Idx, ∃ r : ℝ, (m ((c.tc : Thread Cert.KernelIdeal.nD Cert.KernelIdeal.τ).loc Cert.KernelIdeal.main_arg5) : Cert.KernelIdeal.S64x64.Idx → EReal) i = (r : EReal) :=
  (real_args hpre c).2.2.2.1

theorem real_arg6 (hpre : Cert.Pre_KernelIdeal m) :
    ∀ i : Cert.KernelIdeal.S64.Idx, ∃ r : ℝ, (m ((c.tc : Thread Cert.KernelIdeal.nD Cert.KernelIdeal.τ).loc Cert.KernelIdeal.main_arg6) : Cert.KernelIdeal.S64.Idx → EReal) i = (r : EReal) :=
  (real_args hpre c).2.2.2.2.1

theorem real_arg7 (hpre : Cert.Pre_KernelIdeal m) :
    ∀ i : Cert.KernelIdeal.S64x64.Idx, ∃ r : ℝ, (m ((c.tc : Thread Cert.KernelIdeal.nD Cert.KernelIdeal.τ).loc Cert.KernelIdeal.main_arg7) : Cert.KernelIdeal.S64x64.Idx → EReal) i = (r : EReal) :=
  (real_args hpre c).2.2.2.2.2.1

theorem real_arg8 (hpre : Cert.Pre_KernelIdeal m) :
    ∀ i : Cert.KernelIdeal.S64.Idx, ∃ r : ℝ, (m ((c.tc : Thread Cert.KernelIdeal.nD Cert.KernelIdeal.τ).loc Cert.KernelIdeal.main_arg8) : Cert.KernelIdeal.S64.Idx → EReal) i = (r : EReal) :=
  (real_args hpre c).2.2.2.2.2.2.1

theorem real_arg9 (hpre : Cert.Pre_KernelIdeal m) :
    ∀ i : Cert.KernelIdeal.S64x64.Idx, ∃ r : ℝ, (m ((c.tc : Thread Cert.KernelIdeal.nD Cert.KernelIdeal.τ).loc Cert.KernelIdeal.main_arg9) : Cert.KernelIdeal.S64x64.Idx → EReal) i = (r : EReal) :=
  (real_args hpre c).2.2.2.2.2.2.2.1

end

end Cert.Finite
end
-- ==== Proof.lean ====
import proofs.«424017_j2946347566021_2_alg».proof.Defs
import proofs.«424017_j2946347566021_2_alg».proof.Proof.Gen.Kernel
import proofs.«424017_j2946347566021_2_alg».proof.Proof.Gen.KernelIdeal
import proofs.«424017_j2946347566021_2_alg».proof.Proof.Gen.ReferenceIdeal
import proofs.«424017_j2946347566021_2_alg».proof.Proof.Gen.Pre_finite_inputs
import proofs.«424017_j2946347566021_2_alg».proof.Proof.K.Frame
import proofs.«424017_j2946347566021_2_alg».proof.Proof.KI.Frame
import proofs.«424017_j2946347566021_2_alg».proof.Proof.KI.Value
import proofs.«424017_j2946347566021_2_alg».proof.Proof.RefRunP
import proofs.«424017_j2946347566021_2_alg».proof.Proof.RefValue
import proofs.«424017_j2946347566021_2_alg».proof.Proof.Finite
import proofs.«424017_j2946347566021_2_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame_all m ρ

theorem frame_ki : Cert.frame_KernelIdeal := fun m ρ _ => Cert.KernelIdeal.Hand.frame_all m ρ

theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Hand.W13 m c (Proc.devRef .tc Cert.KernelIdeal.main_v74), ?_, ?_⟩
  · exact (θ_run Cert.KernelIdeal.defs _ _).mono (fun _ h c =>
      ⟨h c _ (Cert.KernelIdeal.Hand.mem_ucH Cert.KernelIdeal.main_v74 (by decide)),
        (h c _ (Cert.KernelIdeal.Hand.mem_ucH Cert.KernelIdeal.main_arg0 (by decide))).trans (Cert.KernelIdeal.Hand.W13_untouched m c Cert.KernelIdeal.main_arg0 (by decide)),
        (h c _ (Cert.KernelIdeal.Hand.mem_ucH Cert.KernelIdeal.main_arg1 (by decide))).trans (Cert.KernelIdeal.Hand.W13_untouched m c Cert.KernelIdeal.main_arg1 (by decide)),
        (h c _ (Cert.KernelIdeal.Hand.mem_ucH Cert.KernelIdeal.main_arg2 (by decide))).trans (Cert.KernelIdeal.Hand.W13_untouched m c Cert.KernelIdeal.main_arg2 (by decide)),
        (h c _ (Cert.KernelIdeal.Hand.mem_ucH Cert.KernelIdeal.main_arg3 (by decide))).trans (Cert.KernelIdeal.Hand.W13_untouched m c Cert.KernelIdeal.main_arg3 (by decide)),
        (h c _ (Cert.KernelIdeal.Hand.mem_ucH Cert.KernelIdeal.main_arg4 (by decide))).trans (Cert.KernelIdeal.Hand.W13_untouched m c Cert.KernelIdeal.main_arg4 (by decide)),
        (h c _ (Cert.KernelIdeal.Hand.mem_ucH Cert.KernelIdeal.main_arg5 (by decide))).trans (Cert.KernelIdeal.Hand.W13_untouched m c Cert.KernelIdeal.main_arg5 (by decide)),
        (h c _ (Cert.KernelIdeal.Hand.mem_ucH Cert.KernelIdeal.main_arg6 (by decide))).trans (Cert.KernelIdeal.Hand.W13_untouched m c Cert.KernelIdeal.main_arg6 (by decide)),
        (h c _ (Cert.KernelIdeal.Hand.mem_ucH Cert.KernelIdeal.main_arg7 (by decide))).trans (Cert.KernelIdeal.Hand.W13_untouched m c Cert.KernelIdeal.main_arg7 (by decide)),
        (h c _ (Cert.KernelIdeal.Hand.mem_ucH Cert.KernelIdeal.main_arg8 (by decide))).trans (Cert.KernelIdeal.Hand.W13_untouched m c Cert.KernelIdeal.main_arg8 (by decide)),
        (h c _ (Cert.KernelIdeal.Hand.mem_ucH Cert.KernelIdeal.main_arg9 (by decide))).trans (Cert.KernelIdeal.Hand.W13_untouched m c Cert.KernelIdeal.main_arg9 (by decide)),
        (h c _ (Cert.KernelIdeal.Hand.mem_ucH Cert.KernelIdeal.main_arg10 (by decide))).trans (Cert.KernelIdeal.Hand.W13_untouched m c Cert.KernelIdeal.main_arg10 (by decide))⟩)
      (Cert.KernelIdeal.Hand.run_all m ρ)
  · refine (θ_run Cert.ReferenceIdeal.defs _ _).mono (fun _ h c => ⟨(h c).1.trans ?_, (h c).2⟩)
      (Cert.ReferenceIdeal.RunP.run (F := Ideal) m' ρ')
    obtain ⟨a0, a1, a2, a3, a4, a5, a6, a7, a8, a9, a10⟩ := hagree c
    rw [Cert.RefValue.ref_value m' c, a0, a1, a2, a3, a4, a5, a6, a7, a8, a9, a10]
    rw [← Cert.Final.lastAct_eq _ _ _ _ _ _ _ _ _ _
      (Cert.Finite.real_arg0 (c := c) hpre) (Cert.Finite.real_arg3 (c := c) hpre) (Cert.Finite.real_arg5 (c := c) hpre)
      (Cert.Finite.real_arg7 (c := c) hpre) (Cert.Finite.real_arg9 (c := c) hpre) (Cert.Finite.real_arg4 (c := c) hpre)
      (Cert.Finite.real_arg6 (c := c) hpre) (Cert.Finite.real_arg8 (c := c) hpre)]
    exact (Cert.KernelIdeal.Hand.ker_value m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
